-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S512x28000 : S_.BroadcastsInDim S512x28000 (![] : Fin 0 → Fin S512x28000.rank)
  reducesTo_S512x28000_S_d0_1 : S512x28000.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_
  bcast_S_S5000x3000 : S_.BroadcastsInDim S5000x3000 (![] : Fin 0 → Fin S5000x3000.rank)
  reducesTo_S5000x3000_S_d0_1 : S5000x3000.ReducesTo [0, 1] S_
  bcast_S_S8000x3000 : S_.BroadcastsInDim S8000x3000 (![] : Fin 0 → Fin S8000x3000.rank)
  reducesTo_S8000x3000_S_d0_1 : S8000x3000.ReducesTo [0, 1] S_
  bcast_S_S3000x3000 : S_.BroadcastsInDim S3000x3000 (![] : Fin 0 → Fin S3000x3000.rank)
  reducesTo_S3000x3000_S_d0_1 : S3000x3000.ReducesTo [0, 1] S_
  bcast_S_S5000x20000 : S_.BroadcastsInDim S5000x20000 (![] : Fin 0 → Fin S5000x20000.rank)
  reducesTo_S5000x20000_S_d0_1 : S5000x20000.ReducesTo [0, 1] S_
  bcast_S_S5000 : S_.BroadcastsInDim S5000 (![] : Fin 0 → Fin S5000.rank)
  reducesTo_S5000_S_d0 : S5000.ReducesTo [0] S_
  bcast_S_S3000x5000 : S_.BroadcastsInDim S3000x5000 (![] : Fin 0 → Fin S3000x5000.rank)
  reducesTo_S3000x5000_S_d0_1 : S3000x5000.ReducesTo [0, 1] S_
  bcast_S_S3000 : S_.BroadcastsInDim S3000 (![] : Fin 0 → Fin S3000.rank)
  reducesTo_S3000_S_d0 : S3000.ReducesTo [0] S_
  bcast_S_S3000x8000 : S_.BroadcastsInDim S3000x8000 (![] : Fin 0 → Fin S3000x8000.rank)
  reducesTo_S3000x8000_S_d0_1 : S3000x8000.ReducesTo [0, 1] S_
  bcast_S_S1024x6000 : S_.BroadcastsInDim S1024x6000 (![] : Fin 0 → Fin S1024x6000.rank)
  reducesTo_S1024x6000_S_d0_1 : S1024x6000.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1024 .f32) (main_arg15 : FVec F S256x1024 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S256x1024 .f32 := Host.absf main_arg15
  let main_cst_28 : FVec F S_ .f32 := constant S_ .f32 0x7F800000#32
  let main_v75 : FVec F S256x1024 .f32 := broadcastInDim S256x1024 ![] bcast_S_S256x1024 main_cst_28
  let main_v76 : IVec S256x1024 1 := cmpf .olt main_v74 main_v75
  let main_c_29 : IVec S_ 1 := constantI S_ 1 1#1
  let main_v77 : IVec S_ 1 := (fun x v => Host.reduce IntOp.andi x v reducesTo_S256x1024_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v48 : IVec S_ 1) (main_v49 : FVec F S3000 .f32) (main_v50 : FVec F S3000 .f32) : IVec S_ 1 :=
  let main_v51 : IVec S3000 1 := cmpf .olt main_v49 main_v50
  let main_c_19 : IVec S_ 1 := constantI S_ 1 1#1
  let main_v52 : IVec S_ 1 := (fun x v => Host.reduce IntOp.andi x v reducesTo_S3000_S_d0 h_S_) main_v51 main_c_19
  let main_v53 : IVec S_ 1 := andi main_v48 main_v52
  let main_v54 : FVec F S3000x3000 .f32 := Host.absf main_arg11
  let main_cst_20 : FVec F S_ .f32 := constant S_ .f32 0x7F800000#32
  let main_v55 : FVec F S3000x3000 .f32 := broadcastInDim S3000x3000 ![] bcast_S_S3000x3000 main_cst_20
  let main_v56 : IVec S3000x3000 1 := cmpf .olt main_v54 main_v55
  let main_c_21 : IVec S_ 1 := constantI S_ 1 1#1
  let main_v57 : IVec S_ 1 := (fun x v => Host.reduce IntOp.andi x v reducesTo_S3000x3000_S_d0_1 h_S_) main_v56 main_c_21
  let main_v58 : IVec S_ 1 := andi main_v53 main_v57
  let main_v59 : FVec F S3000 .f32 := Host.absf main_arg12
  let main_cst_22 : FVec F S_ .f32 := constant S_ .f32 0x7F800000#32
  let main_v60 : FVec F S3000 .f32 := broadcastInDim S3000 ![] bcast_S_S3000 main_cst_22
  let main_v61 : IVec S3000 1 := cmpf .olt main_v59 main_v60
  let main_c_23 : IVec S_ 1 := constantI S_ 1 1#1
  let main_v62 : IVec S_ 1 := (fun x v => Host.reduce IntOp.andi x v reducesTo_S3000_S_d0 h_S_) main_v61 main_c_23
  let main_v63 : IVec S_ 1 := andi main_v58 main_v62
  let main_v64 : FVec F S1024x6000 .f32 := Host.absf main_arg13
  let main_cst_24 : FVec F S_ .f32 := constant S_ .f32 0x7F800000#32
  let main_v65 : FVec F S1024x6000 .f32 := broadcastInDim S1024x6000 ![] bcast_S_S1024x6000 main_cst_24
  let main_v66 : IVec S1024x6000 1 := cmpf .olt main_v64 main_v65
  let main_c_25 : IVec S_ 1 := constantI S_ 1 1#1
  let main_v67 : IVec S_ 1 := (fun x v => Host.reduce IntOp.andi x v reducesTo_S1024x6000_S_d0_1 h_S_) main_v66 main_c_25
  fn_part4 (F := F) main_arg14 main_arg15 main_arg16 main_arg17 main_arg18 main_v63 main_v67

def fn_part2 {F : FTy → Type} [FloatOps F] (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v33 : IVec S_ 1) : IVec S_ 1 :=
  let main_v34 : FVec F S3000x5000 .f32 := Host.absf main_arg7
  let main_cst_12 : FVec F S_ .f32 := constant S_ .f32 0x7F800000#32
  let main_v35 : FVec F S3000x5000 .f32 := broadcastInDim S3000x5000 ![] bcast_S_S3000x5000 main_cst_12
  let main_v36 : IVec S3000x5000 1 := cmpf .olt main_v34 main_v35
  let main_c_13 : IVec S_ 1 := constantI S_ 1 1#1
  let main_v37 : IVec S_ 1 := (fun x v => Host.reduce IntOp.andi x v reducesTo_S3000x5000_S_d0_1 h_S_) main_v36 main_c_13
  let main_v38 : IVec S_ 1 := andi main_v33 main_v37
  let main_v39 : FVec F S3000 .f32 := Host.absf main_arg8
  let main_cst_14 : FVec F S_ .f32 := constant S_ .f32 0x7F800000#32
  let main_v40 : FVec F S3000 .f32 := broadcastInDim S3000 ![] bcast_S_S3000 main_cst_14
  let main_v41 : IVec S3000 1 := cmpf .olt main_v39 main_v40
  let main_c_15 : IVec S_ 1 := constantI S_ 1 1#1
  let main_v42 : IVec S_ 1 := (fun x v => Host.reduce IntOp.andi x v reducesTo_S3000_S_d0 h_S_) main_v41 main_c_15
  let main_v43 : IVec S_ 1 := andi main_v38 main_v42
  let main_v44 : FVec F S3000x8000 .f32 := Host.absf main_arg9
  let main_cst_16 : FVec F S_ .f32 := constant S_ .f32 0x7F800000#32
  let main_v45 : FVec F S3000x8000 .f32 := broadcastInDim S3000x8000 ![] bcast_S_S3000x8000 main_cst_16
  let main_v46 : IVec S3000x8000 1 := cmpf .olt main_v44 main_v45
  let main_c_17 : IVec S_ 1 := constantI S_ 1 1#1
  let main_v47 : IVec S_ 1 := (fun x v => Host.reduce IntOp.andi x v reducesTo_S3000x8000_S_d0_1 h_S_) main_v46 main_c_17
  let main_v48 : IVec S_ 1 := andi main_v43 main_v47
  let main_v49 : FVec F S3000 .f32 := Host.absf main_arg10
  let main_cst_18 : FVec F S_ .f32 := constant S_ .f32 0x7F800000#32
  let main_v50 : FVec F S3000 .f32 := broadcastInDim S3000 ![] bcast_S_S3000 main_cst_18
  fn_part3 (F := F) main_arg11 main_arg12 main_arg13 main_arg14 main_arg15 main_arg16 main_arg17 main_arg18 main_v48 main_v49 main_v50

def fn_part1 {F : FTy → Type} [FloatOps F] (main_arg4 : FVec F S3000x3000 .f32) (main_arg5 : FVec F S5000x20000 .f32) (main_arg6 : FVec F S5000 .f32) (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v13 : IVec S_ 1) (main_v16 : IVec S8000x3000 1) : IVec S_ 1 :=
  let main_c_5 : IVec S_ 1 := constantI S_ 1 1#1
  let main_v17 : IVec S_ 1 := (fun x v => Host.reduce IntOp.andi x v reducesTo_S8000x3000_S_d0_1 h_S_) main_v16 main_c_5
  let main_v18 : IVec S_ 1 := andi main_v13 main_v17
  let main_v19 : FVec F S3000x3000 .f32 := Host.absf main_arg4
  let main_cst_6 : FVec F S_ .f32 := constant S_ .f32 0x7F800000#32
  let main_v20 : FVec F S3000x3000 .f32 := broadcastInDim S3000x3000 ![] bcast_S_S3000x3000 main_cst_6
  let main_v21 : IVec S3000x3000 1 := cmpf .olt main_v19 main_v20
  let main_c_7 : IVec S_ 1 := constantI S_ 1 1#1
  let main_v22 : IVec S_ 1 := (fun x v => Host.reduce IntOp.andi x v reducesTo_S3000x3000_S_d0_1 h_S_) main_v21 main_c_7
  let main_v23 : IVec S_ 1 := andi main_v18 main_v22
  let main_v24 : FVec F S5000x20000 .f32 := Host.absf main_arg5
  let main_cst_8 : FVec F S_ .f32 := constant S_ .f32 0x7F800000#32
  let main_v25 : FVec F S5000x20000 .f32 := broadcastInDim S5000x20000 ![] bcast_S_S5000x20000 main_cst_8
  let main_v26 : IVec S5000x20000 1 := cmpf .olt main_v24 main_v25
  let main_c_9 : IVec S_ 1 := constantI S_ 1 1#1
  let main_v27 : IVec S_ 1 := (fun x v => Host.reduce IntOp.andi x v reducesTo_S5000x20000_S_d0_1 h_S_) main_v26 main_c_9
  let main_v28 : IVec S_ 1 := andi main_v23 main_v27
  let main_v29 : FVec F S5000 .f32 := Host.absf main_arg6
  let main_cst_10 : FVec F S_ .f32 := constant S_ .f32 0x7F800000#32
  let main_v30 : FVec F S5000 .f32 := broadcastInDim S5000 ![] bcast_S_S5000 main_cst_10
  let main_v31 : IVec S5000 1 := cmpf .olt main_v29 main_v30
  let main_c_11 : IVec S_ 1 := constantI S_ 1 1#1
  let main_v32 : IVec S_ 1 := (fun x v => Host.reduce IntOp.andi x v reducesTo_S5000_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S512x28000 .f32) (main_arg1 : FVec F S20000x5000 .f32) (main_arg2 : FVec F S5000x3000 .f32) (main_arg3 : FVec F S8000x3000 .f32) (main_arg4 : FVec F S3000x3000 .f32) (main_arg5 : FVec F S5000x20000 .f32) (main_arg6 : FVec F S5000 .f32) (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) : IVec S_ 1 :=
  let main_v0 : FVec F S512x28000 .f32 := Host.absf main_arg0
  let main_cst : FVec F S_ .f32 := constant S_ .f32 0x7F800000#32
  let main_v1 : FVec F S512x28000 .f32 := broadcastInDim S512x28000 ![] bcast_S_S512x28000 main_cst
  let main_v2 : IVec S512x28000 1 := cmpf .olt main_v0 main_v1
  let main_c : IVec S_ 1 := constantI S_ 1 1#1
  let main_v3 : IVec S_ 1 := (fun x v => Host.reduce IntOp.andi x v reducesTo_S512x28000_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S5000x3000 .f32 := Host.absf main_arg2
  let main_cst_2 : FVec F S_ .f32 := constant S_ .f32 0x7F800000#32
  let main_v10 : FVec F S5000x3000 .f32 := broadcastInDim S5000x3000 ![] bcast_S_S5000x3000 main_cst_2
  let main_v11 : IVec S5000x3000 1 := cmpf .olt main_v9 main_v10
  let main_c_3 : IVec S_ 1 := constantI S_ 1 1#1
  let main_v12 : IVec S_ 1 := (fun x v => Host.reduce IntOp.andi x v reducesTo_S5000x3000_S_d0_1 h_S_) main_v11 main_c_3
  let main_v13 : IVec S_ 1 := andi main_v8 main_v12
  let main_v14 : FVec F S8000x3000 .f32 := Host.absf main_arg3
  let main_cst_4 : FVec F S_ .f32 := constant S_ .f32 0x7F800000#32
  let main_v15 : FVec F S8000x3000 .f32 := broadcastInDim S8000x3000 ![] bcast_S_S8000x3000 main_cst_4
  let main_v16 : IVec S8000x3000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S512x20000 : Shape := ⟨2, ![512, 20000]⟩
abbrev S512x5000 : Shape := ⟨2, ![512, 5000]⟩
abbrev S512x3000 : Shape := ⟨2, ![512, 3000]⟩
abbrev S1x5000 : Shape := ⟨2, ![1, 5000]⟩
abbrev S512x1024 : Shape := ⟨2, ![512, 1024]⟩
abbrev S1024x1024 : Shape := ⟨2, ![1024, 1024]⟩
abbrev S1x1024 : Shape := ⟨2, ![1, 1024]⟩
abbrev S1x3000 : Shape := ⟨2, ![1, 3000]⟩
abbrev S1024x512 : Shape := ⟨2, ![1024, 512]⟩
abbrev S1x512 : Shape := ⟨2, ![1, 512]⟩
abbrev S512x512 : Shape := ⟨2, ![512, 512]⟩
abbrev S512x8000 : Shape := ⟨2, ![512, 8000]⟩
abbrev S512x6000 : Shape := ⟨2, ![512, 6000]⟩
abbrev S512x256 : Shape := ⟨2, ![512, 256]⟩
abbrev S1024x256 : Shape := ⟨2, ![1024, 256]⟩
abbrev S_ : Shape := ⟨0, ![]⟩
abbrev S128x256 : Shape := ⟨2, ![128, 256]⟩
abbrev S128 : Shape := ⟨1, ![128]⟩
abbrev S1x128 : Shape := ⟨2, ![1, 128]⟩
abbrev S512x128 : Shape := ⟨2, ![512, 128]⟩
abbrev S256x128 : Shape := ⟨2, ![256, 128]⟩
abbrev S512x1 : Shape := ⟨2, ![512, 1]⟩

abbrev nBuf : Space → Nat
  | .hbm => 45
  | .vmem => 61
  | .smem => 0
  | _ => 0

abbrev bufTy : (tb : Table) → Fin (tcTables nBuf tb) → BufTy
  | .hbm, ⟨0, _⟩ => ⟨S512x28000, .f32⟩
  | .hbm, ⟨1, _⟩ => ⟨S20000x5000, .f32⟩
  | .hbm, ⟨2, _⟩ => ⟨S5000x3000, .f32⟩
  | .hbm, ⟨3, _⟩ => ⟨S8000x3000, .f32⟩
  | .hbm, ⟨4, _⟩ => ⟨S3000x3000, .f32⟩
  | .hbm, ⟨5, _⟩ => ⟨S5000x20000, .f32⟩
  | .hbm, ⟨6, _⟩ => ⟨S5000, .f32⟩
  | .hbm, ⟨7, _⟩ => ⟨S3000x5000, .f32⟩
  | .hbm, ⟨8, _⟩ => ⟨S3000, .f32⟩
  | .hbm, ⟨9, _⟩ => ⟨S3000x8000, .f32⟩
  | .hbm, ⟨10, _⟩ => ⟨S3000, .f32⟩
  | .hbm, ⟨11, _⟩ => ⟨S3000x3000, .f32⟩
  | .hbm, ⟨12, _⟩ => ⟨S3000, .f32⟩
  | .hbm, ⟨13, _⟩ => ⟨S1024x6000, .f32⟩
  | .hbm, ⟨14, _⟩ => ⟨S1024, .f32⟩
  | .hbm, ⟨15, _⟩ => ⟨S256x1024, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S512x20000, .f32⟩
  | .hbm, ⟨20, _⟩ => ⟨S512x5000, .f32⟩
  | .hbm, ⟨21, _⟩ => ⟨S512x3000, .f32⟩
  | .hbm, ⟨22, _⟩ => ⟨S1x5000, .f32⟩
  | .hbm, ⟨23, _⟩ => ⟨S512x5000, .f32⟩
  | .hbm, ⟨24, _⟩ => ⟨S1x3000, .f32⟩
  | .hbm, ⟨25, _⟩ => ⟨S512x3000, .f32⟩
  | .hbm, ⟨26, _⟩ => ⟨S512x8000, .f32⟩
  | .hbm, ⟨27, _⟩ => ⟨S1x3000, .f32⟩
  | .hbm, ⟨28, _⟩ => ⟨S512x3000, .f32⟩
  | .hbm, ⟨29, _⟩ => ⟨S1x3000, .f32⟩
  | .hbm, ⟨30, _⟩ => ⟨S512x3000, .f32⟩
  | .hbm, ⟨31, _⟩ => ⟨S512x6000, .f32⟩
  | .hbm, ⟨32, _⟩ => ⟨S1x1024, .f32⟩
  | .hbm, ⟨33, _⟩ => ⟨S512x1024, .f32⟩
  | .hbm, ⟨34, _⟩ => ⟨S1x256, .f32⟩
  | .hbm, ⟨35, _⟩ => ⟨S512x256, .f32⟩
  | .hbm, ⟨36, _⟩ => ⟨S_, .i32⟩
  | .hbm, ⟨37, _⟩ => ⟨S_, .f32⟩
  | .hbm, ⟨38, _⟩ => ⟨S128x256, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S512x128, .f32⟩
  | .hbm, ⟨44, _⟩ => ⟨S512x1, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x512, .f32⟩
  | .local _ .vmem, ⟨16, _⟩ => ⟨S1024x512, .f32⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1024x512, .f32⟩
  | .local _ .vmem, ⟨27, _⟩ => ⟨S1024x512, .f32⟩
  | .local _ .vmem, ⟨28, _⟩ => ⟨S1x512, .f32⟩
  | .local _ .vmem, ⟨29, _⟩ => ⟨S1x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S1024x512, .f32⟩
  | .local _ .vmem, ⟨38, _⟩ => ⟨S1024x512, .f32⟩
  | .local _ .vmem, ⟨39, _⟩ => ⟨S1x512, .f32⟩
  | .local _ .vmem, ⟨40, _⟩ => ⟨S1x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x1024, .f32⟩
  | .local _ .vmem, ⟨45, _⟩ => ⟨S512x1024, .f32⟩
  | .local _ .vmem, ⟨46, _⟩ => ⟨S1024x1024, .f32⟩
  | .local _ .vmem, ⟨47, _⟩ => ⟨S1024x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S256x1024, .f32⟩
  | .local _ .vmem, ⟨53, _⟩ => ⟨S1x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S128x256, .f32⟩
  | .local _ .vmem, ⟨58, _⟩ => ⟨S1x128, .f32⟩
  | .local _ .vmem, ⟨59, _⟩ => ⟨S512x128, .f32⟩
  | .local _ .vmem, ⟨60, _⟩ => ⟨S512x128, .f32⟩
  | _, _ => ⟨S512x28000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_call0_v0 : Ref sig .tc := ⟨.hbm, 37, rfl⟩
abbrev main_v17 : Ref sig .tc := ⟨.hbm, 38, rfl⟩
abbrev main_c_0 : Ref sig .tc := ⟨.hbm, 39, rfl⟩
abbrev main_call1_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_scratch0 : Ref sig .tc := ⟨.vmem, 50, rfl⟩
abbrev cc5_stg0_0 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_scratch0 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_scratch0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc5_sem0_0 : DmaSem sig := 46
abbrev cc5_sem1_0 : DmaSem sig := 47
abbrev cc5_sem2_0 : DmaSem sig := 48
abbrev cc5_sem3_0 : DmaSem sig := 49
abbrev cc6_sem0_0 : DmaSem sig := 50
abbrev cc6_sem1_0 : DmaSem sig := 51
abbrev cc6_sem2_0 : DmaSem sig := 52
abbrev cc6_sem3_0 : DmaSem sig := 53

abbrev nD : Nat := 1
abbrev τ : Topo := Topo.v7x

variable {F : FTy → Type} [FloatOps F]

abbrev grid0 : Pipeline.Grid := ⟨2, ![5, 20], ![false, false]⟩

def k0_cond2 (i : grid0.Coords) : BitVec 1 :=
  let arg1 : BitVec 32 := BitVec.ofNat 32 (i 1).val
  let c19_i32 : BitVec 32 := 19#32
  let v25 : BitVec 1 := Scalar.cmpi .eq arg1 c19_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![6, 5], ![false, false]⟩

def k1_cond2 (i : grid1.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![6, 8], ![false, false]⟩

def k2_cond2 (i : grid2.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![6, 3], ![false, false]⟩

def k3_cond2 (i : grid3.Coords) : BitVec 1 :=
  let arg1 : BitVec 32 := BitVec.ofNat 32 (i 1).val
  let c2_i32 : BitVec 32 := 2#32
  let v25 : BitVec 1 := Scalar.cmpi .eq arg1 c2_i32
  let v26 : BitVec 32 := Scalar.extui v25
  let c0_i32_11 : BitVec 32 := 0#32
  let v27 : BitVec 1 := Scalar.cmpi .ne v26 c0_i32_11
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![1, 6], ![false, false]⟩

def k4_cond2 (i : grid4.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_9 : BitVec 32 := 0#32
  let v25 : BitVec 1 := Scalar.cmpi .ne v24 c0_i32_9
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev stage4_3 : Fin 1 → Memref sig .tc .vmem S512x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev grid5 : Pipeline.Grid := ⟨2, ![1, 1], ![false, false]⟩

def k5_cond2 (i : grid5.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 1 → Memref sig .tc .vmem S512x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 1 → Memref sig .tc .vmem S256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev stage5_3 : Fin 1 → Memref sig .tc .vmem S512x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, false]

abbrev grid6 : Pipeline.Grid := ⟨2, ![1, 1], ![false, false]⟩

def k6_cond2 (i : grid6.Coords) : BitVec 1 :=
  let arg1 : BitVec 32 := BitVec.ofNat 32 (i 1).val
  let c0_i32_8 : BitVec 32 := 0#32
  let v16 : BitVec 1 := Scalar.cmpi .eq arg1 c0_i32_8
  let v17 : BitVec 32 := Scalar.extui v16
  let c0_i32_9 : BitVec 32 := 0#32
  let v18 : BitVec 1 := Scalar.cmpi .ne v17 c0_i32_9
  v18

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 1 → Memref sig .tc .vmem S512x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true, false]

class Facts₀ : Prop where
  slices_S512x28000_S512x20000_0_8000 : S512x28000.Slices ![0, 8000] S512x20000
  slices_S512x28000_S512x5000_0_3000 : S512x28000.Slices ![0, 3000] S512x5000
  slices_S512x28000_S512x3000_0_0 : S512x28000.Slices ![0, 0] S512x3000
  shapeCasts_S5000_S1x5000 : S5000.ShapeCasts S1x5000
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  iota_S1024x1024_d0_w32 : S1024x1024.Iotas .tc 32 [0]
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S3000_S1x3000 : S3000.ShapeCasts S1x3000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  iota_S1024x512_d0_w32 : S1024x512.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  concatenates_S512x5000_S512x3000_S512x8000_d1 : Shape.Concatenates [S512x5000, S512x3000] S512x8000 1
  concatenates_S512x3000_S512x3000_S512x6000_d1 : Shape.Concatenates [S512x3000, S512x3000] S512x6000 1
  shapeCasts_S1024_S1x1024 : S1024.ShapeCasts S1x1024
  iota_S1024x1024_d1_w32 : S1024x1024.Iotas .tc 32 [1]
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  pads_S1x256_S128x256_01270_000 : S1x256.Pads (![0, 0] : Fin 2 → Nat) ![127, 0] ![0, 0] S128x256
  h_S_ : 0 < S_.numel
  pads_S1_S128_01270 : S1.Pads (![0] : Fin 1 → Nat) ![127] ![0] S128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_S512x1_0_0 : S512x128.Slices ![0, 0] S512x1
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1024.size a < S512x20000.size a
  hwx0_0 : ∀ i : grid0.Coords, EltTy.bits .f32 = 32 ∨ (Rect.unit (s := S512x20000) (fun a => cc0_transform_0 i a * S512x1024.size a) (fun a => (Pipeline.Clip.of (cc0_transform_0 i a) (S512x1024.size a) (S512x20000.size a)).extent (S512x1024.size a)) fun a => Pipeline.Clip.inb (Pipeline.Clip.ok_of (hstart0_0 i a))).WholeWords (EltTy.packing .f32)
  hwxs0_0 : ∀ i : grid0.Coords, EltTy.bits .f32 = 32 ∨ (Rect.unit (s := S512x1024) (fun _ => 0) (fun a => (Pipeline.Clip.of (cc0_transform_0 i a) (S512x1024.size a) (S512x20000.size a)).extent (S512x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S5000x20000.size a
  hwx0_1 : ∀ i : grid0.Coords, EltTy.bits .f32 = 32 ∨ (Rect.unit (s := S5000x20000) (fun a => cc0_transform_1 i a * S1024x1024.size a) (fun a => (Pipeline.Clip.of (cc0_transform_1 i a) (S1024x1024.size a) (S5000x20000.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S5000x20000.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S20000x5000.size a
  hwx0_2 : ∀ i : grid0.Coords, EltTy.bits .f32 = 32 ∨ (Rect.unit (s := S20000x5000) (fun a => cc0_transform_2 i a * S1024x1024.size a) (fun a => (Pipeline.Clip.of (cc0_transform_2 i a) (S1024x1024.size a) (S20000x5000.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S20000x5000.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x5000.size a
  hwx0_3 : ∀ i : grid0.Coords, EltTy.bits .f32 = 32 ∨ (Rect.unit (s := S1x5000) (fun a => cc0_transform_3 i a * S1x1024.size a) (fun a => (Pipeline.Clip.of (cc0_transform_3 i a) (S1x1024.size a) (S1x5000.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x5000.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x1024.size a < S512x5000.size a
  hwx0_4 : ∀ i : grid0.Coords, EltTy.bits .f32 = 32 ∨ (Rect.unit (s := S512x5000) (fun a => cc0_transform_4 i a * S512x1024.size a) (fun a => (Pipeline.Clip.of (cc0_transform_4 i a) (S512x1024.size a) (S512x5000.size a)).extent (S512x1024.size a)) fun a => Pipeline.Clip.inb (Pipeline.Clip.ok_of (hstart0_4 i a))).WholeWords (EltTy.packing .f32)
  hwxs0_4 : ∀ i : grid0.Coords, EltTy.bits .f32 = 32 ∨ (Rect.unit (s := S512x1024) (fun _ => 0) (fun a => (Pipeline.Clip.of (cc0_transform_4 i a) (S512x1024.size a) (S512x5000.size a)).extent (S512x1024.size a)) fun a => (Nat.zero_add _).trans_le (Pipeline.Clip.extent_le (Pipeline.Clip.ok_of (hstart0_4 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S512x1024.size a < S512x5000.size a
  hwx1_0 : ∀ i : grid1.Coords, EltTy.bits .f32 = 32 ∨ (Rect.unit (s := S512x5000) (fun a => cc1_transform_0 i a * S512x1024.size a) (fun a => (Pipeline.Clip.of (cc1_transform_0 i a) (S512x1024.size a) (S512x5000.size a)).extent (S512x1024.size a)) fun a => Pipeline.Clip.inb (Pipeline.Clip.ok_of (hstart1_0 i a))).WholeWords (EltTy.packing .f32)
  hwxs1_0 : ∀ i : grid1.Coords, EltTy.bits .f32 = 32 ∨ (Rect.unit (s := S512x1024) (fun _ => 0) (fun a => (Pipeline.Clip.of (cc1_transform_0 i a) (S512x1024.size a) (S512x5000.size a)).extent (S512x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x1024.size a < S3000x5000.size a
  hwx1_1 : ∀ i : grid1.Coords, EltTy.bits .f32 = 32 ∨ (Rect.unit (s := S3000x5000) (fun a => cc1_transform_1 i a * S512x1024.size a) (fun a => (Pipeline.Clip.of (cc1_transform_1 i a) (S512x1024.size a) (S3000x5000.size a)).extent (S512x1024.size a)) fun a => Pipeline.Clip.inb (Pipeline.Clip.ok_of (hstart1_1 i a))).WholeWords (EltTy.packing .f32)
  hwxs1_1 : ∀ i : grid1.Coords, EltTy.bits .f32 = 32 ∨ (Rect.unit (s := S512x1024) (fun _ => 0) (fun a => (Pipeline.Clip.of (cc1_transform_1 i a) (S512x1024.size a) (S3000x5000.size a)).extent (S512x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x512.size a < S5000x3000.size a
  hwx1_2 : ∀ i : grid1.Coords, EltTy.bits .f32 = 32 ∨ (Rect.unit (s := S5000x3000) (fun a => cc1_transform_2 i a * S1024x512.size a) (fun a => (Pipeline.Clip.of (cc1_transform_2 i a) (S1024x512.size a) (S5000x3000.size a)).extent (S1024x512.size a)) fun a => Pipeline.Clip.inb (Pipeline.Clip.ok_of (hstart1_2 i a))).WholeWords (EltTy.packing .f32)
  hwxs1_2 : ∀ i : grid1.Coords, EltTy.bits .f32 = 32 ∨ (Rect.unit (s := S1024x512) (fun _ => 0) (fun a => (Pipeline.Clip.of (cc1_transform_2 i a) (S1024x512.size a) (S5000x3000.size a)).extent (S1024x512.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x512.size a < S1x3000.size a
  hwx1_3 : ∀ i : grid1.Coords, EltTy.bits .f32 = 32 ∨ (Rect.unit (s := S1x3000) (fun a => cc1_transform_3 i a * S1x512.size a) (fun a => (Pipeline.Clip.of (cc1_transform_3 i a) (S1x512.size a) (S1x3000.size a)).extent (S1x512.size a)) fun a => Pipeline.Clip.inb (Pipeline.Clip.ok_of (hstart1_3 i a))).WholeWords (EltTy.packing .f32)
  hwxs1_3 : ∀ i : grid1.Coords, EltTy.bits .f32 = 32 ∨ (Rect.unit (s := S1x512) (fun _ => 0) (fun a => (Pipeline.Clip.of (cc1_transform_3 i a) (S1x512.size a) (S1x3000.size a)).extent (S1x512.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S512x512.size a < S512x3000.size a
  hwx1_4 : ∀ i : grid1.Coords, EltTy.bits .f32 = 32 ∨ (Rect.unit (s := S512x3000) (fun a => cc1_transform_4 i a * S512x512.size a) (fun a => (Pipeline.Clip.of (cc1_transform_4 i a) (S512x512.size a) (S512x3000.size a)).extent (S512x512.size a)) fun a => Pipeline.Clip.inb (Pipeline.Clip.ok_of (hstart1_4 i a))).WholeWords (EltTy.packing .f32)
  hwxs1_4 : ∀ i : grid1.Coords, EltTy.bits .f32 = 32 ∨ (Rect.unit (s := S512x512) (fun _ => 0) (fun a => (Pipeline.Clip.of (cc1_transform_4 i a) (S512x512.size a) (S512x3000.size a)).extent (S512x512.size a)) fun a => (Nat.zero_add _).trans_le (Pipeline.Clip.extent_le (Pipeline.Clip.ok_of (hstart1_4 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S512x1024.size a < S512x8000.size a
  hwx2_0 : ∀ i : grid2.Coords, EltTy.bits .f32 = 32 ∨ (Rect.unit (s := S512x8000) (fun a => cc2_transform_0 i a * S512x1024.size a) (fun a => (Pipeline.Clip.of (cc2_transform_0 i a) (S512x1024.size a) (S512x8000.size a)).extent (S512x1024.size a)) fun a => Pipeline.Clip.inb (Pipeline.Clip.ok_of (hstart2_0 i a))).WholeWords (EltTy.packing .f32)
  hwxs2_0 : ∀ i : grid2.Coords, EltTy.bits .f32 = 32 ∨ (Rect.unit (s := S512x1024) (fun _ => 0) (fun a => (Pipeline.Clip.of (cc2_transform_0 i a) (S512x1024.size a) (S512x8000.size a)).extent (S512x1024.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x1024.size a < S3000x8000.size a
  hwx2_1 : ∀ i : grid2.Coords, EltTy.bits .f32 = 32 ∨ (Rect.unit (s := S3000x8000) (fun a => cc2_transform_1 i a * S512x1024.size a) (fun a => (Pipeline.Clip.of (cc2_transform_1 i a) (S512x1024.size a) (S3000x8000.size a)).extent (S512x1024.size a)) fun a => Pipeline.Clip.inb (Pipeline.Clip.ok_of (hstart2_1 i a))).WholeWords (EltTy.packing .f32)
  hwxs2_1 : ∀ i : grid2.Coords, EltTy.bits .f32 = 32 ∨ (Rect.unit (s := S512x1024) (fun _ => 0) (fun a => (Pipeline.Clip.of (cc2_transform_1 i a) (S512x1024.size a) (S3000x8000.size a)).extent (S512x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1024x512.size a < S8000x3000.size a
  hwx2_2 : ∀ i : grid2.Coords, EltTy.bits .f32 = 32 ∨ (Rect.unit (s := S8000x3000) (fun a => cc2_transform_2 i a * S1024x512.size a) (fun a => (Pipeline.Clip.of (cc2_transform_2 i a) (S1024x512.size a) (S8000x3000.size a)).extent (S1024x512.size a)) fun a => Pipeline.Clip.inb (Pipeline.Clip.ok_of (hstart2_2 i a))).WholeWords (EltTy.packing .f32)
  hwxs2_2 : ∀ i : grid2.Coords, EltTy.bits .f32 = 32 ∨ (Rect.unit (s := S1024x512) (fun _ => 0) (fun a => (Pipeline.Clip.of (cc2_transform_2 i a) (S1024x512.size a) (S8000x3000.size a)).extent (S1024x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x512.size a < S1x3000.size a
  hwx2_3 : ∀ i : grid2.Coords, EltTy.bits .f32 = 32 ∨ (Rect.unit (s := S1x3000) (fun a => cc2_transform_3 i a * S1x512.size a) (fun a => (Pipeline.Clip.of (cc2_transform_3 i a) (S1x512.size a) (S1x3000.size a)).extent (S1x512.size a)) fun a => Pipeline.Clip.inb (Pipeline.Clip.ok_of (hstart2_3 i a))).WholeWords (EltTy.packing .f32)
  hwxs2_3 : ∀ i : grid2.Coords, EltTy.bits .f32 = 32 ∨ (Rect.unit (s := S1x512) (fun _ => 0) (fun a => (Pipeline.Clip.of (cc2_transform_3 i a) (S1x512.size a) (S1x3000.size a)).extent (S1x512.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S512x512.size a < S512x3000.size a
  hwx2_4 : ∀ i : grid2.Coords, EltTy.bits .f32 = 32 ∨ (Rect.unit (s := S512x3000) (fun a => cc2_transform_4 i a * S512x512.size a) (fun a => (Pipeline.Clip.of (cc2_transform_4 i a) (S512x512.size a) (S512x3000.size a)).extent (S512x512.size a)) fun a => Pipeline.Clip.inb (Pipeline.Clip.ok_of (hstart2_4 i a))).WholeWords (EltTy.packing .f32)
  hwxs2_4 : ∀ i : grid2.Coords, EltTy.bits .f32 = 32 ∨ (Rect.unit (s := S512x512) (fun _ => 0) (fun a => (Pipeline.Clip.of (cc2_transform_4 i a) (S512x512.size a) (S512x3000.size a)).extent (S512x512.size a)) fun a => (Nat.zero_add _).trans_le (Pipeline.Clip.extent_le (Pipeline.Clip.ok_of (hstart2_4 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S512x1024.size a < S512x3000.size a
  hwx3_0 : ∀ i : grid3.Coords, EltTy.bits .f32 = 32 ∨ (Rect.unit (s := S512x3000) (fun a => cc3_transform_0 i a * S512x1024.size a) (fun a => (Pipeline.Clip.of (cc3_transform_0 i a) (S512x1024.size a) (S512x3000.size a)).extent (S512x1024.size a)) fun a => Pipeline.Clip.inb (Pipeline.Clip.ok_of (hstart3_0 i a))).WholeWords (EltTy.packing .f32)
  hwxs3_0 : ∀ i : grid3.Coords, EltTy.bits .f32 = 32 ∨ (Rect.unit (s := S512x1024) (fun _ => 0) (fun a => (Pipeline.Clip.of (cc3_transform_0 i a) (S512x1024.size a) (S512x3000.size a)).extent (S512x1024.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S512x1024.size a < S3000x3000.size a
  hwx3_1 : ∀ i : grid3.Coords, EltTy.bits .f32 = 32 ∨ (Rect.unit (s := S3000x3000) (fun a => cc3_transform_1 i a * S512x1024.size a) (fun a => (Pipeline.Clip.of (cc3_transform_1 i a) (S512x1024.size a) (S3000x3000.size a)).extent (S512x1024.size a)) fun a => Pipeline.Clip.inb (Pipeline.Clip.ok_of (hstart3_1 i a))).WholeWords (EltTy.packing .f32)
  hwxs3_1 : ∀ i : grid3.Coords, EltTy.bits .f32 = 32 ∨ (Rect.unit (s := S512x1024) (fun _ => 0) (fun a => (Pipeline.Clip.of (cc3_transform_1 i a) (S512x1024.size a) (S3000x3000.size a)).extent (S512x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1024x512.size a < S3000x3000.size a
  hwx3_2 : ∀ i : grid3.Coords, EltTy.bits .f32 = 32 ∨ (Rect.unit (s := S3000x3000) (fun a => cc3_transform_2 i a * S1024x512.size a) (fun a => (Pipeline.Clip.of (cc3_transform_2 i a) (S1024x512.size a) (S3000x3000.size a)).extent (S1024x512.size a)) fun a => Pipeline.Clip.inb (Pipeline.Clip.ok_of (hstart3_2 i a))).WholeWords (EltTy.packing .f32)
  hwxs3_2 : ∀ i : grid3.Coords, EltTy.bits .f32 = 32 ∨ (Rect.unit (s := S1024x512) (fun _ => 0) (fun a => (Pipeline.Clip.of (cc3_transform_2 i a) (S1024x512.size a) (S3000x3000.size a)).extent (S1024x512.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x512.size a < S1x3000.size a
  hwx3_3 : ∀ i : grid3.Coords, EltTy.bits .f32 = 32 ∨ (Rect.unit (s := S1x3000) (fun a => cc3_transform_3 i a * S1x512.size a) (fun a => (Pipeline.Clip.of (cc3_transform_3 i a) (S1x512.size a) (S1x3000.size a)).extent (S1x512.size a)) fun a => Pipeline.Clip.inb (Pipeline.Clip.ok_of (hstart3_3 i a))).WholeWords (EltTy.packing .f32)
  hwxs3_3 : ∀ i : grid3.Coords, EltTy.bits .f32 = 32 ∨ (Rect.unit (s := S1x512) (fun _ => 0) (fun a => (Pipeline.Clip.of (cc3_transform_3 i a) (S1x512.size a) (S1x3000.size a)).extent (S1x512.size a)) fun a => (Nat.zero_add _).trans_le (Pipeline.Clip.extent_le (Pipeline.Clip.ok_of (hstart3_3 i a)))).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hstart3_4 : ∀ (i : grid3.Coords) a, cc3_transform_4 i a * S512x512.size a < S512x3000.size a
  hwx3_4 : ∀ i : grid3.Coords, EltTy.bits .f32 = 32 ∨ (Rect.unit (s := S512x3000) (fun a => cc3_transform_4 i a * S512x512.size a) (fun a => (Pipeline.Clip.of (cc3_transform_4 i a) (S512x512.size a) (S512x3000.size a)).extent (S512x512.size a)) fun a => Pipeline.Clip.inb (Pipeline.Clip.ok_of (hstart3_4 i a))).WholeWords (EltTy.packing .f32)
  hwxs3_4 : ∀ i : grid3.Coords, EltTy.bits .f32 = 32 ∨ (Rect.unit (s := S512x512) (fun _ => 0) (fun a => (Pipeline.Clip.of (cc3_transform_4 i a) (S512x512.size a) (S512x3000.size a)).extent (S512x512.size a)) fun a => (Nat.zero_add _).trans_le (Pipeline.Clip.extent_le (Pipeline.Clip.ok_of (hstart3_4 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S512x1024.size a < S512x6000.size a
  hwx4_0 : ∀ i : grid4.Coords, EltTy.bits .f32 = 32 ∨ (Rect.unit (s := S512x6000) (fun a => cc4_transform_0 i a * S512x1024.size a) (fun a => (Pipeline.Clip.of (cc4_transform_0 i a) (S512x1024.size a) (S512x6000.size a)).extent (S512x1024.size a)) fun a => Pipeline.Clip.inb (Pipeline.Clip.ok_of (hstart4_0 i a))).WholeWords (EltTy.packing .f32)
  hwxs4_0 : ∀ i : grid4.Coords, EltTy.bits .f32 = 32 ∨ (Rect.unit (s := S512x1024) (fun _ => 0) (fun a => (Pipeline.Clip.of (cc4_transform_0 i a) (S512x1024.size a) (S512x6000.size a)).extent (S512x1024.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S1024x1024.size a < S1024x6000.size a
  hwx4_1 : ∀ i : grid4.Coords, EltTy.bits .f32 = 32 ∨ (Rect.unit (s := S1024x6000) (fun a => cc4_transform_1 i a * S1024x1024.size a) (fun a => (Pipeline.Clip.of (cc4_transform_1 i a) (S1024x1024.size a) (S1024x6000.size a)).extent (S1024x1024.size a)) fun a => Pipeline.Clip.inb (Pipeline.Clip.ok_of (hstart4_1 i a))).WholeWords (EltTy.packing .f32)
  hwxs4_1 : ∀ i : grid4.Coords, EltTy.bits .f32 = 32 ∨ (Rect.unit (s := S1024x1024) (fun _ => 0) (fun a => (Pipeline.Clip.of (cc4_transform_1 i a) (S1024x1024.size a) (S1024x6000.size a)).extent (S1024x1024.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S512x1024.size a
  hwx4_3 : ∀ i : grid4.Coords, EltTy.bits .f32 = 32 ∨ (Rect.block (s := S512x1024) S512x1024.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S512x1024.size a
  hwx5_0 : ∀ i : grid5.Coords, EltTy.bits .f32 = 32 ∨ (Rect.block (s := S512x1024) S512x1024.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S256x1024.size a ≤ S256x1024.size a
  hwx5_1 : ∀ i : grid5.Coords, EltTy.bits .f32 = 32 ∨ (Rect.block (s := S256x1024) S256x1024.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S512x256.size a
  hwx5_3 : ∀ i : grid5.Coords, EltTy.bits .f32 = 32 ∨ (Rect.block (s := S512x256) S512x256.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S512x256.size a
  hwx6_0 : ∀ i : grid6.Coords, EltTy.bits .f32 = 32 ∨ (Rect.block (s := S512x256) S512x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpecClip (Memref.whole main_v0) S512x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg5) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v4) S512x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpecClip (Memref.whole main_v1) S512x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg7) S512x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg2) S1024x512.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S1x512.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v6) S512x512.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpecClip (Memref.whole main_v7) S512x1024.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_arg9) S512x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_arg3) S1024x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v8) S1x512.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v9) S512x512.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpecClip (Memref.whole main_v2) S512x1024.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_arg11) S512x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_arg4) S1024x512.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v10) S1x512.size cc3_transform_3 reads3_3 false false 2 stage3_3 sem3_3
    hrank3 hreads3_3 hstart3_3 nbuf3_3 (Memref.isWhole_whole _) hwx3_3 hwxs3_3 hstage3_3

abbrev win3_4 : Pipeline.Window sig grid3 :=
  Pipeline.Window.ofSpecClip (Memref.whole main_v11) S512x512.size cc3_transform_4 reads3_4 true false 2 stage3_4 sem3_4
    hrank3 hreads3_4 hstart3_4 nbuf3_4 (Memref.isWhole_whole _) hwx3_4 hwxs3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpecClip (Memref.whole main_v12) S512x1024.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_arg13) S1024x1024.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpec (Memref.whole main_v13) S1x1024.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v14) S512x1024.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v14) S512x1024.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S256x1024.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S1x256.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v16) S512x256.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v16) S512x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v17) S128x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v19) S1x128.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v20) S512x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

class Facts : Prop extends Facts₀ where

variable [Facts]
-- ==== ReferenceIdeal.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S512x20000 : Shape := ⟨2, ![512, 20000]⟩
abbrev S512x5000 : Shape := ⟨2, ![512, 5000]⟩
abbrev S512x3000 : Shape := ⟨2, ![512, 3000]⟩
abbrev S1x5000 : Shape := ⟨2, ![1, 5000]⟩
abbrev S_ : Shape := ⟨0, ![]⟩
abbrev S1x3000 : Shape := ⟨2, ![1, 3000]⟩
abbrev S512x8000 : Shape := ⟨2, ![512, 8000]⟩
abbrev S512x6000 : Shape := ⟨2, ![512, 6000]⟩
abbrev S6000x1024 : Shape := ⟨2, ![6000, 1024]⟩
abbrev S512x1024 : Shape := ⟨2, ![512, 1024]⟩
abbrev S1x1024 : Shape := ⟨2, ![1, 1024]⟩
abbrev S1024x256 : Shape := ⟨2, ![1024, 256]⟩
abbrev S512x256 : Shape := ⟨2, ![512, 256]⟩
abbrev S256x1 : Shape := ⟨2, ![256, 1]⟩
abbrev S512x1 : Shape := ⟨2, ![512, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x28000, .f32⟩
  | .hbm, ⟨1, _⟩ => ⟨S20000x5000, .f32⟩
  | .hbm, ⟨2, _⟩ => ⟨S5000x3000, .f32⟩
  | .hbm, ⟨3, _⟩ => ⟨S8000x3000, .f32⟩
  | .hbm, ⟨4, _⟩ => ⟨S3000x3000, .f32⟩
  | .hbm, ⟨5, _⟩ => ⟨S5000x20000, .f32⟩
  | .hbm, ⟨6, _⟩ => ⟨S5000, .f32⟩
  | .hbm, ⟨7, _⟩ => ⟨S3000x5000, .f32⟩
  | .hbm, ⟨8, _⟩ => ⟨S3000, .f32⟩
  | .hbm, ⟨9, _⟩ => ⟨S3000x8000, .f32⟩
  | .hbm, ⟨10, _⟩ => ⟨S3000, .f32⟩
  | .hbm, ⟨11, _⟩ => ⟨S3000x3000, .f32⟩
  | .hbm, ⟨12, _⟩ => ⟨S3000, .f32⟩
  | .hbm, ⟨13, _⟩ => ⟨S1024x6000, .f32⟩
  | .hbm, ⟨14, _⟩ => ⟨S1024, .f32⟩
  | .hbm, ⟨15, _⟩ => ⟨S256x1024, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S512x20000, .f32⟩
  | .hbm, ⟨20, _⟩ => ⟨S512x5000, .f32⟩
  | .hbm, ⟨21, _⟩ => ⟨S512x3000, .f32⟩
  | .hbm, ⟨22, _⟩ => ⟨S20000x5000, .f32⟩
  | .hbm, ⟨23, _⟩ => ⟨S20000x5000, .f32⟩
  | .hbm, ⟨24, _⟩ => ⟨S512x5000, .f32⟩
  | .hbm, ⟨25, _⟩ => ⟨S1x5000, .f32⟩
  | .hbm, ⟨26, _⟩ => ⟨S512x5000, .f32⟩
  | .hbm, ⟨27, _⟩ => ⟨S512x5000, .f32⟩
  | .hbm, ⟨28, _⟩ => ⟨S_, .f32⟩
  | .hbm, ⟨29, _⟩ => ⟨S512x5000, .f32⟩
  | .hbm, ⟨30, _⟩ => ⟨S512x5000, .f32⟩
  | .hbm, ⟨31, _⟩ => ⟨S5000x3000, .f32⟩
  | .hbm, ⟨32, _⟩ => ⟨S5000x3000, .f32⟩
  | .hbm, ⟨33, _⟩ => ⟨S512x3000, .f32⟩
  | .hbm, ⟨34, _⟩ => ⟨S1x3000, .f32⟩
  | .hbm, ⟨35, _⟩ => ⟨S512x3000, .f32⟩
  | .hbm, ⟨36, _⟩ => ⟨S512x3000, .f32⟩
  | .hbm, ⟨37, _⟩ => ⟨S_, .f32⟩
  | .hbm, ⟨38, _⟩ => ⟨S512x3000, .f32⟩
  | .hbm, ⟨39, _⟩ => ⟨S512x3000, .f32⟩
  | .hbm, ⟨40, _⟩ => ⟨S512x8000, .f32⟩
  | .hbm, ⟨41, _⟩ => ⟨S8000x3000, .f32⟩
  | .hbm, ⟨42, _⟩ => ⟨S8000x3000, .f32⟩
  | .hbm, ⟨43, _⟩ => ⟨S512x3000, .f32⟩
  | .hbm, ⟨44, _⟩ => ⟨S1x3000, .f32⟩
  | .hbm, ⟨45, _⟩ => ⟨S512x3000, .f32⟩
  | .hbm, ⟨46, _⟩ => ⟨S512x3000, .f32⟩
  | .hbm, ⟨47, _⟩ => ⟨S_, .f32⟩
  | .hbm, ⟨48, _⟩ => ⟨S512x3000, .f32⟩
  | .hbm, ⟨49, _⟩ => ⟨S512x3000, .f32⟩
  | .hbm, ⟨50, _⟩ => ⟨S3000x3000, .f32⟩
  | .hbm, ⟨51, _⟩ => ⟨S3000x3000, .f32⟩
  | .hbm, ⟨52, _⟩ => ⟨S512x3000, .f32⟩
  | .hbm, ⟨53, _⟩ => ⟨S1x3000, .f32⟩
  | .hbm, ⟨54, _⟩ => ⟨S512x3000, .f32⟩
  | .hbm, ⟨55, _⟩ => ⟨S512x3000, .f32⟩
  | .hbm, ⟨56, _⟩ => ⟨S_, .f32⟩
  | .hbm, ⟨57, _⟩ => ⟨S512x3000, .f32⟩
  | .hbm, ⟨58, _⟩ => ⟨S512x3000, .f32⟩
  | .hbm, ⟨59, _⟩ => ⟨S512x6000, .f32⟩
  | .hbm, ⟨60, _⟩ => ⟨S6000x1024, .f32⟩
  | .hbm, ⟨61, _⟩ => ⟨S512x1024, .f32⟩
  | .hbm, ⟨62, _⟩ => ⟨S1x1024, .f32⟩
  | .hbm, ⟨63, _⟩ => ⟨S512x1024, .f32⟩
  | .hbm, ⟨64, _⟩ => ⟨S512x1024, .f32⟩
  | .hbm, ⟨65, _⟩ => ⟨S_, .f32⟩
  | .hbm, ⟨66, _⟩ => ⟨S512x1024, .f32⟩
  | .hbm, ⟨67, _⟩ => ⟨S512x1024, .f32⟩
  | .hbm, ⟨68, _⟩ => ⟨S1024x256, .f32⟩
  | .hbm, ⟨69, _⟩ => ⟨S512x256, .f32⟩
  | .hbm, ⟨70, _⟩ => ⟨S1x256, .f32⟩
  | .hbm, ⟨71, _⟩ => ⟨S512x256, .f32⟩
  | .hbm, ⟨72, _⟩ => ⟨S512x256, .f32⟩
  | .hbm, ⟨73, _⟩ => ⟨S_, .f32⟩
  | .hbm, ⟨74, _⟩ => ⟨S512x256, .f32⟩
  | .hbm, ⟨75, _⟩ => ⟨S512x256, .f32⟩
  | .hbm, ⟨76, _⟩ => ⟨S256x1, .f32⟩
  | .hbm, ⟨77, _⟩ => ⟨S512x1, .f32⟩
  | .hbm, ⟨78, _⟩ => ⟨S1x1, .f32⟩
  | .hbm, ⟨79, _⟩ => ⟨S512x1, .f32⟩
  | .hbm, ⟨80, _⟩ => ⟨S512x1, .f32⟩
  | .hbm, ⟨81, _⟩ => ⟨S512x1, .f32⟩
  | .hbm, ⟨82, _⟩ => ⟨S512x1, .f32⟩
  | .hbm, ⟨83, _⟩ => ⟨S_, .f32⟩
  | .hbm, ⟨84, _⟩ => ⟨S512x1, .f32⟩
  | .hbm, ⟨85, _⟩ => ⟨S512x1, .f32⟩
  | .hbm, ⟨86, _⟩ => ⟨S_, .f32⟩
  | .hbm, ⟨87, _⟩ => ⟨S512x1, .f32⟩
  | .hbm, ⟨88, _⟩ => ⟨S512x1, .f32⟩
  | _, _ => ⟨S512x28000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_cst : Ref sig .tc := ⟨.hbm, 37, rfl⟩
abbrev main_call1_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_cst : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call4_cst : Ref sig .tc := ⟨.hbm, 65, rfl⟩
abbrev main_call4_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call5_cst : Ref sig .tc := ⟨.hbm, 73, rfl⟩
abbrev main_call5_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst : Ref sig .tc := ⟨.hbm, 83, rfl⟩
abbrev main_v52 : Ref sig .tc := ⟨.hbm, 84, rfl⟩
abbrev main_v53 : Ref sig .tc := ⟨.hbm, 85, rfl⟩
abbrev main_cst_0 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]

class Facts₀ : Prop where
  slices_S512x28000_S512x20000_0_8000 : S512x28000.Slices ![0, 8000] S512x20000
  slices_S512x28000_S512x5000_0_3000 : S512x28000.Slices ![0, 3000] S512x5000
  slices_S512x28000_S512x3000_0_0 : S512x28000.Slices ![0, 0] S512x3000
  transposes_S5000x20000_S20000x5000_1_0 : S5000x20000.Transposes [1, 0] S20000x5000
  bcast_S5000_S1x5000_1 : S5000.BroadcastsInDim S1x5000 (![1] : Fin 1 → Fin S1x5000.rank)
  bcast_S1x5000_S512x5000_0_1 : S1x5000.BroadcastsInDim S512x5000 (![0, 1] : Fin 2 → Fin S512x5000.rank)
  bcast_S_S512x5000 : S_.BroadcastsInDim S512x5000 (![] : Fin 0 → Fin S512x5000.rank)
  transposes_S3000x5000_S5000x3000_1_0 : S3000x5000.Transposes [1, 0] S5000x3000
  bcast_S3000_S1x3000_1 : S3000.BroadcastsInDim S1x3000 (![1] : Fin 1 → Fin S1x3000.rank)
  bcast_S1x3000_S512x3000_0_1 : S1x3000.BroadcastsInDim S512x3000 (![0, 1] : Fin 2 → Fin S512x3000.rank)
  bcast_S_S512x3000 : S_.BroadcastsInDim S512x3000 (![] : Fin 0 → Fin S512x3000.rank)
  concatenates_S512x5000_S512x3000_S512x8000_d1 : Shape.Concatenates [S512x5000, S512x3000] S512x8000 1
  transposes_S3000x8000_S8000x3000_1_0 : S3000x8000.Transposes [1, 0] S8000x3000
  transposes_S3000x3000_S3000x3000_1_0 : S3000x3000.Transposes [1, 0] S3000x3000
  concatenates_S512x3000_S512x3000_S512x6000_d1 : Shape.Concatenates [S512x3000, S512x3000] S512x6000 1
  transposes_S1024x6000_S6000x1024_1_0 : S1024x6000.Transposes [1, 0] S6000x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  transposes_S256x1024_S1024x256_1_0 : S256x1024.Transposes [1, 0] S1024x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S1x256_S256x1_1_0 : S1x256.Transposes [1, 0] S256x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S512x20000_S20000x5000_S512x5000_1_0_0_1_n_n_wf : DotDims.WF S512x20000 S20000x5000 S512x5000 [1] [0] [0] [1] [] []
  dot_S512x5000_S5000x3000_S512x3000_1_0_0_1_n_n_wf : DotDims.WF S512x5000 S5000x3000 S512x3000 [1] [0] [0] [1] [] []
  dot_S512x8000_S8000x3000_S512x3000_1_0_0_1_n_n_wf : DotDims.WF S512x8000 S8000x3000 S512x3000 [1] [0] [0] [1] [] []
  dot_S512x3000_S3000x3000_S512x3000_1_0_0_1_n_n_wf : DotDims.WF S512x3000 S3000x3000 S512x3000 [1] [0] [0] [1] [] []
  dot_S512x6000_S6000x1024_S512x1024_1_0_0_1_n_n_wf : DotDims.WF S512x6000 S6000x1024 S512x1024 [1] [0] [0] [1] [] []
  dot_S512x1024_S1024x256_S512x256_1_0_0_1_n_n_wf : DotDims.WF S512x1024 S1024x256 S512x256 [1] [0] [0] [1] [] []
  dot_S512x256_S256x1_S512x1_1_0_0_1_n_n_wf : DotDims.WF S512x256 S256x1 S512x1 [1] [0] [0] [1] [] []

variable [Facts₀]

def dot_S512x20000_S20000x5000_S512x5000_1_0_0_1_n_n : DotDims S512x20000 S20000x5000 S512x5000 where
  lhsContracting := [1]
  rhsContracting := [0]
  lhsNonContracting := [0]
  rhsNonContracting := [1]
  lhsBatch := []
  rhsBatch := []
  wf := dot_S512x20000_S20000x5000_S512x5000_1_0_0_1_n_n_wf
def dot_S512x5000_S5000x3000_S512x3000_1_0_0_1_n_n : DotDims S512x5000 S5000x3000 S512x3000 where
  lhsContracting := [1]
  rhsContracting := [0]
  lhsNonContracting := [0]
  rhsNonContracting := [1]
  lhsBatch := []
  rhsBatch := []
  wf := dot_S512x5000_S5000x3000_S512x3000_1_0_0_1_n_n_wf
def dot_S512x8000_S8000x3000_S512x3000_1_0_0_1_n_n : DotDims S512x8000 S8000x3000 S512x3000 where
  lhsContracting := [1]
  rhsContracting := [0]
  lhsNonContracting := [0]
  rhsNonContracting := [1]
  lhsBatch := []
  rhsBatch := []
  wf := dot_S512x8000_S8000x3000_S512x3000_1_0_0_1_n_n_wf
def dot_S512x3000_S3000x3000_S512x3000_1_0_0_1_n_n : DotDims S512x3000 S3000x3000 S512x3000 where
  lhsContracting := [1]
  rhsContracting := [0]
  lhsNonContracting := [0]
  rhsNonContracting := [1]
  lhsBatch := []
  rhsBatch := []
  wf := dot_S512x3000_S3000x3000_S512x3000_1_0_0_1_n_n_wf
def dot_S512x6000_S6000x1024_S512x1024_1_0_0_1_n_n : DotDims S512x6000 S6000x1024 S512x1024 where
  lhsContracting := [1]
  rhsContracting := [0]
  lhsNonContracting := [0]
  rhsNonContracting := [1]
  lhsBatch := []
  rhsBatch := []
  wf := dot_S512x6000_S6000x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.Same.lean ====
import proofs.«128469_j53695681135127_2_alg».proof.Proof.Gen.Kernel
import proofs.«128469_j53695681135127_2_alg».proof.Proof.Gen.KernelIdeal
import Mathlib.Tactic.FinCases

noncomputable section

namespace Cert.Same

open Idealize.ShloMosaic

variable {F : FTy → Type} [FloatOps F]

set_option maxHeartbeats 2000000 in
/-- The idealization rewrote nothing: label by label the two body tables are one table. -/
theorem defs₀_eq : Cert.Kernel.defs₀ (F := F) = Cert.KernelIdeal.defs₀ (F := F) :=
  congrArg Defs.onTc (funext fun ℓ => by fin_cases ℓ <;> rfl)

set_option maxHeartbeats 2000000 in
theorem defs_eq : Cert.Kernel.defs (F := F) = Cert.KernelIdeal.defs (F := F) :=
  congrArg (Pipeline.defs Cert.KernelIdeal.pcfgs) defs₀_eq

end Cert.Same

end
-- ==== Proof.KI.Base.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

abbrev EPk : Emb (UR sig nD τ) (MT nD τ sig Unit (Elt F) ℕ (UR sig nD τ × UR sig nD τ) ℕ) := embL

abbrev EPr : Emb (UR sig nD τ) (MT nD τ sig Unit (Elt F) ℕ (UR sig nD τ × UR sig nD τ) ℕ) := embR

abbrev 𝒱z : Variants := Variants.none

abbrev Lz : GSem nD τ sig → Finset Unit := fun _ => ∅
abbrev lvz : GSem nD τ sig → Unit → ℕ := fun _ _ => 0

abbrev Rr (c : Dev nD) : sProp 𝕄 :=
  iprop((∃ r, prngReg c r) ∗ ∃ W, owes (c : Thread nD τ) (0 : CellTallies nD τ sig Unit) W)

abbrev cellsOf (p : Fin 7) (c : Dev nD) : sProp 𝕄 :=
  iprop(Pipeline.cellsGhost (Pipeline.pin (pcfgs (F := F)) adm) EPr p c ∗ Pipeline.toksInit (Pipeline.pin (pcfgs (F := F)) adm) EPr p c)

theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.KernelIdeal.Hand

end
-- ==== Proof.KI.Inv.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic
import proofs.«128469_j53695681135127_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ
local notation "𝔻" => Pipeline.defs (pcfgs (F := F)) defs₀
local notation "𝕍" => Variants.lift 𝒱z
set_option quotPrecheck false in
local notation "PT" => Prog (TpuEff nD τ sig (Elt F) (Pipeline.Sig Λ₀ (Fin 7) fun p => (pcfgs (F := F) p).Adm) .tc)

def RegionStep (p : Fin 7) (o : Ref sig .tc)
    (Qr : (c : Dev nD) → Valuation τ sig (Elt F) → Buf (Elt F) ((c : Thread nD τ).loc o) → Prop) : Prop :=
  ∀ (c : Dev nD) (W : Valuation τ sig (Elt F)) {α : Type} (k : PUnit → PT α) (Q : α → sProp 𝕄),
    iprop((∀ Fo, iprop(⌜Qr c W Fo⌝ -∗ (iprop(boundary (c : Thread nD τ) ∗ StableHlo.held (c : Thread nD τ) (Pipeline.ucRefs τ sig) (Function.update W o Fo) ∗ Rr c)
              -∗ wp frame (wpE 𝔻 𝕍 (c : Thread nD τ) none) Set.univ (k ⟨⟩) Q)))
        ∗ boundary (c : Thread nD τ) ∗ StableHlo.held (c : Thread nD τ) (Pipeline.ucRefs τ sig) W ∗ Rr c ∗ levAts Lz lvz ∗ cellsOf p c)
      ⊢ wp frame (wpE 𝔻 𝕍 (c : Thread nD τ) none) Set.univ (.op (.customCall (Pipeline.entry p) ()) k) Q

def hostInv (ops : List (HloOp τ sig (Elt F))) (I : Valuation τ sig (Elt F) → Prop) (W' : Valuation τ sig (Elt F)) : Prop :=
  ∃ W, I W ∧ W' = StableHlo.after ops W

def regInv (o : Ref sig .tc) (c : Dev nD)
    (Qr : (c : Dev nD) → Valuation τ sig (Elt F) → Buf (Elt F) ((c : Thread nD τ).loc o) → Prop)
    (I : Valuation τ sig (Elt F) → Prop) (W' : Valuation τ sig (Elt F)) : Prop :=
  ∃ W Fo, I W ∧ Qr c W Fo ∧ W' = Function.update W o Fo

section Chain

variable (m : (ℓ : Loc nD τ sig) → Buf (Elt F) ℓ)
variable (Q0 : (c : Dev nD) → Valuation τ sig (Elt F) → Buf (Elt F) ((c : Thread nD τ).loc main_v4) → Prop)
  (Q1 : (c : Dev nD) → Valuation τ sig (Elt F) → Buf (Elt F) ((c : Thread nD τ).loc main_v6) → Prop)
  (Q2 : (c : Dev nD) → Valuation τ sig (Elt F) → Buf (Elt F) ((c : Thread nD τ).loc main_v9) → Prop)
  (Q3 : (c : Dev nD) → Valuation τ sig (Elt F) → Buf (Elt F) ((c : Thread nD τ).loc main_v11) → Prop)
  (Q4 : (c : Dev nD) → Valuation τ sig (Elt F) → Buf (Elt F) ((c : Thread nD τ).loc main_v14) → Prop)
  (Q5 : (c : Dev nD) → Valuation τ sig (Elt F) → Buf (Elt F) ((c : Thread nD τ).loc main_v16) → Prop)
  (Q6 : (c : Dev nD) → Valuation τ sig (Elt F) → Buf (Elt F) ((c : Thread nD τ).loc main_v20) → Prop)

def Inv0 (c : Dev nD) (W : Valuation τ sig (Elt F)) : Prop := W = V0 m c
def Inv1 (c : Dev nD) : Valuation τ sig (Elt F) → Prop := hostInv hostOps0 (Inv0 m c)
def Inv2 (c : Dev nD) : Valuation τ sig (Elt F) → Prop := regInv main_v4 c Q0 (Inv1 m c)
def Inv3 (c : Dev nD) : Valuation τ sig (Elt F) → Prop := hostInv hostOps1 (Inv2 m Q0 c)
def Inv4 (c : Dev nD) : Valuation τ sig (Elt F) → Prop := regInv main_v6 c Q1 (Inv3 m Q0 c)
def Inv5 (c : Dev nD) : Valuation τ sig (Elt F) → Prop := hostInv hostOps2 (Inv4 m Q0 Q1 c)
def Inv6 (c : Dev nD) : Valuation τ sig (Elt F) → Prop := regInv main_v9 c Q2 (Inv5 m Q0 Q1 c)
def Inv7 (c : Dev nD) : Valuation τ sig (Elt F) → Prop := hostInv hostOps3 (Inv6 m Q0 Q1 Q2 c)
def Inv8 (c : Dev nD) : Valuation τ sig (Elt F) → Prop := regInv main_v11 c Q3 (Inv7 m Q0 Q1 Q2 c)
def Inv9 (c : Dev nD) : Valuation τ sig (Elt F) → Prop := hostInv hostOps4 (Inv8 m Q0 Q1 Q2 Q3 c)
def Inv10 (c : Dev nD) : Valuation τ sig (Elt F) → Prop := regInv main_v14 c Q4 (Inv9 m Q0 Q1 Q2 Q3 c)
def Inv11 (c : Dev nD) : Valuation τ sig (Elt F) → Prop := hostInv hostOps5 (Inv10 m Q0 Q1 Q2 Q3 Q4 c)
def Inv12 (c : Dev nD) : Valuation τ sig (Elt F) → Prop := regInv main_v16 c Q5 (Inv11 m Q0 Q1 Q2 Q3 Q4 c)
def Inv13 (c : Dev nD) : Valuation τ sig (Elt F) → Prop := hostInv hostOps6 (Inv12 m Q0 Q1 Q2 Q3 Q4 Q5 c)
def Inv14 (c : Dev nD) : Valuation τ sig (Elt F) → Prop := hostInv hostOps6_1 (Inv13 m Q0 Q1 Q2 Q3 Q4 Q5 c)
def Inv15 (c : Dev nD) : Valuation τ sig (Elt F) → Prop := hostInv hostOps6_2 (Inv14 m Q0 Q1 Q2 Q3 Q4 Q5 c)
def Inv16 (c : Dev nD) : Valuation τ sig (Elt F) → Prop := hostInv hostOps6_3 (Inv15 m Q0 Q1 Q2 Q3 Q4 Q5 c)
def Inv17 (c : Dev nD) : Valuation τ sig (Elt F) → Prop := hostInv hostOps6_4 (Inv16 m Q0 Q1 Q2 Q3 Q4 Q5 c)
def Inv18 (c : Dev nD) : Valuation τ sig (Elt F) → Prop := regInv main_v20 c Q6 (Inv17 m Q0 Q1 Q2 Q3 Q4 Q5 c)
def Inv19 (c : Dev nD) : Valuation τ sig (Elt F) → Prop := hostInv hostOps7 (Inv18 m Q0 Q1 Q2 Q3 Q4 Q5 Q6 c)

end Chain

end Cert.KernelIdeal.Hand

end
-- ==== Proof.KI.Top.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic
import proofs.«128469_j53695681135127_2_alg».proof.Proof.KI.Base
import proofs.«128469_j53695681135127_2_alg».proof.Proof.KI.Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ
local notation "𝔻" => Pipeline.defs (pcfgs (F := F)) defs₀
local notation "𝕍" => Variants.lift 𝒱z
set_option quotPrecheck false in
local notation "PT" => Prog (TpuEff nD τ sig (Elt F) (Pipeline.Sig Λ₀ (Fin 7) fun p => (pcfgs (F := F) p).Adm) .tc)

section Chain

variable (m : (ℓ : Loc nD τ sig) → Buf (Elt F) ℓ)
variable (Q0 : (c : Dev nD) → Valuation τ sig (Elt F) → Buf (Elt F) ((c : Thread nD τ).loc main_v4) → Prop)
  (Q1 : (c : Dev nD) → Valuation τ sig (Elt F) → Buf (Elt F) ((c : Thread nD τ).loc main_v6) → Prop)
  (Q2 : (c : Dev nD) → Valuation τ sig (Elt F) → Buf (Elt F) ((c : Thread nD τ).loc main_v9) → Prop)
  (Q3 : (c : Dev nD) → Valuation τ sig (Elt F) → Buf (Elt F) ((c : Thread nD τ).loc main_v11) → Prop)
  (Q4 : (c : Dev nD) → Valuation τ sig (Elt F) → Buf (Elt F) ((c : Thread nD τ).loc main_v14) → Prop)
  (Q5 : (c : Dev nD) → Valuation τ sig (Elt F) → Buf (Elt F) ((c : Thread nD τ).loc main_v16) → Prop)
  (Q6 : (c : Dev nD) → Valuation τ sig (Elt F) → Buf (Elt F) ((c : Thread nD τ).loc main_v20) → Prop)

abbrev St (I : Valuation τ sig (Elt F) → Prop) (c : Dev nD) : sProp 𝕄 :=
  iprop(∃ W, ⌜I W⌝ ∗ StableHlo.held (c : Thread nD τ) (Pipeline.ucRefs τ sig) W ∗ Rr c)

def Step (c : Dev nD) (T T' : sProp 𝕄) (q : PT PUnit) : Prop :=
  ∀ {β : Type} (k : PUnit → PT β) (K : β → sProp 𝕄),
    iprop((iprop(boundary (c : Thread nD τ) ∗ T') -∗ wp frame (wpE 𝔻 𝕍 (c : Thread nD τ) none) Set.univ (k ⟨⟩) K)
        ∗ boundary (c : Thread nD τ) ∗ T)
      ⊢ wp frame (wpE 𝔻 𝕍 (c : Thread nD τ) none) Set.univ (q >>= k) K

theorem Step.nil (c : Dev nD) (T : sProp 𝕄) : Step (F := F) c T T (Pipeline.chain []) := by
  intro β k K
  rw [Pipeline.chain_nil, pure_bind]
  iintro ⟨Hk, H⟩
  iapply Hk; iexact H

theorem Step.cons {c : Dev nD} {T T' T'' : sProp 𝕄} {q : PT PUnit} {qs : List (PT PUnit)}
    (h : Step (F := F) c T T' q) (hs : Step (F := F) c T' T'' (Pipeline.chain qs)) :
    Step (F := F) c T T'' (Pipeline.chain (q :: qs)) := by
  intro β k K
  rw [Pipeline.chain_cons, bind_assoc]
  refine BIBase.Entails.trans ?_ (h (fun _ => Pipeline.chain qs >>= k) K)
  iintro ⟨Hk, Hbd, HT⟩
  isplitl [Hk]
  · iintro H
    iapply (hs k K)
    isplitl [Hk]; · iexact Hk
    iexact H
  · isplitl [Hbd] <;> iassumption

set_option backward.isDefEq.respectTransparency.types false in

theorem host_step (c : Dev nD) (ops : List (HloOp τ sig (Elt F)))
    (hS : ∀ op ∈ ops, op.bufs ⊆ Pipeline.ucRefs τ sig) (hf : ∀ op ∈ ops, op.fresh = ∅)
    (I : Valuation τ sig (Elt F) → Prop) (Z : sProp 𝕄) :
    Step (F := F) c iprop(St I c ∗ Z) iprop(St (hostInv ops I) c ∗ Z) (StableHlo.seq ops) := by
  intro β k K
  iintro ⟨Hk, Hbd, ⟨%W, %hI, Hh, HR⟩, HZ⟩
  have hseq := StableHlo.wp_seq (defs := 𝔻) 𝕍 none Set.univ c (Pipeline.ucRefs τ sig) k (K := K) ops hS hf W
  iapply hseq $$ [Hbd Hh]
  · isplitl [Hbd] <;> iassumption
  iintro ⟨Hbd, Hh⟩
  iapply Hk
  isplitl [Hbd]; · iexact Hbd
  isplitr [HZ]
  · iexists (StableHlo.after ops W)
    isplitr; · ipureintro; exact ⟨W, hI, rfl⟩
    isplitl [Hh] <;> iassumption
  · iexact HZ

theorem region_step {p : Fin 7} {o : Ref sig .tc}
    {Qr : (c : Dev nD) → Valuation τ sig (Elt F) → Buf (Elt F) ((c : Thread nD τ).loc o) → Prop}
    (h : RegionStep (F := F) p o Qr) (c : Dev nD) (I : Valuation τ sig (Elt F) → Prop) (Y : sProp 𝕄) :
    Step (F := F) c iprop(St I c ∗ levAts Lz lvz ∗ cellsOf p c ∗ Y) iprop(St (regInv o c Qr I) c ∗ levAts Lz lvz ∗ Y)
      (Prog.lift (.customCall (Pipeline.entry p) ())) := by
  intro β k K
  rw [Prog.bind_lift]
  iintro ⟨Hk, Hbd, ⟨%W, %hI, Hh, HR⟩, #Hla, Hc, HY⟩
  iapply (h c W k K)
  isplitl [Hk HY]
  · iintro %Fo %hQ ⟨Hbd, Hh, HR⟩
    iapply Hk
    isplitl [Hbd]; · iexact Hbd
    isplitl [Hh HR]
    · iexists (Function.update W o Fo)
      isplitr; · ipureintro; exact ⟨W, Fo, hI, hQ, rfl⟩
      isplitl [Hh] <;> iassumption
    · isplitr [HY]; · iexact Hla
      iexact HY
  · isplitl [Hbd]; · iexact Hbd
    isplitl [Hh]; · iexact Hh
    isplitl [HR]; · iexact HR
    isplitr [Hc]; · iexact Hla
    iexact Hc

abbrev items : List (PT PUnit) :=
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    StableHlo.seq hostOps6_1,
    StableHlo.seq hostOps6_2,
    StableHlo.seq hostOps6_3,
    StableHlo.seq hostOps6_4,
    Prog.lift (.customCall (Pipeline.entry 6) ()),
    StableHlo.seq hostOps7 ]

abbrev Gc (c : Dev nD) : sProp 𝕄 :=
  iprop(cellsOf (F := F) 0 c ∗ cellsOf (F := F) 1 c ∗ cellsOf (F := F) 2 c ∗ cellsOf (F := F) 3 c ∗ cellsOf (F := F) 4 c
    ∗ cellsOf (F := F) 5 c ∗ cellsOf (F := F) 6 c ∗ emp)

theorem hS_of {ops : List (HloOp τ sig (Elt F))} (h : ops.Forall fun op => op.bufs ⊆ StableHlo.tcRefs τ sig) :
    ∀ op ∈ ops, op.bufs ⊆ Pipeline.ucRefs τ sig :=
  fun op ho => Pipeline.sub_ucRefs op ((List.forall_iff_forall_mem.mp h) op ho)

theorem hf_of {ops : List (HloOp τ sig (Elt F))} (h : ops.Forall fun op => op.fresh = ∅) :
    ∀ op ∈ ops, op.fresh = ∅ :=
  fun op ho => (List.forall_iff_forall_mem.mp h) op ho

theorem walk (h0 : RegionStep (F := F) 0 main_v4 Q0) (h1 : RegionStep (F := F) 1 main_v6 Q1) (h2 : RegionStep (F := F) 2 main_v9 Q2)
    (h3 : RegionStep (F := F) 3 main_v11 Q3) (h4 : RegionStep (F := F) 4 main_v14 Q4) (h5 : RegionStep (F := F) 5 main_v16 Q5)
    (h6 : RegionStep (F := F) 6 main_v20 Q6) (c : Dev nD) :
    Step (F := F) c iprop(St (Inv0 m c) c ∗ levAts Lz lvz ∗ Gc (F := F) c)
      iprop(St (Inv19 m Q0 Q1 Q2 Q3 Q4 Q5 Q6 c) c ∗ levAts Lz lvz ∗ emp) (Pipeline.chain (items (F := F))) :=
  Step.cons (host_step c hostOps0 (hS_of hostOps0_sub) (hf_of hostOps0_fresh) (Inv0 m c) _) <|
  Step.cons (region_step h0 c (Inv1 m c) _) <|
  Step.cons (host_step c hostOps1 (hS_of hostOps1_sub) (hf_of hostOps1_fresh) (Inv2 m Q0 c) _) <|
  Step.cons (region_step h1 c (Inv3 m Q0 c) _) <|
  Step.cons (host_step c hostOps2 (hS_of hostOps2_sub) (hf_of hostOps2_fresh) (Inv4 m Q0 Q1 c) _) <|
  Step.cons (region_step h2 c (Inv5 m Q0 Q1 c) _) <|
  Step.cons (host_step c hostOps3 (hS_of hostOps3_sub) (hf_of hostOps3_fresh) (Inv6 m Q0 Q1 Q2 c) _) <|
  Step.cons (region_step h3 c (Inv7 m Q0 Q1 Q2 c) _) <|
  Step.cons (host_step c hostOps4 (hS_of hostOps4_sub) (hf_of hostOps4_fresh) (Inv8 m Q0 Q1 Q2 Q3 c) _) <|
  Step.cons (region_step h4 c (Inv9 m Q0 Q1 Q2 Q3 c) _) <|
  Step.cons (host_step c hostOps5 (hS_of hostOps5_sub) (hf_of hostOps5_fresh) (Inv10 m Q0 Q1 Q2 Q3 Q4 c) _) <|
  Step.cons (region_step h5 c (Inv11 m Q0 Q1 Q2 Q3 Q4 c) _) <|
  Step.cons (host_step c hostOps6 (hS_of hostOps6_sub) (hf_of hostOps6_fresh) (Inv12 m Q0 Q1 Q2 Q3 Q4 Q5 c) _) <|
  Step.cons (host_step c hostOps6_1 (hS_of hostOps6_1_sub) (hf_of hostOps6_1_fresh) (Inv13 m Q0 Q1 Q2 Q3 Q4 Q5 c) _) <|
  Step.cons (host_step c hostOps6_2 (hS_of hostOps6_2_sub) (hf_of hostOps6_2_fresh) (Inv14 m Q0 Q1 Q2 Q3 Q4 Q5 c) _) <|
  Step.cons (host_step c hostOps6_3 (hS_of hostOps6_3_sub) (hf_of hostOps6_3_fresh) (Inv15 m Q0 Q1 Q2 Q3 Q4 Q5 c) _) <|
  Step.cons (host_step c hostOps6_4 (hS_of hostOps6_4_sub) (hf_of hostOps6_4_fresh) (Inv16 m Q0 Q1 Q2 Q3 Q4 Q5 c) _) <|
  Step.cons (region_step h6 c (Inv17 m Q0 Q1 Q2 Q3 Q4 Q5 c) _) <|
  Step.cons (host_step c hostOps7 (hS_of hostOps7_sub) (hf_of hostOps7_fresh) (Inv18 m Q0 Q1 Q2 Q3 Q4 Q5 Q6 c) _) <|
  Step.nil c _

variable (ρ : Dev nD → PrngReg)

def noDat (p : Fin 7) (c : Dev nD) : Dat τ (Elt F) Unit ℕ (UR sig nD τ × UR sig nD τ) ℕ (cfgs p) c where
  A := fun _ _ => Classical.arbitrary _
  after := fun _ _ _ => Classical.arbitrary _
  Φ := fun _ => iprop(emp)
  q := fun _ => fullShare
  owed := fun _ => 0

def whole (h0 : RegionStep (F := F) 0 main_v4 Q0) (h1 : RegionStep (F := F) 1 main_v6 Q1) (h2 : RegionStep (F := F) 2 main_v9 Q2)
    (h3 : RegionStep (F := F) 3 main_v11 Q3) (h4 : RegionStep (F := F) 4 main_v14 Q4) (h5 : RegionStep (F := F) 5 main_v16 Q5)
    (h6 : RegionStep (F := F) 6 main_v20 Q6) :
    Pipeline.HostSeg (Ix := Unit) (Name := ℕ) (U := UR sig nD τ × UR sig nD τ) (Lvl := ℕ) (pcfgs (F := F)) defs₀ 𝒱z Lz lvz where
  prog := Pipeline.chain (items (F := F))
  pre c := iprop(St (Inv0 m c) c ∗ Gc (F := F) c)
  post c := St (Inv19 m Q0 Q1 Q2 Q3 Q4 Q5 Q6 c) c
  run c {β} k K := by
    refine BIBase.Entails.trans ?_ (walk m Q0 Q1 Q2 Q3 Q4 Q5 Q6 h0 h1 h2 h3 h4 h5 h6 c k K)
    iintro ⟨Hk, Hbd, ⟨HS, HG⟩, Hla⟩
    isplitl [Hk]
    · iintro ⟨Hbd, HS, -, -⟩
      iapply Hk
      isplitl [Hbd] <;> iassumption
    · isplitl [Hbd]; · iexact Hbd
      isplitl [HS]; · iexact HS
      isplitl [Hla] <;> iassumption

set_option backward.isDefEq.respectTransparency.types false in

theorem run_dyn (h0 : RegionStep (F := F) 0 main_v4 Q0) (h1 : RegionStep (F := F) 1 main_v6 Q1) (h2 : RegionStep (F := F) 2 main_v9 Q2)
    (h3 : RegionStep (F := F) 3 main_v11 Q3) (h4 : RegionStep (F := F) 4 main_v14 Q4) (h5 : RegionStep (F := F) 5 main_v16 Q5)
    (h6 : RegionStep (F := F) 6 main_v20 Q6) :
    θ_run defs (onTc (τ := τ) (main (F := F))) ⟨m, fun _ => 0, ρ⟩ (fun r => ∀ c : Dev nD,
      ∃ W, Inv19 m Q0 Q1 Q2 Q3 Q4 Q5 Q6 c W ∧ ∀ b ∈ Pipeline.ucRefs τ sig, r.2.mem (((c : Thread nD τ)).1, b) = W b) :=
  Pipeline.θ_run_regions_kit (pcfgs (F := F)) adm (noDat (F := F)) () cellOf_inj EPk defs₀ 𝒱z Lz lvz m ρ main
    [.host (whole m Q0 Q1 Q2 Q3 Q4 Q5 Q6 h0 h1 h2 h3 h4 h5 h6)]
    (fun c Q => by
      rw [main_chain c]
      exact Entails.of_eq (congrArg (fun q => wp frame (wpE 𝔻 𝕍 (c : Thread nD τ) none) Set.univ q Q)
        (Prog.bind_pure (Pipeline.chain (items (F := F))))))
    (by simp only [Pipeline.Seg.pipes_host, Pipeline.Seg.pipes_nil]; decide)
    (O₀ := 0) (hL := fun _ _ => rfl) (G := Gc (F := F))
    (u₀ := (initOf (Pipeline.cells cfgs cellOf_inj) (Pipeline.launchToks cfgs cellOf_inj),
            initOf (Pipeline.cells cfgs cellOf_inj) (Pipeline.launchToks cfgs cellOf_inj)))
    (hu₀ := by
      have hG : ∀ c : Dev nD, (bigSep Finset.univ fun p : Fin 7 => cellsOf (F := F) p c) ⊢ Gc (F := F) c := fun c => by
        rw [show (bigSep Finset.univ fun p : Fin 7 => cellsOf (F := F) p c)
            = iprop(cellsOf (F := F) 0 c ∗ cellsOf (F := F) 1 c ∗ cellsOf (F := F) 2 c ∗ cellsOf (F := F) 3 c ∗ cellsOf (F := F) 4 c
                ∗ cellsOf (F := F) 5 c ∗ cellsOf (F := F) 6 c)
          from bigSep_univ_eq_bigSepL [(0 : Fin 7), (1 : Fin 7), (2 : Fin 7), (3 : Fin 7), (4 : Fin 7), (5 : Fin 7), (6 : Fin 7)]
            (by decide) (by decide) _]
        iintro ⟨H0, H1, H2, H3, H4, H5, H6⟩
        isplitl [H0]; · iexact H0
        isplitl [H1]; · iexact H1
        isplitl [H2]; · iexact H2
        isplitl [H3]; · iexact H3
        isplitl [H4]; · iexact H4
        isplitl [H5]; · iexact H5
        isplitl [H6]; · iexact H6
        iempintro
      have hghost : iprop((bigSep Finset.univ fun c : Dev nD => bigSep Finset.univ fun p : Fin 7 => Pipeline.cellsGhost (Pipeline.pin (pcfgs (F := F)) adm) EPr p c)
            ∗ (bigSep Finset.univ fun c : Dev nD => bigSep Finset.univ fun p : Fin 7 => (Pipeline.toksInit (Pipeline.pin (pcfgs (F := F)) adm) EPr p c : sProp 𝕄)))
          ⊢ bigSep Finset.univ (Gc (F := F)) := by
        rw [← bigSep_sep']
        exact bigSep_mono fun c _ => by
          rw [← bigSep_sep']
          exact hG c
      iintro Hu
      ihave H := (ownU_pair _ _) $$ Hu
      icases H with ⟨HP, HR⟩
      imod (Pipeline.fund_ghost (Pipeline.pin (pcfgs (F := F)) adm) EPr cellOf_inj) $$ HR with ⟨Hg, Ht⟩
      imodintro
      isplitl [HP]; · iexact HP
      iapply hghost
      isplitl [Hg] <;> iassumption)
    (T₀ := fun c => iprop(St (Inv0 m c) c ∗ Gc (F := F) c))
    (Tₙ := fun c => iprop(∃ W, ⌜Inv19 m Q0 Q1 Q2 Q3 Q4 Q5 Q6 c W⌝ ∗ StableHlo.held (c : Thread nD τ) (Pipeline.ucRefs τ sig) W))
    (hch := ⟨fun _ => .rfl, fun c => by
      change St (Inv19 m Q0 Q1 Q2 Q3 Q4 Q5 Q6 c) c ⊢ _
      iintro ⟨%W, %hW, Hh, -, HO⟩
      isplitl [Hh]
      · iexists W; isplitr; · ipureintro; exact hW
        iexact Hh
      · iexact HO⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, HG⟩, -⟩
      imodintro
      isplitr [HG]
      · iexists (V0 m c); isplitr; · ipureintro; rfl
        isplitl [Hh]; · iexact Hh
        isplitl [Hp]; · iexists _; iexact Hp
        iexists ∅; iexact HO
      · iexact HG)
    (QY := fun c s => ∃ W, Inv19 m Q0 Q1 Q2 Q3 Q4 Q5 Q6 c W ∧ ∀ b ∈ Pipeline.ucRefs τ sig, s.mem (((c : Thread nD τ)).1, b) = W b)
    (hfin := fun c s' => by
      iintro ⟨⟨%W, %hW, Hh⟩, HSI⟩
      unfold StableHlo.held
      ihave Hr := (pointsTo_read_all (Pipeline.ucRefs τ sig) (fun b => (((c : Thread nD τ)).1, b)) W s') $$ [Hh HSI]
      · isplitl [Hh] <;> iassumption
      icases Hr with ⟨%h, HSI⟩
      imodintro
      isplitr
      · ipureintro; exact ⟨W, hW, h⟩
      · iexact HSI)
    (hQ := fun s h => h)

end Chain

end Cert.KernelIdeal.Hand

end
-- ==== Proof.KI.FramePure.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic
import proofs.«128469_j53695681135127_2_alg».proof.Proof.KI.Base
import proofs.«128469_j53695681135127_2_alg».proof.Proof.KI.Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

theorem hostInv_keep {ops : List (HloOp τ sig (Elt F))} {Wl : List (Ref sig .tc)} {r : Ref sig .tc}
    (hW : ops.Forall fun op => op.writes ⊆ (Wl.map (Proc.devRef (τ := τ) .tc)).toFinset) (hr : r ∉ Wl)
    {I : Valuation τ sig (Elt F) → Prop} {x : (Proc.devRef (τ := τ) .tc r : DevRef τ sig).ty.Contents (Elt F)}
    (hI : ∀ W, I W → W (Proc.devRef .tc r) = x) {W' : Valuation τ sig (Elt F)} (h : hostInv ops I W') :
    W' (Proc.devRef .tc r) = x := by
  obtain ⟨W, hWI, rfl⟩ := h
  exact (StableHlo.after_of_writes_sub ops W hW hr).trans (hI W hWI)

theorem regInv_keep {o r : Ref sig .tc} (hne : r ≠ o) {c : Dev nD}
    {Qr : (c : Dev nD) → Valuation τ sig (Elt F) → Buf (Elt F) ((c : Thread nD τ).loc o) → Prop}
    {I : Valuation τ sig (Elt F) → Prop} {x : (Proc.devRef (τ := τ) .tc r : DevRef τ sig).ty.Contents (Elt F)}
    (hI : ∀ W, I W → W (Proc.devRef .tc r) = x) {W' : Valuation τ sig (Elt F)} (h : regInv o c Qr I W') :
    W' (Proc.devRef .tc r) = x := by
  obtain ⟨W, Fo, hWI, _, rfl⟩ := h
  exact (Function.update_of_ne (StableHlo.devRef_ne_of_ne hne) _ _).trans (hI W hWI)

def Kept (r : Ref sig .tc) : Prop :=
  r ∉ hostOps0_W
    ∧ r ≠ main_v4
    ∧ r ∉ hostOps1_W
    ∧ r ≠ main_v6
    ∧ r ∉ hostOps2_W
    ∧ r ≠ main_v9
    ∧ r ∉ hostOps3_W
    ∧ r ≠ main_v11
    ∧ r ∉ hostOps4_W
    ∧ r ≠ main_v14
    ∧ r ∉ hostOps5_W
    ∧ r ≠ main_v16
    ∧ r ∉ hostOps6_W
    ∧ r ∉ hostOps6_1_W
    ∧ r ∉ hostOps6_2_W
    ∧ r ∉ hostOps6_3_W
    ∧ r ∉ hostOps6_4_W
    ∧ r ≠ main_v20
    ∧ r ∉ hostOps7_W

instance (r : Ref sig .tc) : Decidable (Kept r) := by unfold Kept; infer_instance

section Chain

variable (m : (ℓ : Loc nD τ sig) → Buf (Elt F) ℓ)
variable (Q0 : (c : Dev nD) → Valuation τ sig (Elt F) → Buf (Elt F) ((c : Thread nD τ).loc main_v4) → Prop)
  (Q1 : (c : Dev nD) → Valuation τ sig (Elt F) → Buf (Elt F) ((c : Thread nD τ).loc main_v6) → Prop)
  (Q2 : (c : Dev nD) → Valuation τ sig (Elt F) → Buf (Elt F) ((c : Thread nD τ).loc main_v9) → Prop)
  (Q3 : (c : Dev nD) → Valuation τ sig (Elt F) → Buf (Elt F) ((c : Thread nD τ).loc main_v11) → Prop)
  (Q4 : (c : Dev nD) → Valuation τ sig (Elt F) → Buf (Elt F) ((c : Thread nD τ).loc main_v14) → Prop)
  (Q5 : (c : Dev nD) → Valuation τ sig (Elt F) → Buf (Elt F) ((c : Thread nD τ).loc main_v16) → Prop)
  (Q6 : (c : Dev nD) → Valuation τ sig (Elt F) → Buf (Elt F) ((c : Thread nD τ).loc main_v20) → Prop)

theorem inv19_keep (c : Dev nD) (r : Ref sig .tc) (hr : Kept r) (W : Valuation τ sig (Elt F))
    (h : Inv19 m Q0 Q1 Q2 Q3 Q4 Q5 Q6 c W) : W (Proc.devRef .tc r) = m ((c : Thread nD τ).loc r) := by
  obtain ⟨k0, k1, k2, k3, k4, k5, k6, k7, k8, k9, k10, k11, k12, k13, k14, k15, k16, k17, k18⟩ := hr
  refine hostInv_keep hostOps7_writes k18 (fun W h => ?_) h
  refine regInv_keep k17 (fun W h => ?_) h
  refine hostInv_keep hostOps6_4_writes k16 (fun W h => ?_) h
  refine hostInv_keep hostOps6_3_writes k15 (fun W h => ?_) h
  refine hostInv_keep hostOps6_2_writes k14 (fun W h => ?_) h
  refine hostInv_keep hostOps6_1_writes k13 (fun W h => ?_) h
  refine hostInv_keep hostOps6_writes k12 (fun W h => ?_) h
  refine regInv_keep k11 (fun W h => ?_) h
  refine hostInv_keep hostOps5_writes k10 (fun W h => ?_) h
  refine regInv_keep k9 (fun W h => ?_) h
  refine hostInv_keep hostOps4_writes k8 (fun W h => ?_) h
  refine regInv_keep k7 (fun W h => ?_) h
  refine hostInv_keep hostOps3_writes k6 (fun W h => ?_) h
  refine regInv_keep k5 (fun W h => ?_) h
  refine hostInv_keep hostOps2_writes k4 (fun W h => ?_) h
  refine regInv_keep k3 (fun W h => ?_) h
  refine hostInv_keep hostOps1_writes k2 (fun W h => ?_) h
  refine regInv_keep k1 (fun W h => ?_) h
  refine hostInv_keep hostOps0_writes k0 (fun W h => ?_) h
  exact h ▸ rfl

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- A memory that agrees with a valuation the walk admits has every argument as launched: no host line and no
    region writes one. -/
theorem args_kept (c : Dev nD) {mem : (ℓ : Loc nD τ sig) → Buf (Elt F) ℓ}
    (h : ∃ W, Inv19 m Q0 Q1 Q2 Q3 Q4 Q5 Q6 c W ∧ ∀ b ∈ Pipeline.ucRefs τ sig, mem (((c : Thread nD τ)).1, b) = W b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18) := by
  obtain ⟨W, hW, hb⟩ := h
  have k := fun (b : Ref sig .tc) (hk : Kept b) (hu : ¬ (Proc.devRef .tc b : DevRef τ sig).isScoped) =>
    (hb _ (mem_uc b hu)).trans (inv19_keep m Q0 Q1 Q2 Q3 Q4 Q5 Q6 c b hk W hW)
  exact ⟨k main_arg0 (by decide) (by decide),
    k main_arg1 (by decide) (by decide),
    k main_arg2 (by decide) (by decide),
    k main_arg3 (by decide) (by decide),
    k main_arg4 (by decide) (by decide),
    k main_arg5 (by decide) (by decide),
    k main_arg6 (by decide) (by decide),
    k main_arg7 (by decide) (by decide),
    k main_arg8 (by decide) (by decide),
    k main_arg9 (by decide) (by decide),
    k main_arg10 (by decide) (by decide),
    k main_arg11 (by decide) (by decide),
    k main_arg12 (by decide) (by decide),
    k main_arg13 (by decide) (by decide),
    k main_arg14 (by decide) (by decide),
    k main_arg15 (by decide) (by decide),
    k main_arg16 (by decide) (by decide),
    k main_arg17 (by decide) (by decide),
    k main_arg18 (by decide) (by decide)⟩

end Chain

end Cert.KernelIdeal.Hand

end
-- ==== Proof.KI.SegCommon.lean ====
import proofs.«128469_j53695681135127_2_alg».proof.Proof.Gen.KernelIdeal.Points
import proofs.«128469_j53695681135127_2_alg».proof.Proof.Gen.KernelIdeal.Skeleton
import proofs.«128469_j53695681135127_2_alg».proof.Proof.Gen.KernelIdeal.Launch
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic
import proofs.«128469_j53695681135127_2_alg».proof.Proof.KI.Base
import proofs.«128469_j53695681135127_2_alg».proof.Proof.KI.Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ
local notation "𝔻" => Pipeline.defs (pcfgs (F := F)) defs₀
local notation "𝕍" => Variants.lift 𝒱z
set_option quotPrecheck false in
local notation "PT" => Prog (TpuEff nD τ sig (Elt F) (Pipeline.Sig Λ₀ (Fin 7) fun p => (pcfgs (F := F) p).Adm) .tc)

def rdummy (cfg : Cfg sig Λ₀) (c : Dev nD) : RDat τ (Elt F) Unit ℕ (UR sig nD τ × UR sig nD τ) ℕ cfg c where
  A _ := Classical.arbitrary _
  after _ _ _ _ := True
  Φ _ := iprop(emp)
  q _ := fullShare
  owed _ := 0

abbrev Vof (W : Valuation τ sig (Elt F)) : (c : Dev nD) → (b : Ref sig .tc) → Buf (Elt F) ((c : Thread nD τ).loc b) :=
  fun _ b => W b

theorem arraysAt_open {cfg : Cfg sig Λ₀} {c : Dev nD} (rd : RDat τ (Elt F) Unit ℕ (UR sig nD τ × UR sig nD τ) ℕ cfg c) (n : ℕ) :
    (rd.arraysAt n : sProp 𝕄) ⊢ iprop(∃ A, ⌜∀ w, rd.ArrAt w n (A w)⌝ ∗ rd.arrays A) := by
  unfold RDat.arraysAt RDat.arrays
  iintro Ha
  ihave Ha' := (BI.bigSep_exists_pi Finset.univ (fun w G => iprop(⌜rd.ArrAt w n G⌝
      ∗ (cfg.win w).arr.view.loc (c : Thread nD τ) ↦[(cfg.win w).arr.view.set]{rd.share w} G))) $$ Ha
  icases Ha' with ⟨%A, Ha⟩
  ihave Ha2 := (BI.bigSep_pure_sep Finset.univ (fun w => rd.ArrAt w n (A w))
      (fun w => (cfg.win w).arr.view.loc (c : Thread nD τ) ↦[(cfg.win w).arr.view.set]{rd.share w} A w)) $$ Ha
  icases Ha2 with ⟨%hA', Ha⟩
  iexists A; isplitr; · ipureintro; exact fun w => hA' w (Finset.mem_univ w)
  iexact Ha

theorem unscopedBufs_of_rarrays {p : Fin 7}
    (rdats : (p : Fin 7) → (c : Dev nD) → RDat τ (Elt F) Unit ℕ (UR sig nD τ × UR sig nD τ) ℕ (Pipeline.pin (pcfgs (F := F)) adm p) c)
    (hw : Pipeline.WinFacts (Pipeline.pin (pcfgs (F := F)) adm p).spec) (harr : ∀ w, ((Pipeline.pin (pcfgs (F := F)) adm p).spec w).arr.IsWhole)
    (c : Dev nD) (hshare : ∀ w, (rdats p c).share w = fullShare)
    (V V' : (b : Ref sig .tc) → Buf (Elt F) ((c : Thread nD τ).loc b))
    (G : (w : Fin (Pipeline.pin (pcfgs (F := F)) adm p).W) → Buf (Elt F) (((Pipeline.pin (pcfgs (F := F)) adm p).spec w).arr.view.loc (c : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays G ∗ Pipeline.unscopedRest (Ix := Unit) (Name := ℕ) (U := UR sig nD τ × UR sig nD τ) (Lvl := ℕ) (Pipeline.pin (pcfgs (F := F)) adm p).spec c V)
      ⊢ (unscopedBufs (Ix := Unit) (Name := ℕ) (U := UR sig nD τ × UR sig nD τ) (Lvl := ℕ) c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hG])) (Entails.of_eq ?_)
  unfold Pipeline.unscopedRest
  exact bigSep_congr fun b hb => by rw [hrest b (Finset.mem_sdiff.mp hb).2]

theorem RegionStep.mono {p : Fin 7} {o : Ref sig .tc}
    {Qr Qr' : (c : Dev nD) → Valuation τ sig (Elt F) → Buf (Elt F) ((c : Thread nD τ).loc o) → Prop}
    (h : RegionStep (F := F) p o Qr) (hq : ∀ c W Fo, Qr c W Fo → Qr' c W Fo) : RegionStep (F := F) p o Qr' := by
  intro c W α k Q
  refine BIBase.Entails.trans ?_ (h c W k Q)
  iintro ⟨Hk, H⟩
  isplitl [Hk]
  · iintro %Fo %hFo
    iapply Hk $$ %Fo %(hq c W Fo hFo)
  · iexact H

end Cert.KernelIdeal.Hand

end
-- ==== Proof.KI.Body0.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 0 as a function of what it loads

The kernel keeps a running sum in a scratch buffer: at the first tile of a row of the grid it clears it, at every
tile it adds the product of the tile's two operands, and at the last tile it adds the bias, applies the activation
and writes the result block. Stated here once, for any float values: on whole buffers holding `X`, `W`, `A`, `B`,
`O` and the scratch holding `S`, the body leaves the inputs as they were, the scratch at `acc0` and the result
buffer at `out0`. -/

/-- The first tile of a row of the grid: the running sum is cleared. -/
abbrev cond0_0 (i : grid0.Coords) : Prop := (Scalar.cmpi .ne (Scalar.extui (Scalar.cmpi .eq (BitVec.ofNat 32 (i 1).val) 0#32)) 0#32) = 1#1
/-- The last tile of a row of the grid: the result block is written. -/
abbrev cond0_1 (i : grid0.Coords) : Prop := k0_cond2 i = 1#1

/-- The running sum after the body: this tile's product added to zeros (first tile) or to what the scratch held. -/
def acc0 (i : grid0.Coords) (X : Vec F S512x1024 .f32) (W : Vec F S1024x1024 .f32) (A : Vec F S1024x1024 .f32) (S : Vec F S512x1024 .f32) : Vec F S512x1024 .f32 :=
  k0_pay2 i W A X (if cond0_0 i then k0_pay1 else S)

/-- The result buffer after the body: at the last tile the running sum plus bias under the activation, else untouched. -/
def out0 (i : grid0.Coords) (X : Vec F S512x1024 .f32) (W : Vec F S1024x1024 .f32) (A : Vec F S1024x1024 .f32) (B : Vec F S1x1024 .f32) (O S : Vec F S512x1024 .f32) : Vec F S512x1024 .f32 :=
  if cond0_1 i then k0_pay3 (acc0 i X W A S) B else O

set_option maxHeartbeats 4000000 in
/-- The body on whole buffers: loads, the payloads, whole-buffer stores; each branch decided by the tile's position. -/
theorem body0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (X : Vec F S512x1024 .f32) (W : Vec F S1024x1024 .f32) (A : Vec F S1024x1024 .f32) (B : Vec F S1x1024 .f32) (O : Vec F S512x1024 .f32) (S : Vec F S512x1024 .f32) (K : PUnit → sProp 𝕄) :
    iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare O ∗ owns (c : Thread nD τ) arg7 fullShare S
        ∗ (iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare (out0 i X W A B O S) ∗ owns (c : Thread nD τ) arg7 fullShare (acc0 i X W A S)) -∗ K ⟨⟩))
      ⊢ wp frame (wpE (defs₀ (F := F)) Variants.none c none) E (cc0__masked_linear_kernel i arg2 harg2 arg3 harg3 arg4 harg4 arg5 harg5 arg6 harg6 arg7 harg7) K := by
  by_cases hc0 : cond0_0 i <;> by_cases hc1 : cond0_1 i
  · -- first and last tile at once (a row of one tile)
    have ea : acc0 i X W A S = k0_pay2 i W A X k0_pay1 := by unfold acc0; rw [if_pos hc0]
    have eo : out0 i X W A B O S = k0_pay3 (k0_pay2 i W A X k0_pay1) B := by unfold out0; rw [if_pos hc1, ea]
    rw [eo, ea]
    simp only [cc0__masked_linear_kernel_eq_skeleton]; unfold cc0__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x1024.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
    iexists _; isplitr
    swap; · iexact HS
    ipureintro
    try sl_unfold_words
    rw [View.read_writes_eq_canon _ _ _ (fun y => View.cover_of_tiledL _ S512x1024.size (by sl_kernel_rfl) y), View.canon_cons_unit_zero (S := S512x1024) hz]
    simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- first tile
    have ea : acc0 i X W A S = k0_pay2 i W A X k0_pay1 := by unfold acc0; rw [if_pos hc0]
    have eo : out0 i X W A B O S = O := by unfold out0; rw [if_neg hc1]
    rw [eo, ea]
    simp only [cc0__masked_linear_kernel_eq_skeleton]; unfold cc0__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x1024.size (by sl_kernel_rfl) y), View.canon_cons_unit_zero (S := S512x1024) hz]
    simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- last tile
    have ea : acc0 i X W A S = k0_pay2 i W A X S := by unfold acc0; rw [if_neg hc0]
    have eo : out0 i X W A B O S = k0_pay3 (k0_pay2 i W A X S) B := by unfold out0; rw [if_pos hc1, ea]
    rw [eo, ea]
    simp only [cc0__masked_linear_kernel_eq_skeleton]; unfold cc0__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x1024.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
    iexists _; isplitr
    swap; · iexact HS
    ipureintro
    try sl_unfold_words
    rw [View.read_writes_eq_canon _ _ _ (fun y => View.cover_of_tiledL _ S512x1024.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- a middle tile
    have ea : acc0 i X W A S = k0_pay2 i W A X S := by unfold acc0; rw [if_neg hc0]
    have eo : out0 i X W A B O S = O := by unfold out0; rw [if_neg hc1]
    rw [eo, ea]
    simp only [cc0__masked_linear_kernel_eq_skeleton]; unfold cc0__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x1024.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S1024x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]

end Cert.KernelIdeal.Hand

end
-- ==== Proof.KI.Obl0.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body0
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 0's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM0 : Memref sig .tc .vmem S512x1024 .f32 := Memref.whole cc0_scratch0

/-- What a certificate says of the running sum (after `n` tiles) and of the result block (at a tile that writes it). -/
structure Preds0 (F : FTy → Type) [FloatOps F] where
  Pacc : Dev nD → ℕ → Vec F S512x1024 .f32 → Prop
  Pout : Dev nD → Fin cfg0.N → Vec F S512x1024 .f32 → Prop

/-- An input window's buffer after the fetch at point `t`: the array's block on the part inside the array, `d` elsewhere. -/
def fet0_0 (c : Dev nD) (t : Fin cfg0.N) (d : Vec F S512x1024 .f32) : Vec F S512x1024 .f32 :=
  (cfg0.win 0).fill (grid0.coords t) d (((cfg0.win 0).blk t).view.read (Elt F) (V c (Pipeline.arrRef spec0 0)))
def fet0_1 (c : Dev nD) (t : Fin cfg0.N) (d : Vec F S1024x1024 .f32) : Vec F S1024x1024 .f32 :=
  (cfg0.win 1).fill (grid0.coords t) d (((cfg0.win 1).blk t).view.read (Elt F) (V c (Pipeline.arrRef spec0 1)))
def fet0_2 (c : Dev nD) (t : Fin cfg0.N) (d : Vec F S1024x1024 .f32) : Vec F S1024x1024 .f32 :=
  (cfg0.win 2).fill (grid0.coords t) d (((cfg0.win 2).blk t).view.read (Elt F) (V c (Pipeline.arrRef spec0 2)))
def fet0_3 (c : Dev nD) (t : Fin cfg0.N) (d : Vec F S1x1024 .f32) : Vec F S1x1024 .f32 :=
  (cfg0.win 3).fill (grid0.coords t) d (((cfg0.win 3).blk t).view.read (Elt F) (V c (Pipeline.arrRef spec0 3)))

/-- The predicates are kept by the body, whatever a cut fetch left past the array's end. -/
structure Steps0 (P : Preds0 F) (c : Dev nD) : Prop where
  init : ∀ s, P.Pacc c 0 s
  step : ∀ (t : Fin cfg0.N) (d0 : Vec F S512x1024 .f32) (d1 : Vec F S1024x1024 .f32) (d2 : Vec F S1024x1024 .f32) (s : Vec F S512x1024 .f32), P.Pacc c t.val s →
    P.Pacc c (t.val + 1) (acc0 (grid0.coords t) (fet0_0 V c t d0) (fet0_1 V c t d1) (fet0_2 V c t d2) s)
  last : ∀ (t : Fin cfg0.N) (d0 : Vec F S512x1024 .f32) (d1 : Vec F S1024x1024 .f32) (d2 : Vec F S1024x1024 .f32) (d3 : Vec F S1x1024 .f32) (O s : Vec F S512x1024 .f32),
    P.Pacc c t.val s → cond0_1 (grid0.coords t) →
    P.Pout c t (out0 (grid0.coords t) (fet0_0 V c t d0) (fet0_1 V c t d1) (fet0_2 V c t d2) (fet0_3 V c t d3) O s)

/-- The region's invariant before tile `n`: the scratch at some contents the predicate admits, the generator register at
    some state, every other scoped buffer untouched. -/
def Phi0 (P : Preds0 F) (c : Dev nD) (n : ℕ) : sProp 𝕄 :=
  iprop((∃ s : Vec F S512x1024 .f32, ⌜P.Pacc c n s⌝ ∗ owns (c : Thread nD τ) scM0 fullShare s) ∗ (∃ r, prngReg c r)
    ∗ Pipeline.scopedRestBut (Ix := Unit) (Name := ℕ) (U := UR sig nD τ × UR sig nD τ) (Lvl := ℕ) (Val := Elt F) spec0 c [cc0_scratch0])

/-- The relational proof data of pipeline 0 on core `c`, entered with the unscoped buffers at `V`. -/
def rdat0 (P : Preds0 F) (c : Dev nD) : RDat τ (Elt F) Unit ℕ (UR sig nD τ × UR sig nD τ) ℕ cfg0 c where
  A w := V c (Pipeline.arrRef spec0 w)
  after w t Y X := match w with
    | ⟨0, _⟩ => X = Y
    | ⟨1, _⟩ => X = Y
    | ⟨2, _⟩ => X = Y
    | ⟨3, _⟩ => X = Y
    | ⟨4, _⟩ => (cond0_1 (grid0.coords t) → P.Pout c t X) ∧ (¬cond0_1 (grid0.coords t) → X = Y)
  Φ t := Phi0 P c t.val
  q _ := fullShare
  owed _ := 0

theorem finds0_0 (P : Preds0 F) (c : Dev nD) (t : Fin cfg0.N) (Y) (h : (rdat0 V P c).Finds 0 t Y) : ∃ d, Y = fet0_0 V c t d :=
  (rdat0 V P c).finds_in_eq_fetched 0 rfl (by decide +kernel) (fun _ _ _ h => h) t Y h
theorem finds0_1 (P : Preds0 F) (c : Dev nD) (t : Fin cfg0.N) (Y) (h : (rdat0 V P c).Finds 1 t Y) : ∃ d, Y = fet0_1 V c t d :=
  (rdat0 V P c).finds_in_eq_fetched 1 rfl (by decide +kernel) (fun _ _ _ h => h) t Y h
theorem finds0_2 (P : Preds0 F) (c : Dev nD) (t : Fin cfg0.N) (Y) (h : (rdat0 V P c).Finds 2 t Y) : ∃ d, Y = fet0_2 V c t d :=
  (rdat0 V P c).finds_in_eq_fetched 2 rfl (by decide +kernel) (fun _ _ _ h => h) t Y h
theorem finds0_3 (P : Preds0 F) (c : Dev nD) (t : Fin cfg0.N) (Y) (h : (rdat0 V P c).Finds 3 t Y) : ∃ d, Y = fet0_3 V c t d :=
  (rdat0 V P c).finds_in_eq_fetched 3 rfl (by decide +kernel) (fun _ _ _ h => h) t Y h

set_option maxHeartbeats 1000000 in
/-- The body at any point, from what the windows' buffers may hold there. -/
theorem sound0 (P : Preds0 F) (c : Dev nD) (hS : Steps0 V P c) (t : Fin cfg0.N)
    (Y : (w : Fin cfg0.W) → (cfg0.win w).block.Idx → Elt F (cfg0.win w).elt) (hY : ∀ w, (rdat0 V P c).Finds w t (Y w)) :
    iprop((rdat0 V P c).Φ t.castSucc ∗ (rdat0 V P c).owesAt () t.castSucc
        ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4))
      ⊢ wp frame (wpE (defs₀ (F := F)) Variants.none c none) Set.univ (bodyAt0 t) (fun _ =>
          iprop((rdat0 V P c).Φ t.succ ∗ (rdat0 V P c).owesAt () t.succ
            ∗ (∃ X, ⌜(rdat0 V P c).after 0 t (Y 0) X⌝ ∗ owns (c : Thread nD τ) (st0_0 t) fullShare X)
            ∗ (∃ X, ⌜(rdat0 V P c).after 1 t (Y 1) X⌝ ∗ owns (c : Thread nD τ) (st0_1 t) fullShare X)
            ∗ (∃ X, ⌜(rdat0 V P c).after 2 t (Y 2) X⌝ ∗ owns (c : Thread nD τ) (st0_2 t) fullShare X)
            ∗ (∃ X, ⌜(rdat0 V P c).after 3 t (Y 3) X⌝ ∗ owns (c : Thread nD τ) (st0_3 t) fullShare X)
            ∗ (∃ X, ⌜(rdat0 V P c).after 4 t (Y 4) X⌝ ∗ owns (c : Thread nD τ) (st0_4 t) fullShare X))) := by
  obtain ⟨d0, h0⟩ := finds0_0 V P c t _ (hY 0)
  obtain ⟨d1, h1⟩ := finds0_1 V P c t _ (hY 1)
  obtain ⟨d2, h2⟩ := finds0_2 V P c t _ (hY 2)
  obtain ⟨d3, h3⟩ := finds0_3 V P c t _ (hY 3)
  rw [show (rdat0 V P c).owesAt () t.succ = (rdat0 V P c).owesAt () t.castSucc from rfl]
  rw [show (rdat0 V P c).Φ t.castSucc = Phi0 P c t.val from rfl, show (rdat0 V P c).Φ t.succ = Phi0 P c (t.val + 1) from rfl]
  unfold Phi0 bodyAt0
  iintro ⟨⟨⟨%s, %hs, HS⟩, Hg, Hrest⟩, Ho, H0, H1, H2, H3, H4⟩
  iapply (body0 c Set.univ (grid0.coords t) _ _ _ _ _ _ _ _ _ _ _ _ (Y 0) (Y 1) (Y 2) (Y 3) (Y 4) s _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg Hrest]
  · isplitl [HS]
    · iexists (acc0 (grid0.coords t) (Y 0) (Y 1) (Y 2) s); isplitr
      · ipureintro; rw [h0, h1, h2]; exact hS.step t d0 d1 d2 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  isplitl [H3]
  · iexists (Y 3); isplitr
    · ipureintro; exact (rfl : Y 3 = Y 3)
    · iexact H3
  iexists (out0 (grid0.coords t) (Y 0) (Y 1) (Y 2) (Y 3) (Y 4) s); isplitr
  · ipureintro
    refine ⟨fun hc => ?_, fun hc => ?_⟩
    · rw [h0, h1, h2, h3]; exact hS.last t d0 d1 d2 d3 (Y 4) s hs hc
    · unfold out0; rw [if_neg hc]
  · iexact H4

end Cert.KernelIdeal.Hand

end
-- ==== Proof.KI.Body1.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 1 as a function of what it loads

The kernel keeps a running sum in a scratch buffer: at the first tile of a row of the grid it clears it, at every
tile it adds the product of the tile's two operands, and at the last tile it adds the bias, applies the activation
and writes the result block. Stated here once, for any float values: on whole buffers holding `X`, `W`, `A`, `B`,
`O` and the scratch holding `S`, the body leaves the inputs as they were, the scratch at `acc1` and the result
buffer at `out1`. -/

/-- The first tile of a row of the grid: the running sum is cleared. -/
abbrev cond1_0 (i : grid1.Coords) : Prop := (Scalar.cmpi .ne (Scalar.extui (Scalar.cmpi .eq (BitVec.ofNat 32 (i 1).val) 0#32)) 0#32) = 1#1
/-- The last tile of a row of the grid: the result block is written. -/
abbrev cond1_1 (i : grid1.Coords) : Prop := k1_cond2 i = 1#1

/-- The running sum after the body: this tile's product added to zeros (first tile) or to what the scratch held. -/
def acc1 (i : grid1.Coords) (X : Vec F S512x1024 .f32) (W : Vec F S512x1024 .f32) (A : Vec F S1024x512 .f32) (S : Vec F S512x512 .f32) : Vec F S512x512 .f32 :=
  k1_pay2 i W A X (if cond1_0 i then k1_pay1 else S)

/-- The result buffer after the body: at the last tile the running sum plus bias under the activation, else untouched. -/
def out1 (i : grid1.Coords) (X : Vec F S512x1024 .f32) (W : Vec F S512x1024 .f32) (A : Vec F S1024x512 .f32) (B : Vec F S1x512 .f32) (O S : Vec F S512x512 .f32) : Vec F S512x512 .f32 :=
  if cond1_1 i then k1_pay3 (acc1 i X W A S) B else O

set_option maxHeartbeats 4000000 in
/-- The body on whole buffers: loads, the payloads, whole-buffer stores; each branch decided by the tile's position. -/
theorem body1 (c : Dev nD) (E : Set ℕ) (i : grid1.Coords) (arg2 : Memref sig .tc .vmem S512x1024 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (X : Vec F S512x1024 .f32) (W : Vec F S512x1024 .f32) (A : Vec F S1024x512 .f32) (B : Vec F S1x512 .f32) (O : Vec F S512x512 .f32) (S : Vec F S512x512 .f32) (K : PUnit → sProp 𝕄) :
    iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare O ∗ owns (c : Thread nD τ) arg7 fullShare S
        ∗ (iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare (out1 i X W A B O S) ∗ owns (c : Thread nD τ) arg7 fullShare (acc1 i X W A S)) -∗ K ⟨⟩))
      ⊢ wp frame (wpE (defs₀ (F := F)) Variants.none c none) E (cc1__masked_linear_kernel i arg2 harg2 arg3 harg3 arg4 harg4 arg5 harg5 arg6 harg6 arg7 harg7) K := by
  by_cases hc0 : cond1_0 i <;> by_cases hc1 : cond1_1 i
  · -- first and last tile at once (a row of one tile)
    have ea : acc1 i X W A S = k1_pay2 i W A X k1_pay1 := by unfold acc1; rw [if_pos hc0]
    have eo : out1 i X W A B O S = k1_pay3 (k1_pay2 i W A X k1_pay1) B := by unfold out1; rw [if_pos hc1, ea]
    rw [eo, ea]
    simp only [cc1__masked_linear_kernel_eq_skeleton]; unfold cc1__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- first tile
    have ea : acc1 i X W A S = k1_pay2 i W A X k1_pay1 := by unfold acc1; rw [if_pos hc0]
    have eo : out1 i X W A B O S = O := by unfold out1; rw [if_neg hc1]
    rw [eo, ea]
    simp only [cc1__masked_linear_kernel_eq_skeleton]; unfold cc1__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- last tile
    have ea : acc1 i X W A S = k1_pay2 i W A X S := by unfold acc1; rw [if_neg hc0]
    have eo : out1 i X W A B O S = k1_pay3 (k1_pay2 i W A X S) B := by unfold out1; rw [if_pos hc1, ea]
    rw [eo, ea]
    simp only [cc1__masked_linear_kernel_eq_skeleton]; unfold cc1__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- a middle tile
    have ea : acc1 i X W A S = k1_pay2 i W A X S := by unfold acc1; rw [if_neg hc0]
    have eo : out1 i X W A B O S = O := by unfold out1; rw [if_neg hc1]
    rw [eo, ea]
    simp only [cc1__masked_linear_kernel_eq_skeleton]; unfold cc1__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]

end Cert.KernelIdeal.Hand

end
-- ==== Proof.KI.Obl1.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body1
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 1's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM1 : Memref sig .tc .vmem S512x512 .f32 := Memref.whole cc1_scratch0

/-- What a certificate says of the running sum (after `n` tiles) and of the result block (at a tile that writes it). -/
structure Preds1 (F : FTy → Type) [FloatOps F] where
  Pacc : Dev nD → ℕ → Vec F S512x512 .f32 → Prop
  Pout : Dev nD → Fin cfg1.N → Vec F S512x512 .f32 → Prop

/-- An input window's buffer after the fetch at point `t`: the array's block on the part inside the array, `d` elsewhere. -/
def fet1_0 (c : Dev nD) (t : Fin cfg1.N) (d : Vec F S512x1024 .f32) : Vec F S512x1024 .f32 :=
  (cfg1.win 0).fill (grid1.coords t) d (((cfg1.win 0).blk t).view.read (Elt F) (V c (Pipeline.arrRef spec1 0)))
def fet1_1 (c : Dev nD) (t : Fin cfg1.N) (d : Vec F S512x1024 .f32) : Vec F S512x1024 .f32 :=
  (cfg1.win 1).fill (grid1.coords t) d (((cfg1.win 1).blk t).view.read (Elt F) (V c (Pipeline.arrRef spec1 1)))
def fet1_2 (c : Dev nD) (t : Fin cfg1.N) (d : Vec F S1024x512 .f32) : Vec F S1024x512 .f32 :=
  (cfg1.win 2).fill (grid1.coords t) d (((cfg1.win 2).blk t).view.read (Elt F) (V c (Pipeline.arrRef spec1 2)))
def fet1_3 (c : Dev nD) (t : Fin cfg1.N) (d : Vec F S1x512 .f32) : Vec F S1x512 .f32 :=
  (cfg1.win 3).fill (grid1.coords t) d (((cfg1.win 3).blk t).view.read (Elt F) (V c (Pipeline.arrRef spec1 3)))

/-- The predicates are kept by the body, whatever a cut fetch left past the array's end. -/
structure Steps1 (P : Preds1 F) (c : Dev nD) : Prop where
  init : ∀ s, P.Pacc c 0 s
  step : ∀ (t : Fin cfg1.N) (d0 : Vec F S512x1024 .f32) (d1 : Vec F S512x1024 .f32) (d2 : Vec F S1024x512 .f32) (s : Vec F S512x512 .f32), P.Pacc c t.val s →
    P.Pacc c (t.val + 1) (acc1 (grid1.coords t) (fet1_0 V c t d0) (fet1_1 V c t d1) (fet1_2 V c t d2) s)
  last : ∀ (t : Fin cfg1.N) (d0 : Vec F S512x1024 .f32) (d1 : Vec F S512x1024 .f32) (d2 : Vec F S1024x512 .f32) (d3 : Vec F S1x512 .f32) (O s : Vec F S512x512 .f32),
    P.Pacc c t.val s → cond1_1 (grid1.coords t) →
    P.Pout c t (out1 (grid1.coords t) (fet1_0 V c t d0) (fet1_1 V c t d1) (fet1_2 V c t d2) (fet1_3 V c t d3) O s)

/-- The region's invariant before tile `n`: the scratch at some contents the predicate admits, the generator register at
    some state, every other scoped buffer untouched. -/
def Phi1 (P : Preds1 F) (c : Dev nD) (n : ℕ) : sProp 𝕄 :=
  iprop((∃ s : Vec F S512x512 .f32, ⌜P.Pacc c n s⌝ ∗ owns (c : Thread nD τ) scM1 fullShare s) ∗ (∃ r, prngReg c r)
    ∗ Pipeline.scopedRestBut (Ix := Unit) (Name := ℕ) (U := UR sig nD τ × UR sig nD τ) (Lvl := ℕ) (Val := Elt F) spec1 c [cc1_scratch0])

/-- The relational proof data of pipeline 1 on core `c`, entered with the unscoped buffers at `V`. -/
def rdat1 (P : Preds1 F) (c : Dev nD) : RDat τ (Elt F) Unit ℕ (UR sig nD τ × UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => (cond1_1 (grid1.coords t) → P.Pout c t X) ∧ (¬cond1_1 (grid1.coords t) → X = Y)
  Φ t := Phi1 P c t.val
  q _ := fullShare
  owed _ := 0

theorem finds1_0 (P : Preds1 F) (c : Dev nD) (t : Fin cfg1.N) (Y) (h : (rdat1 V P c).Finds 0 t Y) : ∃ d, Y = fet1_0 V c t d :=
  (rdat1 V P c).finds_in_eq_fetched 0 rfl (by decide +kernel) (fun _ _ _ h => h) t Y h
theorem finds1_1 (P : Preds1 F) (c : Dev nD) (t : Fin cfg1.N) (Y) (h : (rdat1 V P c).Finds 1 t Y) : ∃ d, Y = fet1_1 V c t d :=
  (rdat1 V P c).finds_in_eq_fetched 1 rfl (by decide +kernel) (fun _ _ _ h => h) t Y h
theorem finds1_2 (P : Preds1 F) (c : Dev nD) (t : Fin cfg1.N) (Y) (h : (rdat1 V P c).Finds 2 t Y) : ∃ d, Y = fet1_2 V c t d :=
  (rdat1 V P c).finds_in_eq_fetched 2 rfl (by decide +kernel) (fun _ _ _ h => h) t Y h
theorem finds1_3 (P : Preds1 F) (c : Dev nD) (t : Fin cfg1.N) (Y) (h : (rdat1 V P c).Finds 3 t Y) : ∃ d, Y = fet1_3 V c t d :=
  (rdat1 V P c).finds_in_eq_fetched 3 rfl (by decide +kernel) (fun _ _ _ h => h) t Y h

set_option maxHeartbeats 1000000 in
/-- The body at any point, from what the windows' buffers may hold there. -/
theorem sound1 (P : Preds1 F) (c : Dev nD) (hS : Steps1 V P c) (t : Fin cfg1.N)
    (Y : (w : Fin cfg1.W) → (cfg1.win w).block.Idx → Elt F (cfg1.win w).elt) (hY : ∀ w, (rdat1 V P c).Finds w t (Y w)) :
    iprop((rdat1 V P c).Φ t.castSucc ∗ (rdat1 V P c).owesAt () t.castSucc
        ∗ owns (c : Thread nD τ) (st1_0 t) fullShare (Y 0) ∗ owns (c : Thread nD τ) (st1_1 t) fullShare (Y 1) ∗ owns (c : Thread nD τ) (st1_2 t) fullShare (Y 2) ∗ owns (c : Thread nD τ) (st1_3 t) fullShare (Y 3) ∗ owns (c : Thread nD τ) (st1_4 t) fullShare (Y 4))
      ⊢ wp frame (wpE (defs₀ (F := F)) Variants.none c none) Set.univ (bodyAt1 t) (fun _ =>
          iprop((rdat1 V P c).Φ t.succ ∗ (rdat1 V P c).owesAt () t.succ
            ∗ (∃ X, ⌜(rdat1 V P c).after 0 t (Y 0) X⌝ ∗ owns (c : Thread nD τ) (st1_0 t) fullShare X)
            ∗ (∃ X, ⌜(rdat1 V P c).after 1 t (Y 1) X⌝ ∗ owns (c : Thread nD τ) (st1_1 t) fullShare X)
            ∗ (∃ X, ⌜(rdat1 V P c).after 2 t (Y 2) X⌝ ∗ owns (c : Thread nD τ) (st1_2 t) fullShare X)
            ∗ (∃ X, ⌜(rdat1 V P c).after 3 t (Y 3) X⌝ ∗ owns (c : Thread nD τ) (st1_3 t) fullShare X)
            ∗ (∃ X, ⌜(rdat1 V P c).after 4 t (Y 4) X⌝ ∗ owns (c : Thread nD τ) (st1_4 t) fullShare X))) := by
  obtain ⟨d0, h0⟩ := finds1_0 V P c t _ (hY 0)
  obtain ⟨d1, h1⟩ := finds1_1 V P c t _ (hY 1)
  obtain ⟨d2, h2⟩ := finds1_2 V P c t _ (hY 2)
  obtain ⟨d3, h3⟩ := finds1_3 V P c t _ (hY 3)
  rw [show (rdat1 V P c).owesAt () t.succ = (rdat1 V P c).owesAt () t.castSucc from rfl]
  rw [show (rdat1 V P c).Φ t.castSucc = Phi1 P c t.val from rfl, show (rdat1 V P c).Φ t.succ = Phi1 P c (t.val + 1) from rfl]
  unfold Phi1 bodyAt1
  iintro ⟨⟨⟨%s, %hs, HS⟩, Hg, Hrest⟩, Ho, H0, H1, H2, H3, H4⟩
  iapply (body1 c Set.univ (grid1.coords t) _ _ _ _ _ _ _ _ _ _ _ _ (Y 0) (Y 1) (Y 2) (Y 3) (Y 4) s _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg Hrest]
  · isplitl [HS]
    · iexists (acc1 (grid1.coords t) (Y 0) (Y 1) (Y 2) s); isplitr
      · ipureintro; rw [h0, h1, h2]; exact hS.step t d0 d1 d2 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  isplitl [H3]
  · iexists (Y 3); isplitr
    · ipureintro; exact (rfl : Y 3 = Y 3)
    · iexact H3
  iexists (out1 (grid1.coords t) (Y 0) (Y 1) (Y 2) (Y 3) (Y 4) s); isplitr
  · ipureintro
    refine ⟨fun hc => ?_, fun hc => ?_⟩
    · rw [h0, h1, h2, h3]; exact hS.last t d0 d1 d2 d3 (Y 4) s hs hc
    · unfold out1; rw [if_neg hc]
  · iexact H4

end Cert.KernelIdeal.Hand

end
-- ==== Proof.KI.Body2.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 2 as a function of what it loads

The kernel keeps a running sum in a scratch buffer: at the first tile of a row of the grid it clears it, at every
tile it adds the product of the tile's two operands, and at the last tile it adds the bias, applies the activation
and writes the result block. Stated here once, for any float values: on whole buffers holding `X`, `W`, `A`, `B`,
`O` and the scratch holding `S`, the body leaves the inputs as they were, the scratch at `acc2` and the result
buffer at `out2`. -/

/-- The first tile of a row of the grid: the running sum is cleared. -/
abbrev cond2_0 (i : grid2.Coords) : Prop := (Scalar.cmpi .ne (Scalar.extui (Scalar.cmpi .eq (BitVec.ofNat 32 (i 1).val) 0#32)) 0#32) = 1#1
/-- The last tile of a row of the grid: the result block is written. -/
abbrev cond2_1 (i : grid2.Coords) : Prop := k2_cond2 i = 1#1

/-- The running sum after the body: this tile's product added to zeros (first tile) or to what the scratch held. -/
def acc2 (i : grid2.Coords) (X : Vec F S512x1024 .f32) (W : Vec F S512x1024 .f32) (A : Vec F S1024x512 .f32) (S : Vec F S512x512 .f32) : Vec F S512x512 .f32 :=
  k2_pay2 i W A X (if cond2_0 i then k2_pay1 else S)

/-- The result buffer after the body: at the last tile the running sum plus bias under the activation, else untouched. -/
def out2 (i : grid2.Coords) (X : Vec F S512x1024 .f32) (W : Vec F S512x1024 .f32) (A : Vec F S1024x512 .f32) (B : Vec F S1x512 .f32) (O S : Vec F S512x512 .f32) : Vec F S512x512 .f32 :=
  if cond2_1 i then k2_pay3 (acc2 i X W A S) B else O

set_option maxHeartbeats 4000000 in
/-- The body on whole buffers: loads, the payloads, whole-buffer stores; each branch decided by the tile's position. -/
theorem body2 (c : Dev nD) (E : Set ℕ) (i : grid2.Coords) (arg2 : Memref sig .tc .vmem S512x1024 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (X : Vec F S512x1024 .f32) (W : Vec F S512x1024 .f32) (A : Vec F S1024x512 .f32) (B : Vec F S1x512 .f32) (O : Vec F S512x512 .f32) (S : Vec F S512x512 .f32) (K : PUnit → sProp 𝕄) :
    iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare O ∗ owns (c : Thread nD τ) arg7 fullShare S
        ∗ (iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare (out2 i X W A B O S) ∗ owns (c : Thread nD τ) arg7 fullShare (acc2 i X W A S)) -∗ K ⟨⟩))
      ⊢ wp frame (wpE (defs₀ (F := F)) Variants.none c none) E (cc2__masked_linear_kernel i arg2 harg2 arg3 harg3 arg4 harg4 arg5 harg5 arg6 harg6 arg7 harg7) K := by
  by_cases hc0 : cond2_0 i <;> by_cases hc1 : cond2_1 i
  · -- first and last tile at once (a row of one tile)
    have ea : acc2 i X W A S = k2_pay2 i W A X k2_pay1 := by unfold acc2; rw [if_pos hc0]
    have eo : out2 i X W A B O S = k2_pay3 (k2_pay2 i W A X k2_pay1) B := by unfold out2; rw [if_pos hc1, ea]
    rw [eo, ea]
    simp only [cc2__masked_linear_kernel_eq_skeleton]; unfold cc2__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- first tile
    have ea : acc2 i X W A S = k2_pay2 i W A X k2_pay1 := by unfold acc2; rw [if_pos hc0]
    have eo : out2 i X W A B O S = O := by unfold out2; rw [if_neg hc1]
    rw [eo, ea]
    simp only [cc2__masked_linear_kernel_eq_skeleton]; unfold cc2__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- last tile
    have ea : acc2 i X W A S = k2_pay2 i W A X S := by unfold acc2; rw [if_neg hc0]
    have eo : out2 i X W A B O S = k2_pay3 (k2_pay2 i W A X S) B := by unfold out2; rw [if_pos hc1, ea]
    rw [eo, ea]
    simp only [cc2__masked_linear_kernel_eq_skeleton]; unfold cc2__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- a middle tile
    have ea : acc2 i X W A S = k2_pay2 i W A X S := by unfold acc2; rw [if_neg hc0]
    have eo : out2 i X W A B O S = O := by unfold out2; rw [if_neg hc1]
    rw [eo, ea]
    simp only [cc2__masked_linear_kernel_eq_skeleton]; unfold cc2__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]

end Cert.KernelIdeal.Hand

end
-- ==== Proof.KI.Obl2.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body2
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 2's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM2 : Memref sig .tc .vmem S512x512 .f32 := Memref.whole cc2_scratch0

/-- What a certificate says of the running sum (after `n` tiles) and of the result block (at a tile that writes it). -/
structure Preds2 (F : FTy → Type) [FloatOps F] where
  Pacc : Dev nD → ℕ → Vec F S512x512 .f32 → Prop
  Pout : Dev nD → Fin cfg2.N → Vec F S512x512 .f32 → Prop

/-- An input window's buffer after the fetch at point `t`: the array's block on the part inside the array, `d` elsewhere. -/
def fet2_0 (c : Dev nD) (t : Fin cfg2.N) (d : Vec F S512x1024 .f32) : Vec F S512x1024 .f32 :=
  (cfg2.win 0).fill (grid2.coords t) d (((cfg2.win 0).blk t).view.read (Elt F) (V c (Pipeline.arrRef spec2 0)))
def fet2_1 (c : Dev nD) (t : Fin cfg2.N) (d : Vec F S512x1024 .f32) : Vec F S512x1024 .f32 :=
  (cfg2.win 1).fill (grid2.coords t) d (((cfg2.win 1).blk t).view.read (Elt F) (V c (Pipeline.arrRef spec2 1)))
def fet2_2 (c : Dev nD) (t : Fin cfg2.N) (d : Vec F S1024x512 .f32) : Vec F S1024x512 .f32 :=
  (cfg2.win 2).fill (grid2.coords t) d (((cfg2.win 2).blk t).view.read (Elt F) (V c (Pipeline.arrRef spec2 2)))
def fet2_3 (c : Dev nD) (t : Fin cfg2.N) (d : Vec F S1x512 .f32) : Vec F S1x512 .f32 :=
  (cfg2.win 3).fill (grid2.coords t) d (((cfg2.win 3).blk t).view.read (Elt F) (V c (Pipeline.arrRef spec2 3)))

/-- The predicates are kept by the body, whatever a cut fetch left past the array's end. -/
structure Steps2 (P : Preds2 F) (c : Dev nD) : Prop where
  init : ∀ s, P.Pacc c 0 s
  step : ∀ (t : Fin cfg2.N) (d0 : Vec F S512x1024 .f32) (d1 : Vec F S512x1024 .f32) (d2 : Vec F S1024x512 .f32) (s : Vec F S512x512 .f32), P.Pacc c t.val s →
    P.Pacc c (t.val + 1) (acc2 (grid2.coords t) (fet2_0 V c t d0) (fet2_1 V c t d1) (fet2_2 V c t d2) s)
  last : ∀ (t : Fin cfg2.N) (d0 : Vec F S512x1024 .f32) (d1 : Vec F S512x1024 .f32) (d2 : Vec F S1024x512 .f32) (d3 : Vec F S1x512 .f32) (O s : Vec F S512x512 .f32),
    P.Pacc c t.val s → cond2_1 (grid2.coords t) →
    P.Pout c t (out2 (grid2.coords t) (fet2_0 V c t d0) (fet2_1 V c t d1) (fet2_2 V c t d2) (fet2_3 V c t d3) O s)

/-- The region's invariant before tile `n`: the scratch at some contents the predicate admits, the generator register at
    some state, every other scoped buffer untouched. -/
def Phi2 (P : Preds2 F) (c : Dev nD) (n : ℕ) : sProp 𝕄 :=
  iprop((∃ s : Vec F S512x512 .f32, ⌜P.Pacc c n s⌝ ∗ owns (c : Thread nD τ) scM2 fullShare s) ∗ (∃ r, prngReg c r)
    ∗ Pipeline.scopedRestBut (Ix := Unit) (Name := ℕ) (U := UR sig nD τ × UR sig nD τ) (Lvl := ℕ) (Val := Elt F) spec2 c [cc2_scratch0])

/-- The relational proof data of pipeline 2 on core `c`, entered with the unscoped buffers at `V`. -/
def rdat2 (P : Preds2 F) (c : Dev nD) : RDat τ (Elt F) Unit ℕ (UR sig nD τ × UR sig nD τ) ℕ cfg2 c where
  A w := V c (Pipeline.arrRef spec2 w)
  after w t Y X := match w with
    | ⟨0, _⟩ => X = Y
    | ⟨1, _⟩ => X = Y
    | ⟨2, _⟩ => X = Y
    | ⟨3, _⟩ => X = Y
    | ⟨4, _⟩ => (cond2_1 (grid2.coords t) → P.Pout c t X) ∧ (¬cond2_1 (grid2.coords t) → X = Y)
  Φ t := Phi2 P c t.val
  q _ := fullShare
  owed _ := 0

theorem finds2_0 (P : Preds2 F) (c : Dev nD) (t : Fin cfg2.N) (Y) (h : (rdat2 V P c).Finds 0 t Y) : ∃ d, Y = fet2_0 V c t d :=
  (rdat2 V P c).finds_in_eq_fetched 0 rfl (by decide +kernel) (fun _ _ _ h => h) t Y h
theorem finds2_1 (P : Preds2 F) (c : Dev nD) (t : Fin cfg2.N) (Y) (h : (rdat2 V P c).Finds 1 t Y) : ∃ d, Y = fet2_1 V c t d :=
  (rdat2 V P c).finds_in_eq_fetched 1 rfl (by decide +kernel) (fun _ _ _ h => h) t Y h
theorem finds2_2 (P : Preds2 F) (c : Dev nD) (t : Fin cfg2.N) (Y) (h : (rdat2 V P c).Finds 2 t Y) : ∃ d, Y = fet2_2 V c t d :=
  (rdat2 V P c).finds_in_eq_fetched 2 rfl (by decide +kernel) (fun _ _ _ h => h) t Y h
theorem finds2_3 (P : Preds2 F) (c : Dev nD) (t : Fin cfg2.N) (Y) (h : (rdat2 V P c).Finds 3 t Y) : ∃ d, Y = fet2_3 V c t d :=
  (rdat2 V P c).finds_in_eq_fetched 3 rfl (by decide +kernel) (fun _ _ _ h => h) t Y h

set_option maxHeartbeats 1000000 in
/-- The body at any point, from what the windows' buffers may hold there. -/
theorem sound2 (P : Preds2 F) (c : Dev nD) (hS : Steps2 V P c) (t : Fin cfg2.N)
    (Y : (w : Fin cfg2.W) → (cfg2.win w).block.Idx → Elt F (cfg2.win w).elt) (hY : ∀ w, (rdat2 V P c).Finds w t (Y w)) :
    iprop((rdat2 V P c).Φ t.castSucc ∗ (rdat2 V P c).owesAt () t.castSucc
        ∗ owns (c : Thread nD τ) (st2_0 t) fullShare (Y 0) ∗ owns (c : Thread nD τ) (st2_1 t) fullShare (Y 1) ∗ owns (c : Thread nD τ) (st2_2 t) fullShare (Y 2) ∗ owns (c : Thread nD τ) (st2_3 t) fullShare (Y 3) ∗ owns (c : Thread nD τ) (st2_4 t) fullShare (Y 4))
      ⊢ wp frame (wpE (defs₀ (F := F)) Variants.none c none) Set.univ (bodyAt2 t) (fun _ =>
          iprop((rdat2 V P c).Φ t.succ ∗ (rdat2 V P c).owesAt () t.succ
            ∗ (∃ X, ⌜(rdat2 V P c).after 0 t (Y 0) X⌝ ∗ owns (c : Thread nD τ) (st2_0 t) fullShare X)
            ∗ (∃ X, ⌜(rdat2 V P c).after 1 t (Y 1) X⌝ ∗ owns (c : Thread nD τ) (st2_1 t) fullShare X)
            ∗ (∃ X, ⌜(rdat2 V P c).after 2 t (Y 2) X⌝ ∗ owns (c : Thread nD τ) (st2_2 t) fullShare X)
            ∗ (∃ X, ⌜(rdat2 V P c).after 3 t (Y 3) X⌝ ∗ owns (c : Thread nD τ) (st2_3 t) fullShare X)
            ∗ (∃ X, ⌜(rdat2 V P c).after 4 t (Y 4) X⌝ ∗ owns (c : Thread nD τ) (st2_4 t) fullShare X))) := by
  obtain ⟨d0, h0⟩ := finds2_0 V P c t _ (hY 0)
  obtain ⟨d1, h1⟩ := finds2_1 V P c t _ (hY 1)
  obtain ⟨d2, h2⟩ := finds2_2 V P c t _ (hY 2)
  obtain ⟨d3, h3⟩ := finds2_3 V P c t _ (hY 3)
  rw [show (rdat2 V P c).owesAt () t.succ = (rdat2 V P c).owesAt () t.castSucc from rfl]
  rw [show (rdat2 V P c).Φ t.castSucc = Phi2 P c t.val from rfl, show (rdat2 V P c).Φ t.succ = Phi2 P c (t.val + 1) from rfl]
  unfold Phi2 bodyAt2
  iintro ⟨⟨⟨%s, %hs, HS⟩, Hg, Hrest⟩, Ho, H0, H1, H2, H3, H4⟩
  iapply (body2 c Set.univ (grid2.coords t) _ _ _ _ _ _ _ _ _ _ _ _ (Y 0) (Y 1) (Y 2) (Y 3) (Y 4) s _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg Hrest]
  · isplitl [HS]
    · iexists (acc2 (grid2.coords t) (Y 0) (Y 1) (Y 2) s); isplitr
      · ipureintro; rw [h0, h1, h2]; exact hS.step t d0 d1 d2 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  isplitl [H3]
  · iexists (Y 3); isplitr
    · ipureintro; exact (rfl : Y 3 = Y 3)
    · iexact H3
  iexists (out2 (grid2.coords t) (Y 0) (Y 1) (Y 2) (Y 3) (Y 4) s); isplitr
  · ipureintro
    refine ⟨fun hc => ?_, fun hc => ?_⟩
    · rw [h0, h1, h2, h3]; exact hS.last t d0 d1 d2 d3 (Y 4) s hs hc
    · unfold out2; rw [if_neg hc]
  · iexact H4

end Cert.KernelIdeal.Hand

end
-- ==== Proof.KI.Body3.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 3 as a function of what it loads

The kernel keeps a running sum in a scratch buffer: at the first tile of a row of the grid it clears it, at every
tile it adds the product of the tile's two operands, and at the last tile it adds the bias, applies the activation
and writes the result block. Stated here once, for any float values: on whole buffers holding `X`, `W`, `A`, `B`,
`O` and the scratch holding `S`, the body leaves the inputs as they were, the scratch at `acc3` and the result
buffer at `out3`. -/

/-- The first tile of a row of the grid: the running sum is cleared. -/
abbrev cond3_0 (i : grid3.Coords) : Prop := (Scalar.cmpi .ne (Scalar.extui (Scalar.cmpi .eq (BitVec.ofNat 32 (i 1).val) 0#32)) 0#32) = 1#1
/-- The last tile of a row of the grid: the result block is written. -/
abbrev cond3_1 (i : grid3.Coords) : Prop := k3_cond2 i = 1#1

/-- The running sum after the body: this tile's product added to zeros (first tile) or to what the scratch held. -/
def acc3 (i : grid3.Coords) (X : Vec F S512x1024 .f32) (W : Vec F S512x1024 .f32) (A : Vec F S1024x512 .f32) (S : Vec F S512x512 .f32) : Vec F S512x512 .f32 :=
  k3_pay2 i W A X (if cond3_0 i then k3_pay1 else S)

/-- The result buffer after the body: at the last tile the running sum plus bias under the activation, else untouched. -/
def out3 (i : grid3.Coords) (X : Vec F S512x1024 .f32) (W : Vec F S512x1024 .f32) (A : Vec F S1024x512 .f32) (B : Vec F S1x512 .f32) (O S : Vec F S512x512 .f32) : Vec F S512x512 .f32 :=
  if cond3_1 i then k3_pay3 (acc3 i X W A S) B else O

set_option maxHeartbeats 4000000 in
/-- The body on whole buffers: loads, the payloads, whole-buffer stores; each branch decided by the tile's position. -/
theorem body3 (c : Dev nD) (E : Set ℕ) (i : grid3.Coords) (arg2 : Memref sig .tc .vmem S512x1024 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (X : Vec F S512x1024 .f32) (W : Vec F S512x1024 .f32) (A : Vec F S1024x512 .f32) (B : Vec F S1x512 .f32) (O : Vec F S512x512 .f32) (S : Vec F S512x512 .f32) (K : PUnit → sProp 𝕄) :
    iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare O ∗ owns (c : Thread nD τ) arg7 fullShare S
        ∗ (iprop(owns (c : Thread nD τ) arg2 fullShare X ∗ owns (c : Thread nD τ) arg3 fullShare W ∗ owns (c : Thread nD τ) arg4 fullShare A ∗ owns (c : Thread nD τ) arg5 fullShare B ∗ owns (c : Thread nD τ) arg6 fullShare (out3 i X W A B O S) ∗ owns (c : Thread nD τ) arg7 fullShare (acc3 i X W A S)) -∗ K ⟨⟩))
      ⊢ wp frame (wpE (defs₀ (F := F)) Variants.none c none) E (cc3__masked_linear_kernel i arg2 harg2 arg3 harg3 arg4 harg4 arg5 harg5 arg6 harg6 arg7 harg7) K := by
  by_cases hc0 : cond3_0 i <;> by_cases hc1 : cond3_1 i
  · -- first and last tile at once (a row of one tile)
    have ea : acc3 i X W A S = k3_pay2 i W A X k3_pay1 := by unfold acc3; rw [if_pos hc0]
    have eo : out3 i X W A B O S = k3_pay3 (k3_pay2 i W A X k3_pay1) B := by unfold out3; rw [if_pos hc1, ea]
    rw [eo, ea]
    simp only [cc3__masked_linear_kernel_eq_skeleton]; unfold cc3__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- first tile
    have ea : acc3 i X W A S = k3_pay2 i W A X k3_pay1 := by unfold acc3; rw [if_pos hc0]
    have eo : out3 i X W A B O S = O := by unfold out3; rw [if_neg hc1]
    rw [eo, ea]
    simp only [cc3__masked_linear_kernel_eq_skeleton]; unfold cc3__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_cons_unit_zero (S := S512x512) hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- last tile
    have ea : acc3 i X W A S = k3_pay2 i W A X S := by unfold acc3; rw [if_neg hc0]
    have eo : out3 i X W A B O S = k3_pay3 (k3_pay2 i W A X S) B := by unfold out3; rw [if_pos hc1, ea]
    rw [eo, ea]
    simp only [cc3__masked_linear_kernel_eq_skeleton]; unfold cc3__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr
      swap; · iexact HO
      ipureintro
      try sl_unfold_words
      rw [View.read_writes_eq_canon _ _ _ (fun y => View.cover_of_tiledL _ S512x512.size (by sl_kernel_rfl) y), View.canon_unit_zero hz]
      simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]
  · -- a middle tile
    have ea : acc3 i X W A S = k3_pay2 i W A X S := by unfold acc3; rw [if_neg hc0]
    have eo : out3 i X W A B O S = O := by unfold out3; rw [if_neg hc1]
    rw [eo, ea]
    simp only [cc3__masked_linear_kernel_eq_skeleton]; unfold cc3__masked_linear_kernel_skel
    unfold owns
    iintro ⟨⟨%f0, %hf0, HX⟩, ⟨%f1, %hf1, HW⟩, ⟨%f2, %hf2, HA⟩, ⟨%f3, %hf3, HB⟩, ⟨%f4, %hf4, HO⟩, ⟨%f5, %hf5, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HA]
    · iexists _; isplitr; · ipureintro; exact harg4.read_unread _
      iexact HA
    isplitl [HB]
    · iexists _; isplitr; · ipureintro; exact harg5.read_unread _
      iexact HB
    isplitl [HO]
    · iexists _; isplitr; · ipureintro; exact harg6.read_unread _
      iexact HO
    iexists _; isplitr
    swap; · iexact HS
    ipureintro
    try sl_unfold_words
    rw [View.read_writes_eq_canon _ _ _ (fun y => View.cover_of_tiledL _ S512x512.size (by sl_kernel_rfl) y), View.canon_unit_zero hz]
    simp only [View.readAt_eq_ld, harg2.read_unread, harg3.read_unread, harg4.read_unread, harg5.read_unread, harg6.read_unread, harg7.read_unread, View.ld_unit_zero (S := S512x1024) hz, View.ld_unit_zero (S := S512x1024) hz, View.ld_unit_zero (S := S1024x512) hz, View.ld_unit_zero (S := S1x512) hz, View.ld_unit_zero (S := S512x512) hz, View.readCov_unit_zero (S := S512x512) _ hz, readCov_cons_unit_zero (S := S512x512) _ hz]

end Cert.KernelIdeal.Hand

end
-- ==== Proof.KI.Obl3.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body3
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 3's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM3 : Memref sig .tc .vmem S512x512 .f32 := Memref.whole cc3_scratch0

/-- What a certificate says of the running sum (after `n` tiles) and of the result block (at a tile that writes it). -/
structure Preds3 (F : FTy → Type) [FloatOps F] where
  Pacc : Dev nD → ℕ → Vec F S512x512 .f32 → Prop
  Pout : Dev nD → Fin cfg3.N → Vec F S512x512 .f32 → Prop

/-- An input window's buffer after the fetch at point `t`: the array's block on the part inside the array, `d` elsewhere. -/
def fet3_0 (c : Dev nD) (t : Fin cfg3.N) (d : Vec F S512x1024 .f32) : Vec F S512x1024 .f32 :=
  (cfg3.win 0).fill (grid3.coords t) d (((cfg3.win 0).blk t).view.read (Elt F) (V c (Pipeline.arrRef spec3 0)))
def fet3_1 (c : Dev nD) (t : Fin cfg3.N) (d : Vec F S512x1024 .f32) : Vec F S512x1024 .f32 :=
  (cfg3.win 1).fill (grid3.coords t) d (((cfg3.win 1).blk t).view.read (Elt F) (V c (Pipeline.arrRef spec3 1)))
def fet3_2 (c : Dev nD) (t : Fin cfg3.N) (d : Vec F S1024x512 .f32) : Vec F S1024x512 .f32 :=
  (cfg3.win 2).fill (grid3.coords t) d (((cfg3.win 2).blk t).view.read (Elt F) (V c (Pipeline.arrRef spec3 2)))
def fet3_3 (c : Dev nD) (t : Fin cfg3.N) (d : Vec F S1x512 .f32) : Vec F S1x512 .f32 :=
  (cfg3.win 3).fill (grid3.coords t) d (((cfg3.win 3).blk t).view.read (Elt F) (V c (Pipeline.arrRef spec3 3)))

/-- The predicates are kept by the body, whatever a cut fetch left past the array's end. -/
structure Steps3 (P : Preds3 F) (c : Dev nD) : Prop where
  init : ∀ s, P.Pacc c 0 s
  step : ∀ (t : Fin cfg3.N) (d0 : Vec F S512x1024 .f32) (d1 : Vec F S512x1024 .f32) (d2 : Vec F S1024x512 .f32) (s : Vec F S512x512 .f32), P.Pacc c t.val s →
    P.Pacc c (t.val + 1) (acc3 (grid3.coords t) (fet3_0 V c t d0) (fet3_1 V c t d1) (fet3_2 V c t d2) s)
  last : ∀ (t : Fin cfg3.N) (d0 : Vec F S512x1024 .f32) (d1 : Vec F S512x1024 .f32) (d2 : Vec F S1024x512 .f32) (d3 : Vec F S1x512 .f32) (O s : Vec F S512x512 .f32),
    P.Pacc c t.val s → cond3_1 (grid3.coords t) →
    P.Pout c t (out3 (grid3.coords t) (fet3_0 V c t d0) (fet3_1 V c t d1) (fet3_2 V c t d2) (fet3_3 V c t d3) O s)

/-- The region's invariant before tile `n`: the scratch at some contents the predicate admits, the generator register at
    some state, every other scoped buffer untouched. -/
def Phi3 (P : Preds3 F) (c : Dev nD) (n : ℕ) : sProp 𝕄 :=
  iprop((∃ s : Vec F S512x512 .f32, ⌜P.Pacc c n s⌝ ∗ owns (c : Thread nD τ) scM3 fullShare s) ∗ (∃ r, prngReg c r)
    ∗ Pipeline.scopedRestBut (Ix := Unit) (Name := ℕ) (U := UR sig nD τ × UR sig nD τ) (Lvl := ℕ) (Val := Elt F) spec3 c [cc3_scratch0])

/-- The relational proof data of pipeline 3 on core `c`, entered with the unscoped buffers at `V`. -/
def rdat3 (P : Preds3 F) (c : Dev nD) : RDat τ (Elt F) Unit ℕ (UR sig nD τ × UR sig nD τ) ℕ cfg3 c where
  A w := V c (Pipeline.arrRef spec3 w)
  after w t Y X := match w with
    | ⟨0, _⟩ => X = Y
    | ⟨1, _⟩ => X = Y
    | ⟨2, _⟩ => X = Y
    | ⟨3, _⟩ => X = Y
    | ⟨4, _⟩ => (cond3_1 (grid3.coords t) → P.Pout c t X) ∧ (¬cond3_1 (grid3.coords t) → X = Y)
  Φ t := Phi3 P c t.val
  q _ := fullShare
  owed _ := 0

theorem finds3_0 (P : Preds3 F) (c : Dev nD) (t : Fin cfg3.N) (Y) (h : (rdat3 V P c).Finds 0 t Y) : ∃ d, Y = fet3_0 V c t d :=
  (rdat3 V P c).finds_in_eq_fetched 0 rfl (by decide +kernel) (fun _ _ _ h => h) t Y h
theorem finds3_1 (P : Preds3 F) (c : Dev nD) (t : Fin cfg3.N) (Y) (h : (rdat3 V P c).Finds 1 t Y) : ∃ d, Y = fet3_1 V c t d :=
  (rdat3 V P c).finds_in_eq_fetched 1 rfl (by decide +kernel) (fun _ _ _ h => h) t Y h
theorem finds3_2 (P : Preds3 F) (c : Dev nD) (t : Fin cfg3.N) (Y) (h : (rdat3 V P c).Finds 2 t Y) : ∃ d, Y = fet3_2 V c t d :=
  (rdat3 V P c).finds_in_eq_fetched 2 rfl (by decide +kernel) (fun _ _ _ h => h) t Y h
theorem finds3_3 (P : Preds3 F) (c : Dev nD) (t : Fin cfg3.N) (Y) (h : (rdat3 V P c).Finds 3 t Y) : ∃ d, Y = fet3_3 V c t d :=
  (rdat3 V P c).finds_in_eq_fetched 3 rfl (by decide +kernel) (fun _ _ _ h => h) t Y h

set_option maxHeartbeats 1000000 in
/-- The body at any point, from what the windows' buffers may hold there. -/
theorem sound3 (P : Preds3 F) (c : Dev nD) (hS : Steps3 V P c) (t : Fin cfg3.N)
    (Y : (w : Fin cfg3.W) → (cfg3.win w).block.Idx → Elt F (cfg3.win w).elt) (hY : ∀ w, (rdat3 V P c).Finds w t (Y w)) :
    iprop((rdat3 V P c).Φ t.castSucc ∗ (rdat3 V P c).owesAt () t.castSucc
        ∗ owns (c : Thread nD τ) (st3_0 t) fullShare (Y 0) ∗ owns (c : Thread nD τ) (st3_1 t) fullShare (Y 1) ∗ owns (c : Thread nD τ) (st3_2 t) fullShare (Y 2) ∗ owns (c : Thread nD τ) (st3_3 t) fullShare (Y 3) ∗ owns (c : Thread nD τ) (st3_4 t) fullShare (Y 4))
      ⊢ wp frame (wpE (defs₀ (F := F)) Variants.none c none) Set.univ (bodyAt3 t) (fun _ =>
          iprop((rdat3 V P c).Φ t.succ ∗ (rdat3 V P c).owesAt () t.succ
            ∗ (∃ X, ⌜(rdat3 V P c).after 0 t (Y 0) X⌝ ∗ owns (c : Thread nD τ) (st3_0 t) fullShare X)
            ∗ (∃ X, ⌜(rdat3 V P c).after 1 t (Y 1) X⌝ ∗ owns (c : Thread nD τ) (st3_1 t) fullShare X)
            ∗ (∃ X, ⌜(rdat3 V P c).after 2 t (Y 2) X⌝ ∗ owns (c : Thread nD τ) (st3_2 t) fullShare X)
            ∗ (∃ X, ⌜(rdat3 V P c).after 3 t (Y 3) X⌝ ∗ owns (c : Thread nD τ) (st3_3 t) fullShare X)
            ∗ (∃ X, ⌜(rdat3 V P c).after 4 t (Y 4) X⌝ ∗ owns (c : Thread nD τ) (st3_4 t) fullShare X))) := by
  obtain ⟨d0, h0⟩ := finds3_0 V P c t _ (hY 0)
  obtain ⟨d1, h1⟩ := finds3_1 V P c t _ (hY 1)
  obtain ⟨d2, h2⟩ := finds3_2 V P c t _ (hY 2)
  obtain ⟨d3, h3⟩ := finds3_3 V P c t _ (hY 3)
  rw [show (rdat3 V P c).owesAt () t.succ = (rdat3 V P c).owesAt () t.castSucc from rfl]
  rw [show (rdat3 V P c).Φ t.castSucc = Phi3 P c t.val from rfl, show (rdat3 V P c).Φ t.succ = Phi3 P c (t.val + 1) from rfl]
  unfold Phi3 bodyAt3
  iintro ⟨⟨⟨%s, %hs, HS⟩, Hg, Hrest⟩, Ho, H0, H1, H2, H3, H4⟩
  iapply (body3 c Set.univ (grid3.coords t) _ _ _ _ _ _ _ _ _ _ _ _ (Y 0) (Y 1) (Y 2) (Y 3) (Y 4) s _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg Hrest]
  · isplitl [HS]
    · iexists (acc3 (grid3.coords t) (Y 0) (Y 1) (Y 2) s); isplitr
      · ipureintro; rw [h0, h1, h2]; exact hS.step t d0 d1 d2 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  isplitl [H3]
  · iexists (Y 3); isplitr
    · ipureintro; exact (rfl : Y 3 = Y 3)
    · iexact H3
  iexists (out3 (grid3.coords t) (Y 0) (Y 1) (Y 2) (Y 3) (Y 4) s); isplitr
  · ipureintro
    refine ⟨fun hc => ?_, fun hc => ?_⟩
    · rw [h0, h1, h2, h3]; exact hS.last t d0 d1 d2 d3 (Y 4) s hs hc
    · unfold out3; rw [if_neg hc]
  · iexact H4

end Cert.KernelIdeal.Hand

end
-- ==== Proof.KI.Body4.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 4 as a function of what it loads

The kernel keeps a running sum in a scratch buffer: at the first tile of a row of the grid it clears it, at every
tile it adds the product of the tile's two operands, and at the last tile it adds the bias, applies the activation
and writes the result block. Stated here once, for any float values: on whole buffers holding `X`, `W`, `B`,
`O` and the scratch holding `S`, the body leaves the inputs as they were, the scratch at `acc4` and the result
buffer at `out4`. -/

/-- The first tile of a row of the grid: the running sum is cleared. -/
abbrev cond4_0 (i : grid4.Coords) : Prop := (Scalar.cmpi .ne (Scalar.extui (Scalar.cmpi .eq (BitVec.ofNat 32 (i 1).val) 0#32)) 0#32) = 1#1
/-- The last tile of a row of the grid: the result block is written. -/
abbrev cond4_1 (i : grid4.Coords) : Prop := k4_cond2 i = 1#1

/-- The running sum after the body: this tile's product added to zeros (first tile) or to what the scratch held. -/
def acc4 (i : grid4.Coords) (X : Vec F S512x1024 .f32) (W : Vec F S1024x1024 .f32) (S : Vec F S512x1024 .f32) : Vec F S512x1024 .f32 :=
  k4_pay2 i W X (if cond4_0 i then k4_pay1 else S)

/-- The result buffer after the body: at the last tile the running sum plus bias under the activation, else untouched. -/
def out4 (i : grid4.Coords) (X : Vec F S512x1024 .f32) (W : Vec F S1024x1024 .f32) (B : Vec F S1x1024 .f32) (O S : Vec F S512x1024 .f32) : Vec F S512x1024 .f32 :=
  if cond4_1 i then k4_pay3 (acc4 i X W S) B else O

set_option maxHeartbeats 4000000 in
/-- The body on whole buffers: loads, the payloads, whole-buffer stores; each branch decided by the tile's position. -/
theorem body4 (c : Dev nD) (E : Set ℕ) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole)
    (X : Vec F S512x1024 .f32) (W : Vec F S1024x1024 .f32) (B : Vec F S1x1024 .f32) (O : Vec F S512x1024 .f32) (S : Vec F S512x1024 .f32) (K : PUnit → sProp 𝕄) :
    iprop(owns (c : Thread nD τ) arg2 fullShare X ∗ owns (c : Thread nD τ) arg3 fullShare W ∗ owns (c : Thread nD τ) arg4 fullShare B ∗ owns (c : Thread nD τ) arg5 fullShare O ∗ owns (c : Thread nD τ) arg6 fullShare S
        ∗ (iprop(owns (c : Thread nD τ) arg2 fullShare X ∗ owns (c : Thread nD τ) arg3 fullShare W ∗ owns (c : Thread nD τ) arg4 fullShare B ∗ owns (c : Thread nD τ) arg5 fullShare (out4 i X W B O S) ∗ owns (c : Thread nD τ) arg6 fullShare (acc4 i X W S)) -∗ K ⟨⟩))
      ⊢ wp frame (wpE (defs₀ (F := F)) Variants.none c none) E (cc4__dense_kernel i arg2 harg2 arg3 harg3 arg4 harg4 arg5 harg5 arg6 harg6) K := by
  by_cases hc0 : cond4_0 i <;> by_cases hc1 : cond4_1 i
  · -- first and last tile at once (a row of one tile)
    have ea : acc4 i X W S = k4_pay2 i W X k4_pay1 := by unfold acc4; rw [if_pos hc0]
    have eo : out4 i X W B O S = k4_pay3 (k4_pay2 i W X k4_pay1) B := by unfold out4; rw [if_pos hc1, ea]
    rw [eo, ea]
    simp only [cc4__dense_kernel_eq_skeleton]; unfold cc4__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr
      swap; · iexact HO
      ipureintro
      try sl_unfold_words
      rw [View.read_writes_eq_canon _ _ _ (fun y => View.cover_of_tiledL _ S512x1024.size (by sl_kernel_rfl) y), View.canon_unit_zero hz]
      simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
    iexists _; isplitr
    swap; · iexact HS
    ipureintro
    try sl_unfold_words
    rw [View.read_writes_eq_canon _ _ _ (fun y => View.cover_of_tiledL _ S512x1024.size (by sl_kernel_rfl) y), View.canon_cons_unit_zero (S := S512x1024) hz]
    simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- first tile
    have ea : acc4 i X W S = k4_pay2 i W X k4_pay1 := by unfold acc4; rw [if_pos hc0]
    have eo : out4 i X W B O S = O := by unfold out4; rw [if_neg hc1]
    rw [eo, ea]
    simp only [cc4__dense_kernel_eq_skeleton]; unfold cc4__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr; · ipureintro; exact harg5.read_unread _
      iexact HO
    iexists _; isplitr
    swap; · iexact HS
    ipureintro
    try sl_unfold_words
    rw [View.read_writes_eq_canon _ _ _ (fun y => View.cover_of_tiledL _ S512x1024.size (by sl_kernel_rfl) y), View.canon_cons_unit_zero (S := S512x1024) hz]
    simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- last tile
    have ea : acc4 i X W S = k4_pay2 i W X S := by unfold acc4; rw [if_neg hc0]
    have eo : out4 i X W B O S = k4_pay3 (k4_pay2 i W X S) B := by unfold out4; rw [if_pos hc1, ea]
    rw [eo, ea]
    simp only [cc4__dense_kernel_eq_skeleton]; unfold cc4__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr
      swap; · iexact HO
      ipureintro
      try sl_unfold_words
      rw [View.read_writes_eq_canon _ _ _ (fun y => View.cover_of_tiledL _ S512x1024.size (by sl_kernel_rfl) y), View.canon_unit_zero hz]
      simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
    iexists _; isplitr
    swap; · iexact HS
    ipureintro
    try sl_unfold_words
    rw [View.read_writes_eq_canon _ _ _ (fun y => View.cover_of_tiledL _ S512x1024.size (by sl_kernel_rfl) y), View.canon_unit_zero hz]
    simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]
  · -- a middle tile
    have ea : acc4 i X W S = k4_pay2 i W X S := by unfold acc4; rw [if_neg hc0]
    have eo : out4 i X W B O S = O := by unfold out4; rw [if_neg hc1]
    rw [eo, ea]
    simp only [cc4__dense_kernel_eq_skeleton]; unfold cc4__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr; · ipureintro; exact harg5.read_unread _
      iexact HO
    iexists _; isplitr
    swap; · iexact HS
    ipureintro
    try sl_unfold_words
    rw [View.read_writes_eq_canon _ _ _ (fun y => View.cover_of_tiledL _ S512x1024.size (by sl_kernel_rfl) y), View.canon_unit_zero hz]
    simp only [View.readAt_eq_ld, harg2.read_unread, harg3.read_unread, harg4.read_unread, harg5.read_unread, harg6.read_unread, View.ld_unit_zero (S := S512x1024) hz, View.ld_unit_zero (S := S1024x1024) hz, View.ld_unit_zero (S := S1x1024) hz, View.ld_unit_zero (S := S512x1024) hz, View.readCov_unit_zero (S := S512x1024) _ hz, readCov_cons_unit_zero (S := S512x1024) _ hz]

end Cert.KernelIdeal.Hand

end
-- ==== Proof.KI.Obl4.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body4
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 4's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM4 : Memref sig .tc .vmem S512x1024 .f32 := Memref.whole cc4_scratch0

/-- What a certificate says of the running sum (after `n` tiles) and of the result block (at a tile that writes it). -/
structure Preds4 (F : FTy → Type) [FloatOps F] where
  Pacc : Dev nD → ℕ → Vec F S512x1024 .f32 → Prop
  Pout : Dev nD → Fin cfg4.N → Vec F S512x1024 .f32 → Prop

/-- An input window's buffer after the fetch at point `t`: the array's block on the part inside the array, `d` elsewhere. -/
def fet4_0 (c : Dev nD) (t : Fin cfg4.N) (d : Vec F S512x1024 .f32) : Vec F S512x1024 .f32 :=
  (cfg4.win 0).fill (grid4.coords t) d (((cfg4.win 0).blk t).view.read (Elt F) (V c (Pipeline.arrRef spec4 0)))
def fet4_1 (c : Dev nD) (t : Fin cfg4.N) (d : Vec F S1024x1024 .f32) : Vec F S1024x1024 .f32 :=
  (cfg4.win 1).fill (grid4.coords t) d (((cfg4.win 1).blk t).view.read (Elt F) (V c (Pipeline.arrRef spec4 1)))
def fet4_2 (c : Dev nD) (t : Fin cfg4.N) (d : Vec F S1x1024 .f32) : Vec F S1x1024 .f32 :=
  (cfg4.win 2).fill (grid4.coords t) d (((cfg4.win 2).blk t).view.read (Elt F) (V c (Pipeline.arrRef spec4 2)))

/-- The predicates are kept by the body, whatever a cut fetch left past the array's end. -/
structure Steps4 (P : Preds4 F) (c : Dev nD) : Prop where
  init : ∀ s, P.Pacc c 0 s
  step : ∀ (t : Fin cfg4.N) (d0 : Vec F S512x1024 .f32) (d1 : Vec F S1024x1024 .f32) (s : Vec F S512x1024 .f32), P.Pacc c t.val s →
    P.Pacc c (t.val + 1) (acc4 (grid4.coords t) (fet4_0 V c t d0) (fet4_1 V c t d1) s)
  last : ∀ (t : Fin cfg4.N) (d0 : Vec F S512x1024 .f32) (d1 : Vec F S1024x1024 .f32) (d2 : Vec F S1x1024 .f32) (O s : Vec F S512x1024 .f32),
    P.Pacc c t.val s → cond4_1 (grid4.coords t) →
    P.Pout c t (out4 (grid4.coords t) (fet4_0 V c t d0) (fet4_1 V c t d1) (fet4_2 V c t d2) O s)

/-- The region's invariant before tile `n`: the scratch at some contents the predicate admits, the generator register at
    some state, every other scoped buffer untouched. -/
def Phi4 (P : Preds4 F) (c : Dev nD) (n : ℕ) : sProp 𝕄 :=
  iprop((∃ s : Vec F S512x1024 .f32, ⌜P.Pacc c n s⌝ ∗ owns (c : Thread nD τ) scM4 fullShare s) ∗ (∃ r, prngReg c r)
    ∗ Pipeline.scopedRestBut (Ix := Unit) (Name := ℕ) (U := UR sig nD τ × UR sig nD τ) (Lvl := ℕ) (Val := Elt F) spec4 c [cc4_scratch0])

/-- The relational proof data of pipeline 4 on core `c`, entered with the unscoped buffers at `V`. -/
def rdat4 (P : Preds4 F) (c : Dev nD) : RDat τ (Elt F) Unit ℕ (UR sig nD τ × UR sig nD τ) ℕ cfg4 c where
  A w := V c (Pipeline.arrRef spec4 w)
  after w t Y X := match w with
    | ⟨0, _⟩ => X = Y
    | ⟨1, _⟩ => X = Y
    | ⟨2, _⟩ => X = Y
    | ⟨3, _⟩ => (cond4_1 (grid4.coords t) → P.Pout c t X) ∧ (¬cond4_1 (grid4.coords t) → X = Y)
  Φ t := Phi4 P c t.val
  q _ := fullShare
  owed _ := 0

theorem finds4_0 (P : Preds4 F) (c : Dev nD) (t : Fin cfg4.N) (Y) (h : (rdat4 V P c).Finds 0 t Y) : ∃ d, Y = fet4_0 V c t d :=
  (rdat4 V P c).finds_in_eq_fetched 0 rfl (by decide +kernel) (fun _ _ _ h => h) t Y h
theorem finds4_1 (P : Preds4 F) (c : Dev nD) (t : Fin cfg4.N) (Y) (h : (rdat4 V P c).Finds 1 t Y) : ∃ d, Y = fet4_1 V c t d :=
  (rdat4 V P c).finds_in_eq_fetched 1 rfl (by decide +kernel) (fun _ _ _ h => h) t Y h
theorem finds4_2 (P : Preds4 F) (c : Dev nD) (t : Fin cfg4.N) (Y) (h : (rdat4 V P c).Finds 2 t Y) : ∃ d, Y = fet4_2 V c t d :=
  (rdat4 V P c).finds_in_eq_fetched 2 rfl (by decide +kernel) (fun _ _ _ h => h) t Y h

set_option maxHeartbeats 1000000 in
/-- The body at any point, from what the windows' buffers may hold there. -/
theorem sound4 (P : Preds4 F) (c : Dev nD) (hS : Steps4 V P c) (t : Fin cfg4.N)
    (Y : (w : Fin cfg4.W) → (cfg4.win w).block.Idx → Elt F (cfg4.win w).elt) (hY : ∀ w, (rdat4 V P c).Finds w t (Y w)) :
    iprop((rdat4 V P c).Φ t.castSucc ∗ (rdat4 V P c).owesAt () t.castSucc
        ∗ owns (c : Thread nD τ) (st4_0 t) fullShare (Y 0) ∗ owns (c : Thread nD τ) (st4_1 t) fullShare (Y 1) ∗ owns (c : Thread nD τ) (st4_2 t) fullShare (Y 2) ∗ owns (c : Thread nD τ) (st4_3 t) fullShare (Y 3))
      ⊢ wp frame (wpE (defs₀ (F := F)) Variants.none c none) Set.univ (bodyAt4 t) (fun _ =>
          iprop((rdat4 V P c).Φ t.succ ∗ (rdat4 V P c).owesAt () t.succ
            ∗ (∃ X, ⌜(rdat4 V P c).after 0 t (Y 0) X⌝ ∗ owns (c : Thread nD τ) (st4_0 t) fullShare X)
            ∗ (∃ X, ⌜(rdat4 V P c).after 1 t (Y 1) X⌝ ∗ owns (c : Thread nD τ) (st4_1 t) fullShare X)
            ∗ (∃ X, ⌜(rdat4 V P c).after 2 t (Y 2) X⌝ ∗ owns (c : Thread nD τ) (st4_2 t) fullShare X)
            ∗ (∃ X, ⌜(rdat4 V P c).after 3 t (Y 3) X⌝ ∗ owns (c : Thread nD τ) (st4_3 t) fullShare X))) := by
  obtain ⟨d0, h0⟩ := finds4_0 V P c t _ (hY 0)
  obtain ⟨d1, h1⟩ := finds4_1 V P c t _ (hY 1)
  obtain ⟨d2, h2⟩ := finds4_2 V P c t _ (hY 2)
  rw [show (rdat4 V P c).owesAt () t.succ = (rdat4 V P c).owesAt () t.castSucc from rfl]
  rw [show (rdat4 V P c).Φ t.castSucc = Phi4 P c t.val from rfl, show (rdat4 V P c).Φ t.succ = Phi4 P c (t.val + 1) from rfl]
  unfold Phi4 bodyAt4
  iintro ⟨⟨⟨%s, %hs, HS⟩, Hg, Hrest⟩, Ho, H0, H1, H2, H3⟩
  iapply (body4 c Set.univ (grid4.coords t) _ _ _ _ _ _ _ _ _ _ (Y 0) (Y 1) (Y 2) (Y 3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg Hrest]
  · isplitl [HS]
    · iexists (acc4 (grid4.coords t) (Y 0) (Y 1) s); isplitr
      · ipureintro; rw [h0, h1]; exact hS.step t d0 d1 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  iexists (out4 (grid4.coords t) (Y 0) (Y 1) (Y 2) (Y 3) s); isplitr
  · ipureintro
    refine ⟨fun hc => ?_, fun hc => ?_⟩
    · rw [h0, h1, h2]; exact hS.last t d0 d1 d2 (Y 3) s hs hc
    · unfold out4; rw [if_neg hc]
  · iexact H3

end Cert.KernelIdeal.Hand

end
-- ==== Proof.KI.Body5.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 5 as a function of what it loads

The kernel keeps a running sum in a scratch buffer: at the first tile of a row of the grid it clears it, at every
tile it adds the product of the tile's two operands, and at the last tile it adds the bias, applies the activation
and writes the result block. Stated here once, for any float values: on whole buffers holding `X`, `W`, `B`,
`O` and the scratch holding `S`, the body leaves the inputs as they were, the scratch at `acc5` and the result
buffer at `out5`. -/

/-- The first tile of a row of the grid: the running sum is cleared. -/
abbrev cond5_0 (i : grid5.Coords) : Prop := (Scalar.cmpi .ne (Scalar.extui (Scalar.cmpi .eq (BitVec.ofNat 32 (i 1).val) 0#32)) 0#32) = 1#1
/-- The last tile of a row of the grid: the result block is written. -/
abbrev cond5_1 (i : grid5.Coords) : Prop := k5_cond2 i = 1#1

/-- The running sum after the body: this tile's product added to zeros (first tile) or to what the scratch held. -/
def acc5 (i : grid5.Coords) (X : Vec F S512x1024 .f32) (W : Vec F S256x1024 .f32) (S : Vec F S512x256 .f32) : Vec F S512x256 .f32 :=
  k5_pay2 W X (if cond5_0 i then k5_pay1 else S)

/-- The result buffer after the body: at the last tile the running sum plus bias under the activation, else untouched. -/
def out5 (i : grid5.Coords) (X : Vec F S512x1024 .f32) (W : Vec F S256x1024 .f32) (B : Vec F S1x256 .f32) (O S : Vec F S512x256 .f32) : Vec F S512x256 .f32 :=
  if cond5_1 i then k5_pay3 (acc5 i X W S) B else O

set_option maxHeartbeats 4000000 in
/-- The body on whole buffers: loads, the payloads, whole-buffer stores; each branch decided by the tile's position. -/
theorem body5 (c : Dev nD) (E : Set ℕ) (i : grid5.Coords) (arg2 : Memref sig .tc .vmem S512x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)
    (X : Vec F S512x1024 .f32) (W : Vec F S256x1024 .f32) (B : Vec F S1x256 .f32) (O : Vec F S512x256 .f32) (S : Vec F S512x256 .f32) (K : PUnit → sProp 𝕄) :
    iprop(owns (c : Thread nD τ) arg2 fullShare X ∗ owns (c : Thread nD τ) arg3 fullShare W ∗ owns (c : Thread nD τ) arg4 fullShare B ∗ owns (c : Thread nD τ) arg5 fullShare O ∗ owns (c : Thread nD τ) arg6 fullShare S
        ∗ (iprop(owns (c : Thread nD τ) arg2 fullShare X ∗ owns (c : Thread nD τ) arg3 fullShare W ∗ owns (c : Thread nD τ) arg4 fullShare B ∗ owns (c : Thread nD τ) arg5 fullShare (out5 i X W B O S) ∗ owns (c : Thread nD τ) arg6 fullShare (acc5 i X W S)) -∗ K ⟨⟩))
      ⊢ wp frame (wpE (defs₀ (F := F)) Variants.none c none) E (cc5__dense_kernel i arg2 harg2 arg3 harg3 arg4 harg4 arg5 harg5 arg6 harg6) K := by
  by_cases hc0 : cond5_0 i <;> by_cases hc1 : cond5_1 i
  · -- first and last tile at once (a row of one tile)
    have ea : acc5 i X W S = k5_pay2 W X k5_pay1 := by unfold acc5; rw [if_pos hc0]
    have eo : out5 i X W B O S = k5_pay3 (k5_pay2 W X k5_pay1) B := by unfold out5; rw [if_pos hc1, ea]
    rw [eo, ea]
    simp only [cc5__dense_kernel_eq_skeleton]; unfold cc5__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr
      swap; · iexact HO
      ipureintro
      try sl_unfold_words
      rw [View.read_writes_eq_canon _ _ _ (fun y => View.cover_of_tiledL _ S512x256.size (by sl_kernel_rfl) y), View.canon_unit_zero hz]
      simp only [View.readAt_eq_ld, harg2.read_unread, harg3.read_unread, harg4.read_unread, harg5.read_unread, harg6.read_unread, View.ld_unit_zero (S := S512x1024) hz, View.ld_unit_zero (S := S256x1024) hz, View.ld_unit_zero (S := S1x256) hz, View.ld_unit_zero (S := S512x256) hz, View.readCov_unit_zero (S := S512x256) _ hz, readCov_cons_unit_zero (S := S512x256) _ hz]
    iexists _; isplitr
    swap; · iexact HS
    ipureintro
    try sl_unfold_words
    rw [View.read_writes_eq_canon _ _ _ (fun y => View.cover_of_tiledL _ S512x256.size (by sl_kernel_rfl) y), View.canon_cons_unit_zero (S := S512x256) hz]
    simp only [View.readAt_eq_ld, harg2.read_unread, harg3.read_unread, harg4.read_unread, harg5.read_unread, harg6.read_unread, View.ld_unit_zero (S := S512x1024) hz, View.ld_unit_zero (S := S256x1024) hz, View.ld_unit_zero (S := S1x256) hz, View.ld_unit_zero (S := S512x256) hz, View.readCov_unit_zero (S := S512x256) _ hz, readCov_cons_unit_zero (S := S512x256) _ hz]
  · -- the grid is one point: it is the last tile too
    exact absurd ((by decide +kernel : ∀ i : grid5.Coords, cond5_0 i ∧ cond5_1 i) i).2 hc1
  · -- the grid is one point: it is the first tile too
    exact absurd ((by decide +kernel : ∀ i : grid5.Coords, cond5_0 i ∧ cond5_1 i) i).1 hc0
  · -- the grid is one point: no middle tile
    exact absurd ((by decide +kernel : ∀ i : grid5.Coords, cond5_0 i ∧ cond5_1 i) i).1 hc0

end Cert.KernelIdeal.Hand

end
-- ==== Proof.KI.Obl5.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body5
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 5's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM5 : Memref sig .tc .vmem S512x256 .f32 := Memref.whole cc5_scratch0

/-- What a certificate says of the running sum (after `n` tiles) and of the result block (at a tile that writes it). -/
structure Preds5 (F : FTy → Type) [FloatOps F] where
  Pacc : Dev nD → ℕ → Vec F S512x256 .f32 → Prop
  Pout : Dev nD → Fin cfg5.N → Vec F S512x256 .f32 → Prop

/-- An input window's buffer after the fetch at point `t`: the array's block on the part inside the array, `d` elsewhere. -/
def fet5_0 (c : Dev nD) (t : Fin cfg5.N) (d : Vec F S512x1024 .f32) : Vec F S512x1024 .f32 :=
  (cfg5.win 0).fill (grid5.coords t) d (((cfg5.win 0).blk t).view.read (Elt F) (V c (Pipeline.arrRef spec5 0)))
def fet5_1 (c : Dev nD) (t : Fin cfg5.N) (d : Vec F S256x1024 .f32) : Vec F S256x1024 .f32 :=
  (cfg5.win 1).fill (grid5.coords t) d (((cfg5.win 1).blk t).view.read (Elt F) (V c (Pipeline.arrRef spec5 1)))
def fet5_2 (c : Dev nD) (t : Fin cfg5.N) (d : Vec F S1x256 .f32) : Vec F S1x256 .f32 :=
  (cfg5.win 2).fill (grid5.coords t) d (((cfg5.win 2).blk t).view.read (Elt F) (V c (Pipeline.arrRef spec5 2)))

/-- The predicates are kept by the body, whatever a cut fetch left past the array's end. -/
structure Steps5 (P : Preds5 F) (c : Dev nD) : Prop where
  init : ∀ s, P.Pacc c 0 s
  step : ∀ (t : Fin cfg5.N) (d0 : Vec F S512x1024 .f32) (d1 : Vec F S256x1024 .f32) (s : Vec F S512x256 .f32), P.Pacc c t.val s →
    P.Pacc c (t.val + 1) (acc5 (grid5.coords t) (fet5_0 V c t d0) (fet5_1 V c t d1) s)
  last : ∀ (t : Fin cfg5.N) (d0 : Vec F S512x1024 .f32) (d1 : Vec F S256x1024 .f32) (d2 : Vec F S1x256 .f32) (O s : Vec F S512x256 .f32),
    P.Pacc c t.val s → cond5_1 (grid5.coords t) →
    P.Pout c t (out5 (grid5.coords t) (fet5_0 V c t d0) (fet5_1 V c t d1) (fet5_2 V c t d2) O s)

/-- The region's invariant before tile `n`: the scratch at some contents the predicate admits, the generator register at
    some state, every other scoped buffer untouched. -/
def Phi5 (P : Preds5 F) (c : Dev nD) (n : ℕ) : sProp 𝕄 :=
  iprop((∃ s : Vec F S512x256 .f32, ⌜P.Pacc c n s⌝ ∗ owns (c : Thread nD τ) scM5 fullShare s) ∗ (∃ r, prngReg c r)
    ∗ Pipeline.scopedRestBut (Ix := Unit) (Name := ℕ) (U := UR sig nD τ × UR sig nD τ) (Lvl := ℕ) (Val := Elt F) spec5 c [cc5_scratch0])

/-- The relational proof data of pipeline 5 on core `c`, entered with the unscoped buffers at `V`. -/
def rdat5 (P : Preds5 F) (c : Dev nD) : RDat τ (Elt F) Unit ℕ (UR sig nD τ × UR sig nD τ) ℕ cfg5 c where
  A w := V c (Pipeline.arrRef spec5 w)
  after w t Y X := match w with
    | ⟨0, _⟩ => X = Y
    | ⟨1, _⟩ => X = Y
    | ⟨2, _⟩ => X = Y
    | ⟨3, _⟩ => (cond5_1 (grid5.coords t) → P.Pout c t X) ∧ (¬cond5_1 (grid5.coords t) → X = Y)
  Φ t := Phi5 P c t.val
  q _ := fullShare
  owed _ := 0

theorem finds5_0 (P : Preds5 F) (c : Dev nD) (t : Fin cfg5.N) (Y) (h : (rdat5 V P c).Finds 0 t Y) : ∃ d, Y = fet5_0 V c t d :=
  (rdat5 V P c).finds_in_eq_fetched 0 rfl (by decide +kernel) (fun _ _ _ h => h) t Y h
theorem finds5_1 (P : Preds5 F) (c : Dev nD) (t : Fin cfg5.N) (Y) (h : (rdat5 V P c).Finds 1 t Y) : ∃ d, Y = fet5_1 V c t d :=
  (rdat5 V P c).finds_in_eq_fetched 1 rfl (by decide +kernel) (fun _ _ _ h => h) t Y h
theorem finds5_2 (P : Preds5 F) (c : Dev nD) (t : Fin cfg5.N) (Y) (h : (rdat5 V P c).Finds 2 t Y) : ∃ d, Y = fet5_2 V c t d :=
  (rdat5 V P c).finds_in_eq_fetched 2 rfl (by decide +kernel) (fun _ _ _ h => h) t Y h

set_option maxHeartbeats 1000000 in
/-- The body at any point, from what the windows' buffers may hold there. -/
theorem sound5 (P : Preds5 F) (c : Dev nD) (hS : Steps5 V P c) (t : Fin cfg5.N)
    (Y : (w : Fin cfg5.W) → (cfg5.win w).block.Idx → Elt F (cfg5.win w).elt) (hY : ∀ w, (rdat5 V P c).Finds w t (Y w)) :
    iprop((rdat5 V P c).Φ t.castSucc ∗ (rdat5 V P c).owesAt () t.castSucc
        ∗ owns (c : Thread nD τ) (st5_0 t) fullShare (Y 0) ∗ owns (c : Thread nD τ) (st5_1 t) fullShare (Y 1) ∗ owns (c : Thread nD τ) (st5_2 t) fullShare (Y 2) ∗ owns (c : Thread nD τ) (st5_3 t) fullShare (Y 3))
      ⊢ wp frame (wpE (defs₀ (F := F)) Variants.none c none) Set.univ (bodyAt5 t) (fun _ =>
          iprop((rdat5 V P c).Φ t.succ ∗ (rdat5 V P c).owesAt () t.succ
            ∗ (∃ X, ⌜(rdat5 V P c).after 0 t (Y 0) X⌝ ∗ owns (c : Thread nD τ) (st5_0 t) fullShare X)
            ∗ (∃ X, ⌜(rdat5 V P c).after 1 t (Y 1) X⌝ ∗ owns (c : Thread nD τ) (st5_1 t) fullShare X)
            ∗ (∃ X, ⌜(rdat5 V P c).after 2 t (Y 2) X⌝ ∗ owns (c : Thread nD τ) (st5_2 t) fullShare X)
            ∗ (∃ X, ⌜(rdat5 V P c).after 3 t (Y 3) X⌝ ∗ owns (c : Thread nD τ) (st5_3 t) fullShare X))) := by
  obtain ⟨d0, h0⟩ := finds5_0 V P c t _ (hY 0)
  obtain ⟨d1, h1⟩ := finds5_1 V P c t _ (hY 1)
  obtain ⟨d2, h2⟩ := finds5_2 V P c t _ (hY 2)
  rw [show (rdat5 V P c).owesAt () t.succ = (rdat5 V P c).owesAt () t.castSucc from rfl]
  rw [show (rdat5 V P c).Φ t.castSucc = Phi5 P c t.val from rfl, show (rdat5 V P c).Φ t.succ = Phi5 P c (t.val + 1) from rfl]
  unfold Phi5 bodyAt5
  iintro ⟨⟨⟨%s, %hs, HS⟩, Hg, Hrest⟩, Ho, H0, H1, H2, H3⟩
  iapply (body5 c Set.univ (grid5.coords t) _ _ _ _ _ _ _ _ _ _ (Y 0) (Y 1) (Y 2) (Y 3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg Hrest]
  · isplitl [HS]
    · iexists (acc5 (grid5.coords t) (Y 0) (Y 1) s); isplitr
      · ipureintro; rw [h0, h1]; exact hS.step t d0 d1 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  iexists (out5 (grid5.coords t) (Y 0) (Y 1) (Y 2) (Y 3) s); isplitr
  · ipureintro
    refine ⟨fun hc => ?_, fun hc => ?_⟩
    · rw [h0, h1, h2]; exact hS.last t d0 d1 d2 (Y 3) s hs hc
    · unfold out5; rw [if_neg hc]
  · iexact H3

end Cert.KernelIdeal.Hand

end
-- ==== Proof.KI.Body6.lean ====
import proofs.«128469_j53695681135127_2_alg».proof.Proof.KI.Base
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # The body of kernel 6 as a function of what it loads

The kernel keeps a running sum in a scratch buffer: at the first tile of a row of the grid it clears it, at every
tile it adds the product of the tile's two operands, and at the last tile it adds the bias, applies the activation
and writes the result block. Stated here once, for any float values: on whole buffers holding `X`, `W`, `B`,
`O` and the scratch holding `S`, the body leaves the inputs as they were, the scratch at `acc6` and the result
buffer at `out6`. -/

/-- The first tile of a row of the grid: the running sum is cleared. -/
abbrev cond6_0 (i : grid6.Coords) : Prop := (Scalar.cmpi .ne (Scalar.extui (Scalar.cmpi .eq (BitVec.ofNat 32 (i 1).val) 0#32)) 0#32) = 1#1
/-- The last tile of a row of the grid: the result block is written. -/
abbrev cond6_1 (i : grid6.Coords) : Prop := k6_cond2 i = 1#1

/-- The running sum after the body: this tile's product added to zeros (first tile) or to what the scratch held. -/
def acc6 (i : grid6.Coords) (X : Vec F S512x256 .f32) (W : Vec F S128x256 .f32) (S : Vec F S512x128 .f32) : Vec F S512x128 .f32 :=
  k6_pay2 W X (if cond6_0 i then k6_pay1 else S)

/-- The result buffer after the body: at the last tile the running sum plus bias under the activation, else untouched. -/
def out6 (i : grid6.Coords) (X : Vec F S512x256 .f32) (W : Vec F S128x256 .f32) (B : Vec F S1x128 .f32) (O S : Vec F S512x128 .f32) : Vec F S512x128 .f32 :=
  if cond6_1 i then k6_pay3 (acc6 i X W S) B else O

set_option maxHeartbeats 4000000 in
/-- The body on whole buffers: loads, the payloads, whole-buffer stores; each branch decided by the tile's position. -/
theorem body6 (c : Dev nD) (E : Set ℕ) (i : grid6.Coords) (arg2 : Memref sig .tc .vmem S512x256 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)
    (X : Vec F S512x256 .f32) (W : Vec F S128x256 .f32) (B : Vec F S1x128 .f32) (O : Vec F S512x128 .f32) (S : Vec F S512x128 .f32) (K : PUnit → sProp 𝕄) :
    iprop(owns (c : Thread nD τ) arg2 fullShare X ∗ owns (c : Thread nD τ) arg3 fullShare W ∗ owns (c : Thread nD τ) arg4 fullShare B ∗ owns (c : Thread nD τ) arg5 fullShare O ∗ owns (c : Thread nD τ) arg6 fullShare S
        ∗ (iprop(owns (c : Thread nD τ) arg2 fullShare X ∗ owns (c : Thread nD τ) arg3 fullShare W ∗ owns (c : Thread nD τ) arg4 fullShare B ∗ owns (c : Thread nD τ) arg5 fullShare (out6 i X W B O S) ∗ owns (c : Thread nD τ) arg6 fullShare (acc6 i X W S)) -∗ K ⟨⟩))
      ⊢ wp frame (wpE (defs₀ (F := F)) Variants.none c none) E (cc6__dense_kernel i arg2 harg2 arg3 harg3 arg4 harg4 arg5 harg5 arg6 harg6) K := by
  by_cases hc0 : cond6_0 i <;> by_cases hc1 : cond6_1 i
  · -- first and last tile at once (a row of one tile)
    have ea : acc6 i X W S = k6_pay2 W X k6_pay1 := by unfold acc6; rw [if_pos hc0]
    have eo : out6 i X W B O S = k6_pay3 (k6_pay2 W X k6_pay1) B := by unfold out6; rw [if_pos hc1, ea]
    rw [eo, ea]
    simp only [cc6__dense_kernel_eq_skeleton]; unfold cc6__dense_kernel_skel
    unfold owns
    iintro ⟨⟨%f0, %hf0, HX⟩, ⟨%f1, %hf1, HW⟩, ⟨%f2, %hf2, HB⟩, ⟨%f3, %hf3, HO⟩, ⟨%f4, %hf4, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    have hz : (![0, 0] : Fin 2 → Nat) = fun _ => 0 := funext fun a => by fin_cases a <;> rfl
    iapply Hk
    isplitl [HX]
    · iexists _; isplitr; · ipureintro; exact harg2.read_unread _
      iexact HX
    isplitl [HW]
    · iexists _; isplitr; · ipureintro; exact harg3.read_unread _
      iexact HW
    isplitl [HB]
    · iexists _; isplitr; · ipureintro; exact harg4.read_unread _
      iexact HB
    isplitl [HO]
    · iexists _; isplitr
      swap; · iexact HO
      ipureintro
      try sl_unfold_words
      rw [View.read_writes_eq_canon _ _ _ (fun y => View.cover_of_tiledL _ S512x128.size (by sl_kernel_rfl) y), View.canon_unit_zero hz]
      simp only [View.readAt_eq_ld, harg2.read_unread, harg3.read_unread, harg4.read_unread, harg5.read_unread, harg6.read_unread, View.ld_unit_zero (S := S512x256) hz, View.ld_unit_zero (S := S128x256) hz, View.ld_unit_zero (S := S1x128) hz, View.ld_unit_zero (S := S512x128) hz, View.readCov_unit_zero (S := S512x128) _ hz, readCov_cons_unit_zero (S := S512x128) _ hz]
    iexists _; isplitr
    swap; · iexact HS
    ipureintro
    try sl_unfold_words
    rw [View.read_writes_eq_canon _ _ _ (fun y => View.cover_of_tiledL _ S512x128.size (by sl_kernel_rfl) y), View.canon_cons_unit_zero (S := S512x128) hz]
    simp only [View.readAt_eq_ld, harg2.read_unread, harg3.read_unread, harg4.read_unread, harg5.read_unread, harg6.read_unread, View.ld_unit_zero (S := S512x256) hz, View.ld_unit_zero (S := S128x256) hz, View.ld_unit_zero (S := S1x128) hz, View.ld_unit_zero (S := S512x128) hz, View.readCov_unit_zero (S := S512x128) _ hz, readCov_cons_unit_zero (S := S512x128) _ hz]
  · -- the grid is one point: it is the last tile too
    exact absurd ((by decide +kernel : ∀ i : grid6.Coords, cond6_0 i ∧ cond6_1 i) i).2 hc1
  · -- the grid is one point: it is the first tile too
    exact absurd ((by decide +kernel : ∀ i : grid6.Coords, cond6_0 i ∧ cond6_1 i) i).1 hc0
  · -- the grid is one point: no middle tile
    exact absurd ((by decide +kernel : ∀ i : grid6.Coords, cond6_0 i ∧ cond6_1 i) i).1 hc0

end Cert.KernelIdeal.Hand

end
-- ==== Proof.KI.Obl6.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.KI.Body6
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-! # Kernel 6's proof data and body obligation

The proof data is relational: an input window's buffer is left as it was found; the result window's buffer, at the
last tile of a row, holds contents satisfying a predicate `Pout` of the certificate's choosing, and is untouched
elsewhere; the scratch holds, before tile `n`, contents satisfying `Pacc`. Nothing is said of the words a fetch cut at
the array's end leaves past the array: every step below holds for all of them. The predicates are parameters: the
trivial ones give the frame, the ones that pin the running sum give the value. -/

variable (V : (c : Dev nD) → (b : Ref sig .tc) → Buf (Elt F) ((c : Thread nD τ).loc b))

/-- The kernel's scratch, a whole scoped buffer. -/
abbrev scM6 : Memref sig .tc .vmem S512x128 .f32 := Memref.whole cc6_scratch0

/-- What a certificate says of the running sum (after `n` tiles) and of the result block (at a tile that writes it). -/
structure Preds6 (F : FTy → Type) [FloatOps F] where
  Pacc : Dev nD → ℕ → Vec F S512x128 .f32 → Prop
  Pout : Dev nD → Fin cfg6.N → Vec F S512x128 .f32 → Prop

/-- An input window's buffer after the fetch at point `t`: the array's block on the part inside the array, `d` elsewhere. -/
def fet6_0 (c : Dev nD) (t : Fin cfg6.N) (d : Vec F S512x256 .f32) : Vec F S512x256 .f32 :=
  (cfg6.win 0).fill (grid6.coords t) d (((cfg6.win 0).blk t).view.read (Elt F) (V c (Pipeline.arrRef spec6 0)))
def fet6_1 (c : Dev nD) (t : Fin cfg6.N) (d : Vec F S128x256 .f32) : Vec F S128x256 .f32 :=
  (cfg6.win 1).fill (grid6.coords t) d (((cfg6.win 1).blk t).view.read (Elt F) (V c (Pipeline.arrRef spec6 1)))
def fet6_2 (c : Dev nD) (t : Fin cfg6.N) (d : Vec F S1x128 .f32) : Vec F S1x128 .f32 :=
  (cfg6.win 2).fill (grid6.coords t) d (((cfg6.win 2).blk t).view.read (Elt F) (V c (Pipeline.arrRef spec6 2)))

/-- The predicates are kept by the body, whatever a cut fetch left past the array's end. -/
structure Steps6 (P : Preds6 F) (c : Dev nD) : Prop where
  init : ∀ s, P.Pacc c 0 s
  step : ∀ (t : Fin cfg6.N) (d0 : Vec F S512x256 .f32) (d1 : Vec F S128x256 .f32) (s : Vec F S512x128 .f32), P.Pacc c t.val s →
    P.Pacc c (t.val + 1) (acc6 (grid6.coords t) (fet6_0 V c t d0) (fet6_1 V c t d1) s)
  last : ∀ (t : Fin cfg6.N) (d0 : Vec F S512x256 .f32) (d1 : Vec F S128x256 .f32) (d2 : Vec F S1x128 .f32) (O s : Vec F S512x128 .f32),
    P.Pacc c t.val s → cond6_1 (grid6.coords t) →
    P.Pout c t (out6 (grid6.coords t) (fet6_0 V c t d0) (fet6_1 V c t d1) (fet6_2 V c t d2) O s)

/-- The region's invariant before tile `n`: the scratch at some contents the predicate admits, the generator register at
    some state, every other scoped buffer untouched. -/
def Phi6 (P : Preds6 F) (c : Dev nD) (n : ℕ) : sProp 𝕄 :=
  iprop((∃ s : Vec F S512x128 .f32, ⌜P.Pacc c n s⌝ ∗ owns (c : Thread nD τ) scM6 fullShare s) ∗ (∃ r, prngReg c r)
    ∗ Pipeline.scopedRestBut (Ix := Unit) (Name := ℕ) (U := UR sig nD τ × UR sig nD τ) (Lvl := ℕ) (Val := Elt F) spec6 c [cc6_scratch0])

/-- The relational proof data of pipeline 6 on core `c`, entered with the unscoped buffers at `V`. -/
def rdat6 (P : Preds6 F) (c : Dev nD) : RDat τ (Elt F) Unit ℕ (UR sig nD τ × UR sig nD τ) ℕ cfg6 c where
  A w := V c (Pipeline.arrRef spec6 w)
  after w t Y X := match w with
    | ⟨0, _⟩ => X = Y
    | ⟨1, _⟩ => X = Y
    | ⟨2, _⟩ => X = Y
    | ⟨3, _⟩ => (cond6_1 (grid6.coords t) → P.Pout c t X) ∧ (¬cond6_1 (grid6.coords t) → X = Y)
  Φ t := Phi6 P c t.val
  q _ := fullShare
  owed _ := 0

theorem finds6_0 (P : Preds6 F) (c : Dev nD) (t : Fin cfg6.N) (Y) (h : (rdat6 V P c).Finds 0 t Y) : ∃ d, Y = fet6_0 V c t d :=
  (rdat6 V P c).finds_in_eq_fetched 0 rfl (by decide +kernel) (fun _ _ _ h => h) t Y h
theorem finds6_1 (P : Preds6 F) (c : Dev nD) (t : Fin cfg6.N) (Y) (h : (rdat6 V P c).Finds 1 t Y) : ∃ d, Y = fet6_1 V c t d :=
  (rdat6 V P c).finds_in_eq_fetched 1 rfl (by decide +kernel) (fun _ _ _ h => h) t Y h
theorem finds6_2 (P : Preds6 F) (c : Dev nD) (t : Fin cfg6.N) (Y) (h : (rdat6 V P c).Finds 2 t Y) : ∃ d, Y = fet6_2 V c t d :=
  (rdat6 V P c).finds_in_eq_fetched 2 rfl (by decide +kernel) (fun _ _ _ h => h) t Y h

set_option maxHeartbeats 1000000 in
/-- The body at any point, from what the windows' buffers may hold there. -/
theorem sound6 (P : Preds6 F) (c : Dev nD) (hS : Steps6 V P c) (t : Fin cfg6.N)
    (Y : (w : Fin cfg6.W) → (cfg6.win w).block.Idx → Elt F (cfg6.win w).elt) (hY : ∀ w, (rdat6 V P c).Finds w t (Y w)) :
    iprop((rdat6 V P c).Φ t.castSucc ∗ (rdat6 V P c).owesAt () t.castSucc
        ∗ owns (c : Thread nD τ) (st6_0 t) fullShare (Y 0) ∗ owns (c : Thread nD τ) (st6_1 t) fullShare (Y 1) ∗ owns (c : Thread nD τ) (st6_2 t) fullShare (Y 2) ∗ owns (c : Thread nD τ) (st6_3 t) fullShare (Y 3))
      ⊢ wp frame (wpE (defs₀ (F := F)) Variants.none c none) Set.univ (bodyAt6 t) (fun _ =>
          iprop((rdat6 V P c).Φ t.succ ∗ (rdat6 V P c).owesAt () t.succ
            ∗ (∃ X, ⌜(rdat6 V P c).after 0 t (Y 0) X⌝ ∗ owns (c : Thread nD τ) (st6_0 t) fullShare X)
            ∗ (∃ X, ⌜(rdat6 V P c).after 1 t (Y 1) X⌝ ∗ owns (c : Thread nD τ) (st6_1 t) fullShare X)
            ∗ (∃ X, ⌜(rdat6 V P c).after 2 t (Y 2) X⌝ ∗ owns (c : Thread nD τ) (st6_2 t) fullShare X)
            ∗ (∃ X, ⌜(rdat6 V P c).after 3 t (Y 3) X⌝ ∗ owns (c : Thread nD τ) (st6_3 t) fullShare X))) := by
  obtain ⟨d0, h0⟩ := finds6_0 V P c t _ (hY 0)
  obtain ⟨d1, h1⟩ := finds6_1 V P c t _ (hY 1)
  obtain ⟨d2, h2⟩ := finds6_2 V P c t _ (hY 2)
  rw [show (rdat6 V P c).owesAt () t.succ = (rdat6 V P c).owesAt () t.castSucc from rfl]
  rw [show (rdat6 V P c).Φ t.castSucc = Phi6 P c t.val from rfl, show (rdat6 V P c).Φ t.succ = Phi6 P c (t.val + 1) from rfl]
  unfold Phi6 bodyAt6
  iintro ⟨⟨⟨%s, %hs, HS⟩, Hg, Hrest⟩, Ho, H0, H1, H2, H3⟩
  iapply (body6 c Set.univ (grid6.coords t) _ _ _ _ _ _ _ _ _ _ (Y 0) (Y 1) (Y 2) (Y 3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg Hrest]
  · isplitl [HS]
    · iexists (acc6 (grid6.coords t) (Y 0) (Y 1) s); isplitr
      · ipureintro; rw [h0, h1]; exact hS.step t d0 d1 s hs
      · iexact HS
    isplitl [Hg]; · iexact Hg
    iexact Hrest
  isplitl [Ho]; · iexact Ho
  isplitl [H0]
  · iexists (Y 0); isplitr
    · ipureintro; exact (rfl : Y 0 = Y 0)
    · iexact H0
  isplitl [H1]
  · iexists (Y 1); isplitr
    · ipureintro; exact (rfl : Y 1 = Y 1)
    · iexact H1
  isplitl [H2]
  · iexists (Y 2); isplitr
    · ipureintro; exact (rfl : Y 2 = Y 2)
    · iexact H2
  iexists (out6 (grid6.coords t) (Y 0) (Y 1) (Y 2) (Y 3) s); isplitr
  · ipureintro
    refine ⟨fun hc => ?_, fun hc => ?_⟩
    · rw [h0, h1, h2]; exact hS.last t d0 d1 d2 (Y 3) s hs hc
    · unfold out6; rw [if_neg hc]
  · iexact H3

end Cert.KernelIdeal.Hand

end
-- ==== Proof.KI.Seg.lean ====
import proofs.«128469_j53695681135127_2_alg».proof.Proof.KI.SegCommon
import proofs.«128469_j53695681135127_2_alg».proof.Proof.KI.Obl0
import proofs.«128469_j53695681135127_2_alg».proof.Proof.KI.Obl1
import proofs.«128469_j53695681135127_2_alg».proof.Proof.KI.Obl2
import proofs.«128469_j53695681135127_2_alg».proof.Proof.KI.Obl3
import proofs.«128469_j53695681135127_2_alg».proof.Proof.KI.Obl4
import proofs.«128469_j53695681135127_2_alg».proof.Proof.KI.Obl5
import proofs.«128469_j53695681135127_2_alg».proof.Proof.KI.Obl6

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ × UR sig nD τ) ℕ

/-- Pipeline `p` of the program. -/
abbrev cfgAt (F : FTy → Type) [FloatOps F] (p : Fin 7) : Cfg sig Λ₀ := Pipeline.pin (pcfgs (F := F)) adm p

/-- Relational proof data of pipeline `p` on core `c`. -/
abbrev RD (F : FTy → Type) [FloatOps F] (p : Fin 7) (c : Dev nD) :=
  RDat τ (Elt F) Unit ℕ (UR sig nD τ × UR sig nD τ) ℕ (cfgAt F p) c

/-- The family that is `rd` at `p` and says nothing elsewhere. -/
def famAt (p : Fin 7) (rd : (c : Dev nD) → RD F p c) : (q : Fin 7) → (c : Dev nD) → RD F q c :=
  fun q => if h : q = p then h ▸ rd else fun c => rdummy _ c

theorem famAt_self (p : Fin 7) (rd : (c : Dev nD) → RD F p c) : famAt p rd p = rd := dif_pos rfl

/-- `rd` reads its arrays' entry contents off `W`, holds them whole and owes nothing. -/
structure EntersAt {p : Fin 7} {c : Dev nD} (rd : RD F p c) (W : Valuation τ sig (Elt F)) : Prop where
  A : ∀ w, rd.A w = Vof W c (Pipeline.arrRef (cfgAt F p).spec w)
  q : ∀ w, rd.q w = fullShare
  owed : ∀ t, rd.owed t = 0
  recorded : rd.recorded 0 = Set.univ

/-- Distinct arrays, inputs never written: with the result buffer at its final contents, every array is at its own. -/
theorem upd_arr {p : Fin 7} (hinj : Function.Injective (Pipeline.arrRef (cfgAt F p).spec)) (wo : Fin (cfgAt F p).W)
    (hinp : ∀ w, w ≠ wo → ((cfgAt F p).win w).isOut = false) (W : Valuation τ sig (Elt F)) {c : Dev nD} {rd : RD F p c}
    (hr : EntersAt rd W) (A : (w : Fin (cfgAt F p).W) → Buf (Elt F) (((cfgAt F p).win w).arr.view.loc (c : Thread nD τ)))
    (hAt : ∀ w, rd.ArrAt w (cfgAt F p).N (A w)) (w : Fin (cfgAt F p).W) :
    A w = Vof (Function.update W (Pipeline.arrRef (cfgAt F p).spec wo) (A wo)) c (Pipeline.arrRef (cfgAt F p).spec w) := by
  rcases eq_or_ne w wo with rfl | h
  · exact (Function.update_self (β := fun b : DevRef τ sig => b.ty.Contents (Elt F)) (Proc.devRef .tc _) (A w) W).symm
  · have hw := hAt w; rw [rd.ArrAt_in w (hinp w h)] at hw
    rw [hw, hr.A w]; exact (Function.update_of_ne (fun e => h (hinj (Proc.devRef_injective _ e))) (A wo) W).symm

/-- The invariant holds at the entry, whatever the scratch holds, when every contents meets `Pacc`. -/
theorem phi_in {gr Wn : ℕ} {spec : Fin Wn → Pipeline.WinSpec sig gr} {sc : Ref sig .tc} (c : Dev nD)
    (hsplit : (Pipeline.scopedRest spec c : sProp 𝕄)
      = iprop(iprop(∃ f : Buf (Elt F) ((c : Thread nD τ).loc sc), ((c : Thread nD τ).loc sc) ↦{fullShare} f) ∗ Pipeline.scopedRestBut spec c [sc]))
    {Pacc : sc.ty.Contents (Elt F) → Prop} (h : ∀ s, Pacc s) :
    (iprop((∃ r, prngReg c r) ∗ Pipeline.scopedRest spec c) : sProp 𝕄)
      ⊢ iprop((∃ s, ⌜Pacc s⌝ ∗ owns (c : Thread nD τ) (Memref.whole sc) fullShare s) ∗ (∃ r, prngReg c r) ∗ Pipeline.scopedRestBut spec c [sc]) := by
  rw [hsplit]
  iintro ⟨Hp, ⟨%f, Hf⟩, Hr⟩
  isplitl [Hf]
  · iexists f; isplitr; · ipureintro; exact h f
    rw [owns_whole]; iexact Hf
  isplitl [Hp]; · iexact Hp
  iexact Hr

/-- The invariant gives its parts back, the scratch at whatever it holds. -/
theorem phi_out {gr Wn : ℕ} {spec : Fin Wn → Pipeline.WinSpec sig gr} {sc : Ref sig .tc} (c : Dev nD)
    (hsplit : (Pipeline.scopedRest spec c : sProp 𝕄)
      = iprop(iprop(∃ f : Buf (Elt F) ((c : Thread nD τ).loc sc), ((c : Thread nD τ).loc sc) ↦{fullShare} f) ∗ Pipeline.scopedRestBut spec c [sc]))
    {Pacc : sc.ty.Contents (Elt F) → Prop} :
    (iprop((∃ s, ⌜Pacc s⌝ ∗ owns (c : Thread nD τ) (Memref.whole sc) fullShare s) ∗ (∃ r, prngReg c r) ∗ Pipeline.scopedRestBut spec c [sc]) : sProp 𝕄)
      ⊢ iprop((∃ r, prngReg c r) ∗ Pipeline.scopedRest spec c) := by
  rw [hsplit]
  iintro ⟨⟨%s, -, Hs⟩, Hp, Hr⟩
  isplitl [Hp]; · iexact Hp
  isplitl [Hs]
  · iexists s
    ihave Hs' := (Entails.of_eq (owns_whole (c : Thread nD τ) sc fullShare s)) $$ Hs
    iexact Hs'
  iexact Hr

/-- The record of region `p` entered at `W`: it changes window `wo`'s buffer only, to contents its relation admits. -/
def regOf {p : Fin 7} (launch : Pipeline.LaunchFacts (nD := nD) (τ := τ) cfgs p) (wo : Fin (cfgAt F p).W)
    (hinp : ∀ w, w ≠ wo → ((cfgAt F p).win w).isOut = false) (W : Valuation τ sig (Elt F))
    (rdats : (q : Fin 7) → (c : Dev nD) → RD F q c) (hr : ∀ c, EntersAt (rdats p c) W)
    (hbody : ∀ c, (rdats p c).BodyObligation (defs₀ (F := F)) Variants.none () Set.univ)
    (hin : ∀ c, (iprop((∃ r, prngReg c r) ∗ Pipeline.scopedRest (cfgAt F p).spec c) : sProp 𝕄) ⊢ (rdats p c).Φ 0)
    (hout : ∀ c, (rdats p c).Φ (Fin.last _) ⊢ (iprop((∃ r, prngReg c r) ∗ Pipeline.scopedRest (cfgAt F p).spec c) : sProp 𝕄)) :
    Pipeline.RDat.RegionSeg (pcfgs (F := F)) adm rdats () defs₀ 𝒱z Lz lvz p where
  win := launch.win.to₀
  block_pos := launch.block_pos
  stage_whole := launch.stage_whole
  K := PEmpty
  osem k := k.elim
  ho := Pipeline.OwnSemFacts.none _
  hbody := hbody
  hwaits := Pipeline.RDat.hwaits_of_owed_zero _ _ _ _ Lz lvz p fun c => (hr c).owed
  pre c := iprop(StableHlo.held (c : Thread nD τ) (Pipeline.ucRefs τ sig) W ∗ Rr c)
  post c := iprop(∃ Fo, ⌜(rdats p c).ArrAt wo (cfgAt F p).N Fo⌝
    ∗ StableHlo.held (c : Thread nD τ) (Pipeline.ucRefs τ sig) (Function.update W (Pipeline.arrRef (cfgAt F p).spec wo) Fo) ∗ Rr c)
  X c := iprop(∃ r, prngReg c r)
  Y c := iprop(∃ r, prngReg c r)
  Z c := Pipeline.unscopedRest (Ix := Unit) (Name := ℕ) (U := UR sig nD τ × UR sig nD τ) (Lvl := ℕ) (cfgAt F p).spec c (Vof W c)
  hentry c := by
    unfold Pipeline.RDat.owesAt Pipeline.RDat.bound
    rw [Pipeline.ownSems0_none, (hr c).owed, (hr c).recorded]
    have hsplit := Pipeline.RDat.arrays_of_unscopedBufs (p := p) (pcfgs (F := F)) adm rdats launch.win launch.arr_whole c
      ((rdats p c).share_full (hr c).q) (Vof W c) (hr c).A
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W', HO⟩; iexists W'; isplitr; · ipureintro; exact fun _ _ => Or.inl trivial
      iexact HO
    isplitl [Hp]; · iexact Hp
    iexact Hrest
  hin c := by
    iintro ⟨Hp, -, Hr⟩
    iapply hin c
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    unfold Pipeline.RDat.owesAt
    rw [(hr c).owed]
    iintro ⟨Ha, HO, HY, Hrest⟩
    ihave Ha' := (arraysAt_open (rdats p c) (cfgAt F p).N) $$ Ha
    icases Ha' with ⟨%A, %hAt, Ha⟩
    have hjoin := unscopedBufs_of_rarrays (p := p) rdats launch.win launch.arr_whole c ((rdats p c).share_full (hr c).q) (Vof W c)
      (Vof (Function.update W (Pipeline.arrRef (cfgAt F p).spec wo) (A wo)) c) A (upd_arr launch.win.arr_inj wo hinp W (hr c) A hAt)
      fun b hb => Function.update_of_ne (fun e => hb (Finset.mem_image.mpr ⟨wo, Finset.mem_univ _, (Proc.devRef_injective _ e).symm⟩)) _ _
    rw [Pipeline.unscopedBufs_held] at hjoin
    imodintro
    iexists (A wo)
    isplitr; · ipureintro; exact hAt wo
    isplitl [Ha Hrest]
    · iapply hjoin; isplitl [Ha] <;> iassumption
    isplitl [HY]; · iexact HY
    unfold Pipeline.owesWithin
    icases HO with ⟨%W', -, HO⟩; iexists W'; iexact HO

/-- A region whose proof data enters at every valuation steps as `RegionStep` asks, on window `wo`'s array. -/
theorem region_step_of {p : Fin 7} (launch : Pipeline.LaunchFacts (nD := nD) (τ := τ) cfgs p) (wo : Fin (cfgAt F p).W)
    (hinp : ∀ w, w ≠ wo → ((cfgAt F p).win w).isOut = false)
    (rd : Valuation τ sig (Elt F) → (c : Dev nD) → RD F p c) (hr : ∀ W c, EntersAt (rd W c) W)
    (hbody : ∀ W c, (rd W c).BodyObligation (defs₀ (F := F)) Variants.none () Set.univ)
    (hin : ∀ W c, (iprop((∃ r, prngReg c r) ∗ Pipeline.scopedRest (cfgAt F p).spec c) : sProp 𝕄) ⊢ (rd W c).Φ 0)
    (hout : ∀ W c, (rd W c).Φ (Fin.last _) ⊢ (iprop((∃ r, prngReg c r) ∗ Pipeline.scopedRest (cfgAt F p).spec c) : sProp 𝕄)) :
    RegionStep (F := F) p (Pipeline.arrRef (cfgAt F p).spec wo) (fun c W Fo => (rd W c).ArrAt wo (cfgAt F p).N Fo) := by
  intro c W α k Q
  have e := famAt_self p (rd W)
  have h := Pipeline.RDat.RegionSeg.wp (pcfgs (F := F)) adm (famAt p (rd W)) () cellOf_inj EPr defs₀ 𝒱z Lz lvz
    (regOf launch wo hinp W (famAt p (rd W)) (e.symm ▸ hr W) (e.symm ▸ hbody W) (e.symm ▸ hin W) (e.symm ▸ hout W)) c none (fun _ h => nomatch h) k Q
  dsimp only [regOf] at h
  rw [e] at h
  refine BIBase.Entails.trans ?_ h
  iintro ⟨Hk, Hbd, Hh, HR, Hla, Hg, Ht⟩
  isplitl [Hk]
  · iintro ⟨Hbd, %Fo, %hFo, Hh, HR⟩
    iapply Hk $$ %Fo %hFo
    isplitl [Hbd]; · iexact Hbd
    isplitl [Hh]; · iexact Hh
    iexact HR
  isplitl [Hbd]; · iexact Hbd
  isplitl [Hh HR]
  · isplitl [Hh]; · iexact Hh
    iexact HR
  isplitl [Hla]; · iexact Hla
  isplitl [Hg]; · iexact Hg
  iexact Ht

theorem region_step0 (PW : Valuation τ sig (Elt F) → Preds0 F) (hS : ∀ c W, Steps0 (Vof W) (PW W) c) :
    RegionStep (F := F) 0 main_v4 (fun c W Fo => (rdat0 (Vof W) (PW W) c).ArrAt 4 cfg0.N Fo) :=
  region_step_of launch0 (4 : Fin 5) (show ∀ w : Fin 5, w ≠ 4 → (cfg0.win w).isOut = false by decide)
    (fun W c => rdat0 (Vof W) (PW W) c) (fun _ _ => ⟨fun _ => rfl, fun _ => rfl, fun _ => rfl, rfl⟩)
    (fun W c => show (rdat0 (Vof W) (PW W) c).BodyObligation (defs₀ (F := F)) Variants.none () Set.univ from
      fun t Y hY => by rw [bigSep_W0, bigSep_W0]; exact sound0 (Vof W) (PW W) c (hS c W) t Y hY)
    (fun W c => phi_in c (scopedRest0_split c) (hS c W).init) (fun W c => phi_out c (scopedRest0_split c))

theorem region_step1 (PW : Valuation τ sig (Elt F) → Preds1 F) (hS : ∀ c W, Steps1 (Vof W) (PW W) c) :
    RegionStep (F := F) 1 main_v6 (fun c W Fo => (rdat1 (Vof W) (PW W) c).ArrAt 4 cfg1.N Fo) :=
  region_step_of launch1 (4 : Fin 5) (show ∀ w : Fin 5, w ≠ 4 → (cfg1.win w).isOut = false by decide)
    (fun W c => rdat1 (Vof W) (PW W) c) (fun _ _ => ⟨fun _ => rfl, fun _ => rfl, fun _ => rfl, rfl⟩)
    (fun W c => show (rdat1 (Vof W) (PW W) c).BodyObligation (defs₀ (F := F)) Variants.none () Set.univ from
      fun t Y hY => by rw [bigSep_W1, bigSep_W1]; exact sound1 (Vof W) (PW W) c (hS c W) t Y hY)
    (fun W c => phi_in c (scopedRest1_split c) (hS c W).init) (fun W c => phi_out c (scopedRest1_split c))

theorem region_step2 (PW : Valuation τ sig (Elt F) → Preds2 F) (hS : ∀ c W, Steps2 (Vof W) (PW W) c) :
    RegionStep (F := F) 2 main_v9 (fun c W Fo => (rdat2 (Vof W) (PW W) c).ArrAt 4 cfg2.N Fo) :=
  region_step_of launch2 (4 : Fin 5) (show ∀ w : Fin 5, w ≠ 4 → (cfg2.win w).isOut = false by decide)
    (fun W c => rdat2 (Vof W) (PW W) c) (fun _ _ => ⟨fun _ => rfl, fun _ => rfl, fun _ => rfl, rfl⟩)
    (fun W c => show (rdat2 (Vof W) (PW W) c).BodyObligation (defs₀ (F := F)) Variants.none () Set.univ from
      fun t Y hY => by rw [bigSep_W2, bigSep_W2]; exact sound2 (Vof W) (PW W) c (hS c W) t Y hY)
    (fun W c => phi_in c (scopedRest2_split c) (hS c W).init) (fun W c => phi_out c (scopedRest2_split c))

theorem region_step3 (PW : Valuation τ sig (Elt F) → Preds3 F) (hS : ∀ c W, Steps3 (Vof W) (PW W) c) :
    RegionStep (F := F) 3 main_v11 (fun c W Fo => (rdat3 (Vof W) (PW W) c).ArrAt 4 cfg3.N Fo) :=
  region_step_of launch3 (4 : Fin 5) (show ∀ w : Fin 5, w ≠ 4 → (cfg3.win w).isOut = false by decide)
    (fun W c => rdat3 (Vof W) (PW W) c) (fun _ _ => ⟨fun _ => rfl, fun _ => rfl, fun _ => rfl, rfl⟩)
    (fun W c => show (rdat3 (Vof W) (PW W) c).BodyObligation (defs₀ (F := F)) Variants.none () Set.univ from
      fun t Y hY => by rw [bigSep_W3, bigSep_W3]; exact sound3 (Vof W) (PW W) c (hS c W) t Y hY)
    (fun W c => phi_in c (scopedRest3_split c) (hS c W).init) (fun W c => phi_out c (scopedRest3_split c))

theorem region_step4 (PW : Valuation τ sig (Elt F) → Preds4 F) (hS : ∀ c W, Steps4 (Vof W) (PW W) c) :
    RegionStep (F := F) 4 main_v14 (fun c W Fo => (rdat4 (Vof W) (PW W) c).ArrAt 3 cfg4.N Fo) :=
  region_step_of launch4 (3 : Fin 4) (show ∀ w : Fin 4, w ≠ 3 → (cfg4.win w).isOut = false by decide)
    (fun W c => rdat4 (Vof W) (PW W) c) (fun _ _ => ⟨fun _ => rfl, fun _ => rfl, fun _ => rfl, rfl⟩)
    (fun W c => show (rdat4 (Vof W) (PW W) c).BodyObligation (defs₀ (F := F)) Variants.none () Set.univ from
      fun t Y hY => by rw [bigSep_W4, bigSep_W4]; exact sound4 (Vof W) (PW W) c (hS c W) t Y hY)
    (fun W c => phi_in c (scopedRest4_split c) (hS c W).init) (fun W c => phi_out c (scopedRest4_split c))

theorem region_step5 (PW : Valuation τ sig (Elt F) → Preds5 F) (hS : ∀ c W, Steps5 (Vof W) (PW W) c) :
    RegionStep (F := F) 5 main_v16 (fun c W Fo => (rdat5 (Vof W) (PW W) c).ArrAt 3 cfg5.N Fo) :=
  region_step_of launch5 (3 : Fin 4) (show ∀ w : Fin 4, w ≠ 3 → (cfg5.win w).isOut = false by decide)
    (fun W c => rdat5 (Vof W) (PW W) c) (fun _ _ => ⟨fun _ => rfl, fun _ => rfl, fun _ => rfl, rfl⟩)
    (fun W c => show (rdat5 (Vof W) (PW W) c).BodyObligation (defs₀ (F := F)) Variants.none () Set.univ from
      fun t Y hY => by rw [bigSep_W5, bigSep_W5]; exact sound5 (Vof W) (PW W) c (hS c W) t Y hY)
    (fun W c => phi_in c (scopedRest5_split c) (hS c W).init) (fun W c => phi_out c (scopedRest5_split c))

theorem region_step6 (PW : Valuation τ sig (Elt F) → Preds6 F) (hS : ∀ c W, Steps6 (Vof W) (PW W) c) :
    RegionStep (F := F) 6 main_v20 (fun c W Fo => (rdat6 (Vof W) (PW W) c).ArrAt 3 cfg6.N Fo) :=
  region_step_of launch6 (3 : Fin 4) (show ∀ w : Fin 4, w ≠ 3 → (cfg6.win w).isOut = false by decide)
    (fun W c => rdat6 (Vof W) (PW W) c) (fun _ _ => ⟨fun _ => rfl, fun _ => rfl, fun _ => rfl, rfl⟩)
    (fun W c => show (rdat6 (Vof W) (PW W) c).BodyObligation (defs₀ (F := F)) Variants.none () Set.univ from
      fun t Y hY => by rw [bigSep_W6, bigSep_W6]; exact sound6 (Vof W) (PW W) c (hS c W) t Y hY)
    (fun W c => phi_in c (scopedRest6_split c) (hS c W).init) (fun W c => phi_out c (scopedRest6_split c))

end Cert.KernelIdeal.Hand

end
-- ==== Proof.KI.FrameAny.lean ====
import proofs.«128469_j53695681135127_2_alg».proof.Proof.KI.Top
import proofs.«128469_j53695681135127_2_alg».proof.Proof.KI.FramePure
import proofs.«128469_j53695681135127_2_alg».proof.Proof.KI.Seg

noncomputable section

namespace Cert.KernelIdeal.Hand

open Cert.KernelIdeal Cert.KernelIdeal.Gen
open Idealize.ShloMosaic Idealize.ShloMosaic.TcCoe Idealize.SL.Sem

variable {F : FTy → Type} [FloatOps F]

/-- The relation that says nothing of what a region leaves in its result buffer. -/
abbrev anyOut (o : Ref sig .tc) :
    (c : Dev nD) → Valuation τ sig (Elt F) → Buf (Elt F) ((c : Thread nD τ).loc o) → Prop := fun _ _ _ => True

/-- Whatever the floats are read as, every weakly fair run of the program ends: each region steps from whatever the
    buffers hold when nothing is asked of the running sum or of the block it writes. -/
theorem run_any (m : (ℓ : Loc nD τ sig) → Buf (Elt F) ℓ) (ρ : Dev nD → PrngReg) :
    θ_run defs (onTc (τ := τ) (main (F := F))) ⟨m, fun _ => 0, ρ⟩ (fun r => ∀ c : Dev nD,
      ∃ W, Inv19 (F := F) m (anyOut _) (anyOut _) (anyOut _) (anyOut _) (anyOut _) (anyOut _) (anyOut _) c W
        ∧ ∀ b ∈ Pipeline.ucRefs τ sig, r.2.mem (((c : Thread nD τ)).1, b) = W b) :=
  run_dyn (F := F) m _ _ _ _ _ _ _ ρ
    ((region_step0 (fun _ => ⟨fun _ _ _ => True, fun _ _ _ => True⟩)
      fun _ _ => ⟨fun _ => trivial, by intros; trivial, by intros; trivial⟩).mono fun _ _ _ _ => trivial)
    ((region_step1 (fun _ => ⟨fun _ _ _ => True, fun _ _ _ => True⟩)
      fun _ _ => ⟨fun _ => trivial, by intros; trivial, by intros; trivial⟩).mono fun _ _ _ _ => trivial)
    ((region_step2 (fun _ => ⟨fun _ _ _ => True, fun _ _ _ => True⟩)
      fun _ _ => ⟨fun _ => trivial, by intros; trivial, by intros; trivial⟩).mono fun _ _ _ _ => trivial)
    ((region_step3 (fun _ => ⟨fun _ _ _ => True, fun _ _ _ => True⟩)
      fun _ _ => ⟨fun _ => trivial, by intros; trivial, by intros; trivial⟩).mono fun _ _ _ _ => trivial)
    ((region_step4 (fun _ => ⟨fun _ _ _ => True, fun _ _ _ => True⟩)
      fun _ _ => ⟨fun _ => trivial, by intros; trivial, by intros; trivial⟩).mono fun _ _ _ _ => trivial)
    ((region_step5 (fun _ => ⟨fun _ _ _ => True, fun _ _ _ => True⟩)
      fun _ _ => ⟨fun _ => trivial, by intros; trivial, by intros; trivial⟩).mono fun _ _ _ _ => trivial)
    ((region_step6 (fun _ => ⟨fun _ _ _ => True, fun _ _ _ => True⟩)
      fun _ _ => ⟨fun _ => trivial, by intros; trivial, by intros; trivial⟩).mono fun _ _ _ _ => trivial)

end Cert.KernelIdeal.Hand

end
-- ==== Proof.Spec.lean ====
import Idealize.ShloMosaic.PureOps.Ideal
import Idealize.ShloMosaic.Lib.ValueIdx

noncomputable section

namespace Cert.Net

open Idealize.ShloMosaic Idealize.ShloMosaic.ValueIdx

abbrev Mat (a b : Nat) : Type := (⟨2, ![a, b]⟩ : Shape).Idx → EReal

abbrev Vec1 (a : Nat) : Type := (⟨1, ![a]⟩ : Shape).Idx → EReal

def mpre {B K N : Nat} (x : Mat B K) (W : Mat N K) (adj : Mat K N) (b : Mat 1 N) : Mat B N :=
  fun i => (∑ κ : Fin K, x (ix2 (i 0) κ) * (W (ix2 (i 1) κ) * adj (ix2 κ (i 1)))) + b (ix2 (0 : Fin 1) (i 1))

def mlayer {B K N : Nat} (x : Mat B K) (W : Mat N K) (adj : Mat K N) (b : Mat 1 N) : Mat B N :=
  fun i => max (mpre x W adj b i) 0

def dpre {B K N : Nat} (x : Mat B K) (W : Mat N K) (b : Mat 1 N) : Mat B N :=
  fun i => (∑ κ : Fin K, x (ix2 (i 0) κ) * W (ix2 (i 1) κ)) + b (ix2 (0 : Fin 1) (i 1))

def dlayer {B K N : Nat} (x : Mat B K) (W : Mat N K) (b : Mat 1 N) : Mat B N :=
  fun i => max (dpre x W b i) 0

def slayer {B K N : Nat} (x : Mat B K) (W : Mat N K) (b : Mat 1 N) : Mat B N :=
  fun i => Ideal.logistic (dpre x W b i)

def cols {B C : Nat} (w lo : Nat) (h : lo + w ≤ C) (x : Mat B C) : Mat B w :=
  fun i => x (ix2 (i 0) ⟨lo + (i 1).val, by have h1 : (i 1).val < w := (i 1).isLt; omega⟩)

def hcat {B C D : Nat} (x : Mat B C) (y : Mat B D) : Mat B (C + D) :=
  fun i => if h : (i 1).val < C then x (ix2 (i 0) ⟨(i 1).val, h⟩)
    else y (ix2 (i 0) ⟨(i 1).val - C, by have h1 : (i 1).val < C + D := (i 1).isLt; omega⟩)

def row {N : Nat} (b : Vec1 N) : Mat 1 N := fun i => b (ix1 (i 1))

def net (x : Mat 512 28000) (a_sg : Mat 20000 5000) (a_gp : Mat 5000 3000) (a_br : Mat 8000 3000) (a_pp : Mat 3000 3000)
    (W_sg : Mat 5000 20000) (b_sg : Vec1 5000) (W_gp : Mat 3000 5000) (b_gp : Vec1 3000)
    (W_br : Mat 3000 8000) (b_br : Vec1 3000) (W_pp : Mat 3000 3000) (b_pp : Vec1 3000)
    (W_h1 : Mat 1024 6000) (b_h1 : Vec1 1024) (W_h2 : Mat 256 1024) (b_h2 : Vec1 256)
    (W_o : Mat 1 256) (b_o : Vec1 1) : Mat 512 1 :=
  let o1 : Mat 512 5000 := mlayer (cols 20000 8000 (by decide) x) W_sg a_sg (row b_sg)
  let o2 : Mat 512 3000 := mlayer (cols 5000 3000 (by decide) x) W_gp a_gp (row b_gp)
  let o3 : Mat 512 3000 := mlayer (hcat o1 o2 : Mat 512 8000) W_br a_br (row b_br)
  let o4 : Mat 512 3000 := mlayer (cols 3000 0 (by decide) x) W_pp a_pp (row b_pp)
  let h1 : Mat 512 1024 := dlayer (hcat o3 o4 : Mat 512 6000) W_h1 (row b_h1)
  let h2 : Mat 512 256 := dlayer h1 W_h2 (row b_h2)
  slayer h2 W_o (row b_o)

end Cert.Net

end
-- ==== Proof.KI.RelI.lean ====
import proofs.«128469_j53695681135127_2_alg».proof.Proof.KI.Base
import proofs.«128469_j53695681135127_2_alg».proof.Proof.Spec

noncomputable section

namespace Cert.KernelIdeal.HandI

open Cert.KernelIdeal Cert.KernelIdeal.Gen
open Idealize.ShloMosaic Idealize.ShloMosaic.TcCoe Idealize.SL.Sem

def Qv0 (c : Dev nD) (W : Valuation τ sig (Elt Ideal)) (Fo : Buf (Elt Ideal) ((c : Thread nD τ).loc main_v4)) : Prop :=
  Fo = Cert.Net.mlayer (B := 512) (K := 20000) (N := 5000) (W main_v0) (W main_arg5) (W main_arg1) (W main_v3)

def Qv1 (c : Dev nD) (W : Valuation τ sig (Elt Ideal)) (Fo : Buf (Elt Ideal) ((c : Thread nD τ).loc main_v6)) : Prop :=
  Fo = Cert.Net.mlayer (B := 512) (K := 5000) (N := 3000) (W main_v1) (W main_arg7) (W main_arg2) (W main_v5)

def Qv2 (c : Dev nD) (W : Valuation τ sig (Elt Ideal)) (Fo : Buf (Elt Ideal) ((c : Thread nD τ).loc main_v9)) : Prop :=
  Fo = Cert.Net.mlayer (B := 512) (K := 8000) (N := 3000) (W main_v7) (W main_arg9) (W main_arg3) (W main_v8)

def Qv3 (c : Dev nD) (W : Valuation τ sig (Elt Ideal)) (Fo : Buf (Elt Ideal) ((c : Thread nD τ).loc main_v11)) : Prop :=
  Fo = Cert.Net.mlayer (B := 512) (K := 3000) (N := 3000) (W main_v2) (W main_arg11) (W main_arg4) (W main_v10)

def Qv4 (c : Dev nD) (W : Valuation τ sig (Elt Ideal)) (Fo : Buf (Elt Ideal) ((c : Thread nD τ).loc main_v14)) : Prop :=
  Fo = Cert.Net.dlayer (B := 512) (K := 6000) (N := 1024) (W main_v12) (W main_arg13) (W main_v13)

def Qv5 (c : Dev nD) (W : Valuation τ sig (Elt Ideal)) (Fo : Buf (Elt Ideal) ((c : Thread nD τ).loc main_v16)) : Prop :=
  Fo = Cert.Net.dlayer (B := 512) (K := 1024) (N := 256) (W main_v14) (W main_arg15) (W main_v15)

def Qv6 (c : Dev nD) (W : Valuation τ sig (Elt Ideal)) (Fo : Buf (Elt Ideal) ((c : Thread nD τ).loc main_v20)) : Prop :=
  Fo = Cert.Net.slayer (B := 512) (K := 256) (N := 128) (W main_v16) (W main_v17) (W main_v19)

end Cert.KernelIdeal.HandI

end
-- ==== Proof.KI.ValueI.lean ====
import proofs.«128469_j53695681135127_2_alg».proof.Proof.Gen.KernelIdeal.Points
import proofs.«128469_j53695681135127_2_alg».proof.Proof.Gen.KernelIdeal.Skeleton
import Idealize.ShloMosaic.Lib.Pipeline.Kit
import Idealize.ShloMosaic.Lib.Pipeline.FrameBody
import Idealize.ShloMosaic.Lib.Pipeline.Regions
import Idealize.ShloMosaic.Lib.Ring
import Idealize.ShloMosaic.Lib.Pipeline.Value
import proofs.«128469_j53695681135127_2_alg».proof.Proof.Gen.KernelIdeal.Regions
import Idealize.ShloMosaic.Lib.Tactic
import Idealize.ShloMosaic.Lib.ValueIdx
import Idealize.ShloMosaic.Lib.ValueLayout
import Idealize.ShloMosaic.Lib.KernelVsHost
import Mathlib.Algebra.BigOperators.Group.Finset.Basic
import Mathlib.Logic.Function.Basic
import proofs.«128469_j53695681135127_2_alg».proof.Proof.KI.Base
import proofs.«128469_j53695681135127_2_alg».proof.Proof.KI.Inv
import proofs.«128469_j53695681135127_2_alg».proof.Proof.KI.RelI
import proofs.«128469_j53695681135127_2_alg».proof.Proof.Spec

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

section Layout

theorem slice_eq_cols {B C w : Nat} (lo : Nat) (hle : lo + w ≤ C) (X : Cert.Net.Mat B C)
    (h : (⟨2, ![B, C]⟩ : Shape).Slices ![0, lo] ⟨2, ![B, w]⟩) :
    (extractStridedSlice ⟨2, ![B, w]⟩ ![0, lo] X h : Cert.Net.Mat B w) = Cert.Net.cols w lo hle X := by
  funext i
  rw [eq_ix2 i]
  exact slice2_axis1_apply lo X h (i 0) (i 1) ⟨lo + (i 1).val, by have h1 : (i 1).val < w := (i 1).isLt; omega⟩ rfl

theorem cast_eq_row {a : Nat} (x : Cert.Net.Vec1 a) (h : (⟨1, ![a]⟩ : Shape).ShapeCasts ⟨2, ![1, a]⟩) :
    (shapeCast ⟨2, ![1, a]⟩ x h : Cert.Net.Mat 1 a) = Cert.Net.row x := by
  funext i
  rw [eq_ix2 i]
  exact shapeCast_a_1a_apply x h (i 0) (i 1)

theorem concat_eq_hcat {B C D : Nat} (x : Cert.Net.Mat B C) (y : Cert.Net.Mat B D)
    (h : Shape.Concatenates [(⟨2, ![B, C]⟩ : Shape), ⟨2, ![B, D]⟩] ⟨2, ![B, C + D]⟩ 1) :
    (concatenate ⟨2, ![B, C + D]⟩ 1 [⟨⟨2, ![B, C]⟩, x⟩, ⟨⟨2, ![B, D]⟩, y⟩] h : Cert.Net.Mat B (C + D)) = Cert.Net.hcat x y := by
  funext i
  unfold Cert.Net.hcat
  by_cases hc : (i 1).val < C
  · rw [dif_pos hc]
    refine concatenate_pair_apply_left (1 : Fin 2) x y h i rfl (ix2 (i 0) ⟨(i 1).val, hc⟩) (fun b => ?_)
    match b with
    | ⟨0, _⟩ => rfl
    | ⟨1, _⟩ => rfl
  · rw [dif_neg hc]
    have h1 : (i 1).val < C + D := (i 1).isLt
    refine concatenate_pair_apply_right (1 : Fin 2) x y h i rfl rfl (ix2 (i 0) ⟨(i 1).val - C, by omega⟩) (fun b hb => ?_) ?_
    · match b with
      | ⟨0, _⟩ => rfl
      | ⟨1, _⟩ => exact absurd rfl hb
    · show (i 1).val - C + C = (i 1).val
      omega

end Layout

section Stretches

variable (W : Valuation τ sig (Elt Ideal))

theorem ops0_v0 : (StableHlo.after (hostOps0 (F := Ideal)) W main_v0 : Cert.Net.Mat 512 20000)
    = Cert.Net.cols 20000 8000 (by decide) (W main_arg0) := by
  refine Eq.trans ?_ (slice_eq_cols 8000 (by decide) (W main_arg0) slices_S512x28000_S512x20000_0_8000)
  show StableHlo.after hostOps0 W (Proc.devRef .tc main_v0) = _
  simp only [hostOps0]; after_results

theorem ops0_v1 : (StableHlo.after (hostOps0 (F := Ideal)) W main_v1 : Cert.Net.Mat 512 5000)
    = Cert.Net.cols 5000 3000 (by decide) (W main_arg0) := by
  refine Eq.trans ?_ (slice_eq_cols 3000 (by decide) (W main_arg0) slices_S512x28000_S512x5000_0_3000)
  show StableHlo.after hostOps0 W (Proc.devRef .tc main_v1) = _
  simp only [hostOps0]; after_results

theorem ops0_v2 : (StableHlo.after (hostOps0 (F := Ideal)) W main_v2 : Cert.Net.Mat 512 3000)
    = Cert.Net.cols 3000 0 (by decide) (W main_arg0) := by
  refine Eq.trans ?_ (slice_eq_cols 0 (by decide) (W main_arg0) slices_S512x28000_S512x3000_0_0)
  show StableHlo.after hostOps0 W (Proc.devRef .tc main_v2) = _
  simp only [hostOps0]; after_results

theorem ops0_v3 : (StableHlo.after (hostOps0 (F := Ideal)) W main_v3 : Cert.Net.Mat 1 5000)
    = Cert.Net.row (W main_arg6) := by
  refine Eq.trans ?_ (cast_eq_row (W main_arg6) shapeCasts_S5000_S1x5000)
  show StableHlo.after hostOps0 W (Proc.devRef .tc main_v3) = _
  simp only [hostOps0]; after_results; rfl

theorem ops1_v5 : (StableHlo.after (hostOps1 (F := Ideal)) W main_v5 : Cert.Net.Mat 1 3000)
    = Cert.Net.row (W main_arg8) := by
  refine Eq.trans ?_ (cast_eq_row (W main_arg8) shapeCasts_S3000_S1x3000)
  show StableHlo.after hostOps1 W (Proc.devRef .tc main_v5) = _
  simp only [hostOps1]; after_results; rfl

theorem ops2_v7 : (StableHlo.after (hostOps2 (F := Ideal)) W main_v7 : Cert.Net.Mat 512 8000)
    = (Cert.Net.hcat (W main_v4 : Cert.Net.Mat 512 5000) (W main_v6 : Cert.Net.Mat 512 3000) : Cert.Net.Mat 512 8000) := by
  refine Eq.trans ?_ (concat_eq_hcat (B := 512) (C := 5000) (D := 3000) (W main_v4) (W main_v6) concatenates_S512x5000_S512x3000_S512x8000_d1)
  show StableHlo.after hostOps2 W (Proc.devRef .tc main_v7) = _
  simp only [hostOps2]; after_results

theorem ops2_v8 : (StableHlo.after (hostOps2 (F := Ideal)) W main_v8 : Cert.Net.Mat 1 3000)
    = Cert.Net.row (W main_arg10) := by
  refine Eq.trans ?_ (cast_eq_row (W main_arg10) shapeCasts_S3000_S1x3000)
  show StableHlo.after hostOps2 W (Proc.devRef .tc main_v8) = _
  simp only [hostOps2]; after_results; rfl

theorem ops3_v10 : (StableHlo.after (hostOps3 (F := Ideal)) W main_v10 : Cert.Net.Mat 1 3000)
    = Cert.Net.row (W main_arg12) := by
  refine Eq.trans ?_ (cast_eq_row (W main_arg12) shapeCasts_S3000_S1x3000)
  show StableHlo.after hostOps3 W (Proc.devRef .tc main_v10) = _
  simp only [hostOps3]; after_results; rfl

theorem ops4_v12 : (StableHlo.after (hostOps4 (F := Ideal)) W main_v12 : Cert.Net.Mat 512 6000)
    = (Cert.Net.hcat (W main_v9 : Cert.Net.Mat 512 3000) (W main_v11 : Cert.Net.Mat 512 3000) : Cert.Net.Mat 512 6000) := by
  refine Eq.trans ?_ (concat_eq_hcat (B := 512) (C := 3000) (D := 3000) (W main_v9) (W main_v11) concatenates_S512x3000_S512x3000_S512x6000_d1)
  show StableHlo.after hostOps4 W (Proc.devRef .tc main_v12) = _
  simp only [hostOps4]; after_results

theorem ops4_v13 : (StableHlo.after (hostOps4 (F := Ideal)) W main_v13 : Cert.Net.Mat 1 1024)
    = Cert.Net.row (W main_arg14) := by
  refine Eq.trans ?_ (cast_eq_row (W main_arg14) shapeCasts_S1024_S1x1024)
  show StableHlo.after hostOps4 W (Proc.devRef .tc main_v13) = _
  simp only [hostOps4]; after_results; rfl

theorem ops5_v15 : (StableHlo.after (hostOps5 (F := Ideal)) W main_v15 : Cert.Net.Mat 1 256)
    = Cert.Net.row (W main_arg16) := by
  refine Eq.trans ?_ (cast_eq_row (W main_arg16) shapeCasts_S256_S1x256)
  show StableHlo.after hostOps5 W (Proc.devRef .tc main_v15) = _
  simp only [hostOps5]; after_results; rfl

theorem ops6_1_v17 (κ : Fin 256) : (StableHlo.after (hostOps6_1 (F := Ideal)) W main_v17 : Cert.Net.Mat 128 256) (ix2 (0 : Fin 128) κ)
    = (W main_arg17 : Cert.Net.Mat 1 256) (ix2 (0 : Fin 1) κ) := by
  show StableHlo.after hostOps6_1 W (Proc.devRef .tc main_v17) (ix2 (0 : Fin 128) κ) = _
  simp only [hostOps6_1]; after_results
  refine pad_apply_of_inside (s := S1x256) (t := S128x256) ![0, 0] ![127, 0] ![0, 0] (W main_arg17) _
    pads_S1x256_S128x256_01270_000 h_S_ (ix2 (0 : Fin 128) κ) (ix2 (0 : Fin 1) κ) (fun a => ?_)
  match a with
  | ⟨0, _⟩ => rfl
  | ⟨1, _⟩ => show κ.val = 0 + κ.val * (0 + 1); omega

theorem ops6_3_v18 : (StableHlo.after (hostOps6_3 (F := Ideal)) W main_v18 : Cert.Net.Vec1 128) (ix1 (0 : Fin 128))
    = (W main_arg18 : Cert.Net.Vec1 1) (ix1 (0 : Fin 1)) := by
  show StableHlo.after hostOps6_3 W (Proc.devRef .tc main_v18) (ix1 (0 : Fin 128)) = _
  simp only [hostOps6_3]; after_results
  refine pad_apply_of_inside (s := S1) (t := S128) ![0] ![127] ![0] (W main_arg18) _
    pads_S1_S128_01270 h_S_ (ix1 (0 : Fin 128)) (ix1 (0 : Fin 1)) (fun a => ?_)
  match a with
  | ⟨0, _⟩ => rfl

theorem ops6_4_v19 : (StableHlo.after (hostOps6_4 (F := Ideal)) W main_v19 : Cert.Net.Mat 1 128)
    = Cert.Net.row (W main_v18) := by
  refine Eq.trans ?_ (cast_eq_row (W main_v18) shapeCasts_S128_S1x128)
  show StableHlo.after hostOps6_4 W (Proc.devRef .tc main_v19) = _
  simp only [hostOps6_4]; after_results; rfl

theorem ops7_v21 : (StableHlo.after (hostOps7 (F := Ideal)) W main_v21 : Cert.Net.Mat 512 1)
    = Cert.Net.cols 1 0 (by decide) (W main_v20 : Cert.Net.Mat 512 128) := by
  refine Eq.trans ?_ (slice_eq_cols 0 (by decide) (W main_v20) slices_S512x128_S512x1_0_0)
  show StableHlo.after hostOps7 W (Proc.devRef .tc main_v21) = _
  simp only [hostOps7]; after_results

end Stretches

section Walk

variable (m : (ℓ : Loc nD τ sig) → Buf (Elt Ideal) ℓ) (c : Dev nD)

abbrev argsL : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

abbrev A (r : Ref sig .tc) : (Proc.devRef (τ := τ) .tc r).ty.Contents (Elt Ideal) := V0 m c (Proc.devRef .tc r)

def ArgsKept (W : Valuation τ sig (Elt Ideal)) : Prop :=
  ∀ r ∈ argsL, W (Proc.devRef .tc r) = V0 m c (Proc.devRef .tc r)

theorem argsKept_host {W : Valuation τ sig (Elt Ideal)} (ops : List (HloOp τ sig (Elt Ideal))) (Wl : List (Ref sig .tc))
    (hW : ops.Forall fun op => op.writes ⊆ (Wl.map (Proc.devRef (τ := τ) .tc)).toFinset)
    (hd : ∀ r ∈ argsL, r ∉ Wl) (h : ArgsKept m c W) : ArgsKept m c (StableHlo.after ops W) :=
  fun r hr => (StableHlo.after_of_writes_sub ops W hW (hd r hr)).trans (h r hr)

theorem argsKept_reg {W : Valuation τ sig (Elt Ideal)} (o : Ref sig .tc)
    (Fo : (Proc.devRef (τ := τ) .tc o).ty.Contents (Elt Ideal)) (ho : o ∉ argsL) (h : ArgsKept m c W) :
    ArgsKept m c (Function.update W (Proc.devRef .tc o) Fo) :=
  fun r hr => (Function.update_of_ne (StableHlo.devRef_ne_of_ne (fun (e : r = o) => ho (e ▸ hr))) _ _).trans (h r hr)

theorem keep_host {W : Valuation τ sig (Elt Ideal)} (ops : List (HloOp τ sig (Elt Ideal))) (Wl : List (Ref sig .tc))
    (hW : ops.Forall fun op => op.writes ⊆ (Wl.map (Proc.devRef (τ := τ) .tc)).toFinset) (r : Ref sig .tc) (hr : r ∉ Wl) :
    StableHlo.after ops W (Proc.devRef .tc r) = W (Proc.devRef .tc r) :=
  StableHlo.after_of_writes_sub ops W hW hr

theorem keep_reg {W : Valuation τ sig (Elt Ideal)} (o r : Ref sig .tc)
    (Fo : (Proc.devRef (τ := τ) .tc o).ty.Contents (Elt Ideal)) (hr : r ≠ o) :
    Function.update W (Proc.devRef .tc o) Fo (Proc.devRef .tc r) = W (Proc.devRef .tc r) :=
  Function.update_of_ne (StableHlo.devRef_ne_of_ne hr) _ _

theorem read_reg {W : Valuation τ sig (Elt Ideal)} (o : Ref sig .tc)
    (Fo : (Proc.devRef (τ := τ) .tc o).ty.Contents (Elt Ideal)) :
    Function.update W (Proc.devRef .tc o) Fo (Proc.devRef .tc o) = Fo :=
  Function.update_self _ _ _

def netX0 : Cert.Net.Mat 512 20000 := Cert.Net.cols 20000 8000 (by decide) (A m c main_arg0)
def netX1 : Cert.Net.Mat 512 5000 := Cert.Net.cols 5000 3000 (by decide) (A m c main_arg0)
def netX2 : Cert.Net.Mat 512 3000 := Cert.Net.cols 3000 0 (by decide) (A m c main_arg0)
def netO1 : Cert.Net.Mat 512 5000 := Cert.Net.mlayer (netX0 m c) (A m c main_arg5) (A m c main_arg1) (Cert.Net.row (A m c main_arg6))
def netO2 : Cert.Net.Mat 512 3000 := Cert.Net.mlayer (netX1 m c) (A m c main_arg7) (A m c main_arg2) (Cert.Net.row (A m c main_arg8))
def netO3 : Cert.Net.Mat 512 3000 :=
  Cert.Net.mlayer (Cert.Net.hcat (netO1 m c) (netO2 m c) : Cert.Net.Mat 512 8000) (A m c main_arg9) (A m c main_arg3) (Cert.Net.row (A m c main_arg10))
def netO4 : Cert.Net.Mat 512 3000 := Cert.Net.mlayer (netX2 m c) (A m c main_arg11) (A m c main_arg4) (Cert.Net.row (A m c main_arg12))
def netH1 : Cert.Net.Mat 512 1024 :=
  Cert.Net.dlayer (Cert.Net.hcat (netO3 m c) (netO4 m c) : Cert.Net.Mat 512 6000) (A m c main_arg13) (Cert.Net.row (A m c main_arg14))
def netH2 : Cert.Net.Mat 512 256 := Cert.Net.dlayer (netH1 m c) (A m c main_arg15) (Cert.Net.row (A m c main_arg16))

theorem net_eq : Cert.Net.net (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18)
    = Cert.Net.slayer (netH2 m c) (A m c main_arg17) (Cert.Net.row (A m c main_arg18)) := rfl

variable {W : Valuation τ sig (Elt Ideal)}

theorem facts1 (h : Inv1 (F := Ideal) m c W) :
    ArgsKept m c W ∧ (W main_v0 : Cert.Net.Mat 512 20000) = netX0 m c ∧ (W main_v1 : Cert.Net.Mat 512 5000) = netX1 m c
      ∧ (W main_v2 : Cert.Net.Mat 512 3000) = netX2 m c ∧ (W main_v3 : Cert.Net.Mat 1 5000) = Cert.Net.row (A m c main_arg6) := by
  obtain ⟨W0, h0, rfl⟩ := h
  have e : W0 = V0 m c := h0
  subst e
  exact ⟨argsKept_host m c hostOps0 hostOps0_W hostOps0_writes (by decide) (fun r _ => rfl),
    ops0_v0 _, ops0_v1 _, ops0_v2 _, ops0_v3 _⟩

theorem facts2 (h : Inv2 (F := Ideal) m Qv0 c W) :
    ArgsKept m c W ∧ (W main_v1 : Cert.Net.Mat 512 5000) = netX1 m c ∧ (W main_v2 : Cert.Net.Mat 512 3000) = netX2 m c
      ∧ (W main_v4 : Cert.Net.Mat 512 5000) = netO1 m c := by
  obtain ⟨W1, Fo, h1, hq, rfl⟩ := h
  obtain ⟨hA, e0, e1, e2, e3⟩ := facts1 m c h1
  refine ⟨argsKept_reg m c main_v4 Fo (by decide) hA, (keep_reg main_v4 main_v1 Fo (by decide)).trans e1,
    (keep_reg main_v4 main_v2 Fo (by decide)).trans e2, (read_reg main_v4 Fo).trans ?_⟩
  unfold Qv0 at hq
  rw [hq, e0, e3, hA main_arg5 (by decide), hA main_arg1 (by decide)]
  rfl

theorem facts3 (h : Inv3 (F := Ideal) m Qv0 c W) :
    ArgsKept m c W ∧ (W main_v1 : Cert.Net.Mat 512 5000) = netX1 m c ∧ (W main_v2 : Cert.Net.Mat 512 3000) = netX2 m c
      ∧ (W main_v4 : Cert.Net.Mat 512 5000) = netO1 m c ∧ (W main_v5 : Cert.Net.Mat 1 3000) = Cert.Net.row (A m c main_arg8) := by
  obtain ⟨W', h', rfl⟩ := h
  obtain ⟨hA, e1, e2, e4⟩ := facts2 m c h'
  exact ⟨argsKept_host m c hostOps1 hostOps1_W hostOps1_writes (by decide) hA,
    (keep_host hostOps1 hostOps1_W hostOps1_writes main_v1 (by decide)).trans e1, (keep_host hostOps1 hostOps1_W hostOps1_writes main_v2 (by decide)).trans e2,
    (keep_host hostOps1 hostOps1_W hostOps1_writes main_v4 (by decide)).trans e4,
    (ops1_v5 W').trans (congrArg (Cert.Net.row (N := 3000)) (hA main_arg8 (by decide)))⟩

theorem facts4 (h : Inv4 (F := Ideal) m Qv0 Qv1 c W) :
    ArgsKept m c W ∧ (W main_v2 : Cert.Net.Mat 512 3000) = netX2 m c ∧ (W main_v4 : Cert.Net.Mat 512 5000) = netO1 m c ∧ (W main_v6 : Cert.Net.Mat 512 3000) = netO2 m c := by
  obtain ⟨W', Fo, h', hq, rfl⟩ := h
  obtain ⟨hA, e1, e2, e4, e5⟩ := facts3 m c h'
  refine ⟨argsKept_reg m c main_v6 Fo (by decide) hA, (keep_reg main_v6 main_v2 Fo (by decide)).trans e2,
    (keep_reg main_v6 main_v4 Fo (by decide)).trans e4, (read_reg main_v6 Fo).trans ?_⟩
  unfold Qv1 at hq
  rw [hq, e1, e5, hA main_arg7 (by decide), hA main_arg2 (by decide)]
  rfl

theorem facts5 (h : Inv5 (F := Ideal) m Qv0 Qv1 c W) :
    ArgsKept m c W ∧ (W main_v2 : Cert.Net.Mat 512 3000) = netX2 m c
      ∧ (W main_v7 : Cert.Net.Mat 512 8000) = (Cert.Net.hcat (netO1 m c) (netO2 m c) : Cert.Net.Mat 512 8000)
      ∧ (W main_v8 : Cert.Net.Mat 1 3000) = Cert.Net.row (A m c main_arg10) := by
  obtain ⟨W', h', rfl⟩ := h
  obtain ⟨hA, e2, e4, e6⟩ := facts4 m c h'
  refine ⟨argsKept_host m c hostOps2 hostOps2_W hostOps2_writes (by decide) hA,
    (keep_host hostOps2 hostOps2_W hostOps2_writes main_v2 (by decide)).trans e2, (ops2_v7 W').trans ?_,
    (ops2_v8 W').trans (congrArg (Cert.Net.row (N := 3000)) (hA main_arg10 (by decide)))⟩
  rw [e4, e6]

theorem facts6 (h : Inv6 (F := Ideal) m Qv0 Qv1 Qv2 c W) :
    ArgsKept m c W ∧ (W main_v2 : Cert.Net.Mat 512 3000) = netX2 m c ∧ (W main_v9 : Cert.Net.Mat 512 3000) = netO3 m c := by
  obtain ⟨W', Fo, h', hq, rfl⟩ := h
  obtain ⟨hA, e2, e7, e8⟩ := facts5 m c h'
  refine ⟨argsKept_reg m c main_v9 Fo (by decide) hA, (keep_reg main_v9 main_v2 Fo (by decide)).trans e2,
    (read_reg main_v9 Fo).trans ?_⟩
  unfold Qv2 at hq
  rw [hq, e7, e8, hA main_arg9 (by decide), hA main_arg3 (by decide)]
  rfl

theorem facts7 (h : Inv7 (F := Ideal) m Qv0 Qv1 Qv2 c W) :
    ArgsKept m c W ∧ (W main_v2 : Cert.Net.Mat 512 3000) = netX2 m c ∧ (W main_v9 : Cert.Net.Mat 512 3000) = netO3 m c
      ∧ (W main_v10 : Cert.Net.Mat 1 3000) = Cert.Net.row (A m c main_arg12) := by
  obtain ⟨W', h', rfl⟩ := h
  obtain ⟨hA, e2, e9⟩ := facts6 m c h'
  exact ⟨argsKept_host m c hostOps3 hostOps3_W hostOps3_writes (by decide) hA,
    (keep_host hostOps3 hostOps3_W hostOps3_writes main_v2 (by decide)).trans e2, (keep_host hostOps3 hostOps3_W hostOps3_writes main_v9 (by decide)).trans e9,
    (ops3_v10 W').trans (congrArg (Cert.Net.row (N := 3000)) (hA main_arg12 (by decide)))⟩

theorem facts8 (h : Inv8 (F := Ideal) m Qv0 Qv1 Qv2 Qv3 c W) :
    ArgsKept m c W ∧ (W main_v9 : Cert.Net.Mat 512 3000) = netO3 m c ∧ (W main_v11 : Cert.Net.Mat 512 3000) = netO4 m c := by
  obtain ⟨W', Fo, h', hq, rfl⟩ := h
  obtain ⟨hA, e2, e9, e10⟩ := facts7 m c h'
  refine ⟨argsKept_reg m c main_v11 Fo (by decide) hA, (keep_reg main_v11 main_v9 Fo (by decide)).trans e9,
    (read_reg main_v11 Fo).trans ?_⟩
  unfold Qv3 at hq
  rw [hq, e2, e10, hA main_arg11 (by decide), hA main_arg4 (by decide)]
  rfl

theorem facts9 (h : Inv9 (F := Ideal) m Qv0 Qv1 Qv2 Qv3 c W) :
    ArgsKept m c W ∧ (W main_v12 : Cert.Net.Mat 512 6000) = (Cert.Net.hcat (netO3 m c) (netO4 m c) : Cert.Net.Mat 512 6000)
      ∧ (W main_v13 : Cert.Net.Mat 1 1024) = Cert.Net.row (A m c main_arg14) := by
  obtain ⟨W', h', rfl⟩ := h
  obtain ⟨hA, e9, e11⟩ := facts8 m c h'
  refine ⟨argsKept_host m c hostOps4 hostOps4_W hostOps4_writes (by decide) hA, (ops4_v12 W').trans ?_,
    (ops4_v13 W').trans (congrArg (Cert.Net.row (N := 1024)) (hA main_arg14 (by decide)))⟩
  rw [e9, e11]

theorem facts10 (h : Inv10 (F := Ideal) m Qv0 Qv1 Qv2 Qv3 Qv4 c W) :
    ArgsKept m c W ∧ (W main_v14 : Cert.Net.Mat 512 1024) = netH1 m c := by
  obtain ⟨W', Fo, h', hq, rfl⟩ := h
  obtain ⟨hA, e12, e13⟩ := facts9 m c h'
  refine ⟨argsKept_reg m c main_v14 Fo (by decide) hA, (read_reg main_v14 Fo).trans ?_⟩
  unfold Qv4 at hq
  rw [hq, e12, e13, hA main_arg13 (by decide)]
  rfl

theorem facts11 (h : Inv11 (F := Ideal) m Qv0 Qv1 Qv2 Qv3 Qv4 c W) :
    ArgsKept m c W ∧ (W main_v14 : Cert.Net.Mat 512 1024) = netH1 m c ∧ (W main_v15 : Cert.Net.Mat 1 256) = Cert.Net.row (A m c main_arg16) := by
  obtain ⟨W', h', rfl⟩ := h
  obtain ⟨hA, e14⟩ := facts10 m c h'
  exact ⟨argsKept_host m c hostOps5 hostOps5_W hostOps5_writes (by decide) hA,
    (keep_host hostOps5 hostOps5_W hostOps5_writes main_v14 (by decide)).trans e14,
    (ops5_v15 W').trans (congrArg (Cert.Net.row (N := 256)) (hA main_arg16 (by decide)))⟩

theorem facts12 (h : Inv12 (F := Ideal) m Qv0 Qv1 Qv2 Qv3 Qv4 Qv5 c W) :
    ArgsKept m c W ∧ (W main_v16 : Cert.Net.Mat 512 256) = netH2 m c := by
  obtain ⟨W', Fo, h', hq, rfl⟩ := h
  obtain ⟨hA, e14, e15⟩ := facts11 m c h'
  refine ⟨argsKept_reg m c main_v16 Fo (by decide) hA, (read_reg main_v16 Fo).trans ?_⟩
  unfold Qv5 at hq
  rw [hq, e14, e15, hA main_arg15 (by decide)]
  rfl

theorem facts13 (h : Inv13 (F := Ideal) m Qv0 Qv1 Qv2 Qv3 Qv4 Qv5 c W) :
    ArgsKept m c W ∧ (W main_v16 : Cert.Net.Mat 512 256) = netH2 m c := by
  obtain ⟨W', h', rfl⟩ := h
  obtain ⟨hA, e16⟩ := facts12 m c h'
  exact ⟨argsKept_host m c hostOps6 hostOps6_W hostOps6_writes (by decide) hA,
    (keep_host hostOps6 hostOps6_W hostOps6_writes main_v16 (by decide)).trans e16⟩

theorem facts14 (h : Inv14 (F := Ideal) m Qv0 Qv1 Qv2 Qv3 Qv4 Qv5 c W) :
    ArgsKept m c W ∧ (W main_v16 : Cert.Net.Mat 512 256) = netH2 m c
      ∧ ∀ κ : Fin 256, (W main_v17 : Cert.Net.Mat 128 256) (ix2 (0 : Fin 128) κ) = (A m c main_arg17 : Cert.Net.Mat 1 256) (ix2 (0 : Fin 1) κ) := by
  obtain ⟨W', h', rfl⟩ := h
  obtain ⟨hA, e16⟩ := facts13 m c h'
  exact ⟨argsKept_host m c hostOps6_1 hostOps6_1_W hostOps6_1_writes (by decide) hA,
    (keep_host hostOps6_1 hostOps6_1_W hostOps6_1_writes main_v16 (by decide)).trans e16,
    fun κ => (ops6_1_v17 W' κ).trans (congrFun (hA main_arg17 (by decide)) (ix2 (0 : Fin 1) κ))⟩

theorem facts15 (h : Inv15 (F := Ideal) m Qv0 Qv1 Qv2 Qv3 Qv4 Qv5 c W) :
    ArgsKept m c W ∧ (W main_v16 : Cert.Net.Mat 512 256) = netH2 m c
      ∧ ∀ κ : Fin 256, (W main_v17 : Cert.Net.Mat 128 256) (ix2 (0 : Fin 128) κ) = (A m c main_arg17 : Cert.Net.Mat 1 256) (ix2 (0 : Fin 1) κ) := by
  obtain ⟨W', h', rfl⟩ := h
  obtain ⟨hA, e16, e17⟩ := facts14 m c h'
  exact ⟨argsKept_host m c hostOps6_2 hostOps6_2_W hostOps6_2_writes (by decide) hA,
    (keep_host hostOps6_2 hostOps6_2_W hostOps6_2_writes main_v16 (by decide)).trans e16,
    fun κ => (congrFun (keep_host hostOps6_2 hostOps6_2_W hostOps6_2_writes main_v17 (by decide)) (ix2 (0 : Fin 128) κ)).trans (e17 κ)⟩

theorem facts16 (h : Inv16 (F := Ideal) m Qv0 Qv1 Qv2 Qv3 Qv4 Qv5 c W) :
    ArgsKept m c W ∧ (W main_v16 : Cert.Net.Mat 512 256) = netH2 m c
      ∧ (∀ κ : Fin 256, (W main_v17 : Cert.Net.Mat 128 256) (ix2 (0 : Fin 128) κ) = (A m c main_arg17 : Cert.Net.Mat 1 256) (ix2 (0 : Fin 1) κ))
      ∧ (W main_v18 : Cert.Net.Vec1 128) (ix1 (0 : Fin 128)) = (A m c main_arg18 : Cert.Net.Vec1 1) (ix1 (0 : Fin 1)) := by
  obtain ⟨W', h', rfl⟩ := h
  obtain ⟨hA, e16, e17⟩ := facts15 m c h'
  exact ⟨argsKept_host m c hostOps6_3 hostOps6_3_W hostOps6_3_writes (by decide) hA,
    (keep_host hostOps6_3 hostOps6_3_W hostOps6_3_writes main_v16 (by decide)).trans e16,
    fun κ => (congrFun (keep_host hostOps6_3 hostOps6_3_W hostOps6_3_writes main_v17 (by decide)) (ix2 (0 : Fin 128) κ)).trans (e17 κ),
    (ops6_3_v18 W').trans (congrFun (hA main_arg18 (by decide)) (ix1 (0 : Fin 1)))⟩

theorem facts17 (h : Inv17 (F := Ideal) m Qv0 Qv1 Qv2 Qv3 Qv4 Qv5 c W) :
    (W main_v16 : Cert.Net.Mat 512 256) = netH2 m c
      ∧ (∀ κ : Fin 256, (W main_v17 : Cert.Net.Mat 128 256) (ix2 (0 : Fin 128) κ) = (A m c main_arg17 : Cert.Net.Mat 1 256) (ix2 (0 : Fin 1) κ))
      ∧ (W main_v19 : Cert.Net.Mat 1 128) (ix2 (0 : Fin 1) (0 : Fin 128)) = (A m c main_arg18 : Cert.Net.Vec1 1) (ix1 (0 : Fin 1)) := by
  obtain ⟨W', h', rfl⟩ := h
  obtain ⟨hA, e16, e17, e18⟩ := facts16 m c h'
  exact ⟨(keep_host hostOps6_4 hostOps6_4_W hostOps6_4_writes main_v16 (by decide)).trans e16,
    fun κ => (congrFun (keep_host hostOps6_4 hostOps6_4_W hostOps6_4_writes main_v17 (by decide)) (ix2 (0 : Fin 128) κ)).trans (e17 κ),
    (congrFun (ops6_4_v19 W') (ix2 (0 : Fin 1) (0 : Fin 128))).trans e18⟩

theorem slayer_padded {B K : Nat} (x : Cert.Net.Mat B K) (Wp : Cert.Net.Mat 128 K) (bp : Cert.Net.Mat 1 128)
    (Wo : Cert.Net.Mat 1 K) (bo : Cert.Net.Vec1 1)
    (hW : ∀ κ : Fin K, Wp (ix2 (0 : Fin 128) κ) = Wo (ix2 (0 : Fin 1) κ))
    (hb : bp (ix2 (0 : Fin 1) (0 : Fin 128)) = bo (ix1 (0 : Fin 1))) (r : Fin B) :
    Cert.Net.slayer x Wp bp (ix2 r (0 : Fin 128)) = Cert.Net.slayer x Wo (Cert.Net.row bo) (ix2 r (0 : Fin 1)) := by
  show Ideal.logistic ((∑ κ : Fin K, x (ix2 r κ) * Wp (ix2 (0 : Fin 128) κ)) + bp (ix2 (0 : Fin 1) (0 : Fin 128)))
    = Ideal.logistic ((∑ κ : Fin K, x (ix2 r κ) * Wo (ix2 (0 : Fin 1) κ)) + bo (ix1 (0 : Fin 1)))
  rw [hb, Finset.sum_congr rfl (fun κ _ => by rw [hW κ])]

theorem facts18 (h : Inv18 (F := Ideal) m Qv0 Qv1 Qv2 Qv3 Qv4 Qv5 Qv6 c W) (r : Fin 512) :
    (W main_v20 : Cert.Net.Mat 512 128) (ix2 r (0 : Fin 128))
      = Cert.Net.slayer (netH2 m c) (A m c main_arg17) (Cert.Net.row (A m c main_arg18)) (ix2 r (0 : Fin 1)) := by
  obtain ⟨W', Fo, h', hq, rfl⟩ := h
  obtain ⟨e16, e17, e19⟩ := facts17 m c h'
  refine (congrFun (read_reg main_v20 Fo) (ix2 r (0 : Fin 128))).trans ?_
  unfold Qv6 at hq
  rw [hq, e16]
  exact slayer_padded (netH2 m c) (W' main_v17) (W' main_v19) (A m c main_arg17) (A m c main_arg18) e17 e19 r

end Walk

theorem inv19_value (m : (ℓ : Loc nD τ sig) → Buf (Elt Ideal) ℓ) (c : Dev nD) (W : Valuation τ sig (Elt Ideal))
    (h : Inv19 (F := Ideal) m Qv0 Qv1 Qv2 Qv3 Qv4 Qv5 Qv6 c W) :
    (W main_v21 : Cert.Net.Mat 512 1) = Cert.Net.net (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18)) := by
  obtain ⟨W', h', rfl⟩ := h
  refine Eq.trans ?_ (net_eq m c).symm
  refine funext (fun (i : (⟨2, ![512, 1]⟩ : Shape).Idx) => ?_)
  have h1 : i 1 = (0 : Fin 1) := Fin.ext (by have := idx2_lt1 i; show (i 1).val = 0; omega)
  obtain ⟨r, rfl⟩ : ∃ r : Fin 512, i = ix2 r (0 : Fin 1) := ⟨i 0, (eq_ix2 i).trans (congrArg (ix2 (i 0)) h1)⟩
  refine (congrFun (ops7_v21 W') (ix2 r (0 : Fin 1))).trans ?_
  exact facts18 m c h' r

end Cert.KernelIdeal.HandI

end
-- ==== Proof.Cover.lean ====
import Idealize.ShloMosaic.Lib.Pipeline.Dat
import Idealize.ShloMosaic.Lib.Pipeline.Cells
import Idealize.ShloMosaic.Lib.Pipeline.Value

noncomputable section

namespace Cert.Cover

open Idealize.ShloMosaic Idealize.ShloMosaic.Pipeline
open Idealize.SL Idealize.SL.RA
open TcCoe

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

theorem arrAt_apply_of_mem (w : Fin cfg.W) (G : Buf Val ((cfg.win w).arr.view.loc (c.tc : Thread nD τ)))
    (hleaves : ∀ u : Fin cfg.N, (cfg.win w).flush u = true → ∀ X, rd.Leaves w u X →
      (cfg.win w).cut (cfg.grid.coords u) X = ((cfg.win w).blk u).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    by_cases hn : n < cfg.N
    swap
    ·
      rw [rd.ArrAt_stable w (n + 1) (by omega), ← rd.ArrAt_stable w n (by omega)] at hF
      exact arrAt_apply_of_mem w G hleaves n F hF t i (by have := t.isLt; omega) hf hi
    have hs : rd.ArrAt w (n + 1)
        = if (cfg.win w).flush ⟨n, hn⟩ then rd.ArrStep w ⟨n, hn⟩ (rd.ArrAt w n) else rd.ArrAt w n :=
      rd.ArrAt_succ w ⟨n, hn⟩
    rw [hs] at hF
    by_cases hfn : (cfg.win w).flush ⟨n, hn⟩ = true
    · rw [if_pos hfn] at hF
      obtain ⟨F₀, X, hF₀, hX, rfl⟩ := hF
      rw [hleaves _ hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]

        have htn : t.val ≠ n := fun e => hin (by
          rw [View.setOn_univ]; have : t = ⟨n, hn⟩ := Fin.ext e; exact this ▸ hi)
        exact arrAt_apply_of_mem w G hleaves n F₀ hF₀ t i (by omega) hf hi
    · rw [if_neg hfn] at hF
      have htn : t.val ≠ n := fun e => hfn (by have : t = ⟨n, hn⟩ := Fin.ext e; exact this ▸ hf)
      exact arrAt_apply_of_mem w G hleaves n F hF t i (by omega) hf hi

theorem arrAt_eq_of_cover (w : Fin cfg.W) (G : Buf Val ((cfg.win w).arr.view.loc (c.tc : Thread nD τ)))
    (hleaves : ∀ u : Fin cfg.N, (cfg.win w).flush u = true → ∀ X, rd.Leaves w u X →
      (cfg.win w).cut (cfg.grid.coords u) X = ((cfg.win w).blk u).view.read Val G)
    (hcover : ∀ i : ((cfg.win w).arr.view.loc (c.tc : Thread nD τ)).2.ty.Idx,
      ∃ t : Fin cfg.N, (cfg.win w).flush t = true ∧ i ∈ ((cfg.win w).blk t).view.set) :
    ∀ F, rd.ArrAt w cfg.N F → F = G := fun F hF =>
  funext fun i => by
    obtain ⟨t, hf, hi⟩ := hcover i
    exact arrAt_apply_of_mem rd w G hleaves cfg.N F hF t i t.isLt hf hi

theorem arrAt_in_eq (w : Fin cfg.W) (hin : (cfg.win w).isOut = false) :
    ∀ (t : Nat) (F : Buf Val ((cfg.win w).arr.view.loc (c.tc : Thread nD τ))), rd.ArrAt w t F → F = rd.A w :=
  fun t F h => by rw [rd.ArrAt_in w hin t] at h; exact h

end Cert.Cover
-- ==== Proof.TileSum.lean ====
import Mathlib.Algebra.BigOperators.Intervals
import Mathlib.Algebra.BigOperators.Fin
import Mathlib.Data.EReal.Operations

namespace Cert.TileSum

open Finset

section Monoid

variable {M : Type*} [AddCommMonoid M] {K : ℕ} (tk : ℕ) (f : Fin K → M)

def partialSum (k : ℕ) : M := ∑ κ : Fin K, if κ.val < k * tk then f κ else 0

def tileSum (k : ℕ) : M :=
  ∑ j : Fin tk, if h : k * tk + j.val < K then f ⟨k * tk + j.val, h⟩ else 0

def extendZero (n : ℕ) : M := if h : n < K then f ⟨n, h⟩ else 0

theorem partialSum_eq_range (k : ℕ) :
    partialSum tk f k = ∑ n ∈ range (k * tk), extendZero f n := by
  unfold partialSum
  have h1 : (∑ κ : Fin K, if κ.val < k * tk then f κ else 0)
      = ∑ κ : Fin K, (fun n => if n < k * tk then extendZero f n else 0) κ.val := by
    refine Finset.sum_congr rfl (fun κ _ => ?_)
    simp [extendZero, κ.isLt]
  rw [h1, Fin.sum_univ_eq_sum_range (fun n => if n < k * tk then extendZero f n else 0) K]
  rw [← Finset.sum_filter]
  have h2 : ∑ n ∈ range (k * tk), extendZero f n
      = ∑ n ∈ (range (k * tk)).filter (fun n => n < K), extendZero f n := by
    rw [Finset.sum_filter]
    refine Finset.sum_congr rfl (fun n _ => ?_)
    by_cases hn : n < K <;> simp [extendZero, hn]
  rw [h2]
  refine Finset.sum_congr ?_ (fun _ _ => rfl)
  ext n
  simp [and_comm]

theorem tileSum_eq_range (k : ℕ) :
    tileSum tk f k = ∑ j ∈ range tk, extendZero f (k * tk + j) := by
  unfold tileSum
  rw [← Fin.sum_univ_eq_sum_range (fun j => extendZero f (k * tk + j)) tk]
  rfl

theorem partialSum_zero : partialSum tk f 0 = 0 := by
  simp [partialSum]

theorem partialSum_succ (k : ℕ) :
    partialSum tk f (k + 1) = partialSum tk f k + tileSum tk f k := by
  rw [partialSum_eq_range, partialSum_eq_range, tileSum_eq_range, Nat.succ_mul,
    Finset.sum_range_add]

theorem partialSum_full (k : ℕ) (h : K ≤ k * tk) : partialSum tk f k = ∑ κ : Fin K, f κ := by
  unfold partialSum
  refine Finset.sum_congr rfl (fun κ _ => ?_)
  rw [if_pos (lt_of_lt_of_le κ.isLt h)]

end Monoid

section EReal

theorem masked_term (x w : EReal) : x * (w * 0) = 0 := by
  rw [mul_zero, mul_zero]

theorem zero_add_sum {ι : Type*} (s : Finset ι) (g : ι → EReal) :
    (0 : EReal) + ∑ i ∈ s, g i = ∑ i ∈ s, g i :=
  zero_add _

end EReal

end Cert.TileSum
-- ==== Proof.KI.Ideal0.lean ====
import proofs.«128469_j53695681135127_2_alg».proof.Proof.KI.Obl0
import proofs.«128469_j53695681135127_2_alg».proof.Proof.KI.RelI
import proofs.«128469_j53695681135127_2_alg».proof.Proof.Cover
import proofs.«128469_j53695681135127_2_alg».proof.Proof.TileSum
import proofs.«128469_j53695681135127_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.HandI.R0

open Cert.KernelIdeal Cert.KernelIdeal.Gen
open Idealize.ShloMosaic Idealize.ShloMosaic.TcCoe Idealize.SL.Sem
open Idealize.ShloMosaic.ValueIdx

theorem coords0 : ∀ t : Fin cfg0.N, (grid0.coords t 0).val = t.val / 20 ∧ (grid0.coords t 1).val = t.val % 20 :=
  (by decide +kernel : ∀ t : Fin grid0.N, _)

theorem conds0 : ∀ t : Fin cfg0.N,
    ((Scalar.cmpi .ne (Scalar.extui (Scalar.cmpi .eq (BitVec.ofNat 32 (grid0.coords t 1).val) 0#32)) 0#32) = 1#1 ↔ t.val % 20 = 0)
    ∧ (k0_cond2 (grid0.coords t) = 1#1 ↔ t.val % 20 = 19) :=
  (by decide +kernel : ∀ t : Fin grid0.N, _)

theorem win0_0_facts : ∀ t : Fin cfg0.N,
    win0_0.index t (0 : Fin 2) = 0 ∧ win0_0.index t (1 : Fin 2) = t.val % 20
    ∧ win0_0.xsize (grid0.coords t) (0 : Fin 2) = 512 ∧ win0_0.xsize (grid0.coords t) (1 : Fin 2) = min 1024 (20000 - t.val % 20 * 1024) :=
  (by decide +kernel : ∀ t : Fin grid0.N, _)

theorem win0_1_facts : ∀ t : Fin cfg0.N,
    win0_1.index t (0 : Fin 2) = t.val / 20 ∧ win0_1.index t (1 : Fin 2) = t.val % 20
    ∧ win0_1.xsize (grid0.coords t) (0 : Fin 2) = min 1024 (5000 - t.val / 20 * 1024) ∧ win0_1.xsize (grid0.coords t) (1 : Fin 2) = min 1024 (20000 - t.val % 20 * 1024) :=
  (by decide +kernel : ∀ t : Fin grid0.N, _)

theorem win0_2_facts : ∀ t : Fin cfg0.N,
    win0_2.index t (0 : Fin 2) = t.val % 20 ∧ win0_2.index t (1 : Fin 2) = t.val / 20
    ∧ win0_2.xsize (grid0.coords t) (0 : Fin 2) = min 1024 (20000 - t.val % 20 * 1024) ∧ win0_2.xsize (grid0.coords t) (1 : Fin 2) = min 1024 (5000 - t.val / 20 * 1024) :=
  (by decide +kernel : ∀ t : Fin grid0.N, _)

theorem win0_3_facts : ∀ t : Fin cfg0.N,
    win0_3.index t (0 : Fin 2) = 0 ∧ win0_3.index t (1 : Fin 2) = t.val / 20
    ∧ win0_3.xsize (grid0.coords t) (0 : Fin 2) = 1 ∧ win0_3.xsize (grid0.coords t) (1 : Fin 2) = min 1024 (5000 - t.val / 20 * 1024) :=
  (by decide +kernel : ∀ t : Fin grid0.N, _)

theorem win0_4_facts : ∀ t : Fin cfg0.N,
    win0_4.index t (0 : Fin 2) = 0 ∧ win0_4.index t (1 : Fin 2) = t.val / 20
    ∧ win0_4.xsize (grid0.coords t) (0 : Fin 2) = 512 ∧ win0_4.xsize (grid0.coords t) (1 : Fin 2) = min 1024 (5000 - t.val / 20 * 1024) :=
  (by decide +kernel : ∀ t : Fin grid0.N, _)

theorem lhs_D0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_D0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_D0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_D0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul0_apply (L : FVec Ideal S512x1024 .bf16) (R : FVec Ideal S1024x1024 .bf16) (r : Fin 512) (j : Fin 1024) :
    matmul dot_S512x1024_S1024x1024_S512x1024_1_0_0_1_n_n none L R (constant S512x1024 .f32 0x00000000#32) (ix2 r j)
      = ∑ kk : Fin 1024, L (ix2 r kk) * R (ix2 kk j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r j) ((ValueIdx.contrEquiv1 dot_S512x1024_S1024x1024_S512x1024_1_0_0_1_n_n 1024 rfl rfl).symm k) = ix2 r k := funext fun a => Fin.ext (by
    match a with
    | ⟨0, _⟩ => exact lhs_D0_0 _ _
    | ⟨1, _⟩ => exact (lhs_D0_1 _ _).trans hk)
  have er : dot_S512x1024_S1024x1024_S512x1024_1_0_0_1_n_n.rhsIdx (ix2 r j) ((ValueIdx.contrEquiv1 dot_S512x1024_S1024x1024_S512x1024_1_0_0_1_n_n 1024 rfl rfl).symm k) = ix2 k j := funext fun a => Fin.ext (by
    match a with
    | ⟨0, _⟩ => exact (rhs_D0_0 _ _).trans hk
    | ⟨1, _⟩ => exact rhs_D0_1 _ _)
  rw [el, er]

theorem mask_iff (k kk : ℕ) (hk : k < 20) (hkk : kk < 1024) :
    IntOp.cmpi .slt (IntOp.addi (Scalar.muli (BitVec.ofNat 32 k) 1024#32) (BitVec.ofNat 32 kk)) 20000#32 = 1#1
      ↔ k * 1024 + kk < 20000 := by
  have e : (IntOp.addi (Scalar.muli (BitVec.ofNat 32 k) 1024#32) (BitVec.ofNat 32 kk)).toNat = k * 1024 + kk := by
    unfold IntOp.addi Scalar.muli IntOp.muli
    rw [BitVec.toNat_add, BitVec.toNat_mul, BitVec.toNat_ofNat, BitVec.toNat_ofNat, BitVec.toNat_ofNat]
    simp only [Nat.reducePow]
    omega
  have e2 : (20000#32 : BitVec 32).toNat = 20000 := by decide
  rw [StableHlo.Predicate.slt_iff_toNat (by rw [e]; omega) (by rw [e2]; omega), e, e2]

theorem masked_select (k kk : ℕ) (hk : k < 20) (hkk : kk < 1024) (a : EReal) :
    Scalar.select (IntOp.cmpi .slt (IntOp.addi (Scalar.muli (BitVec.ofNat 32 k) 1024#32) (BitVec.ofNat 32 kk)) 20000#32) a (0 : EReal)
      = if k * 1024 + kk < 20000 then a else 0 := by
  by_cases h : k * 1024 + kk < 20000
  · rw [(mask_iff k kk hk hkk).mpr h, select_one, if_pos h]
  · rw [eq_zero_of_ne_one (fun hc => h ((mask_iff k kk hk hkk).mp hc)), select_zero, if_neg h]

theorem pay2_apply (i : grid0.Coords) (Wb A : Vec Ideal S1024x1024 .f32) (X S : Vec Ideal S512x1024 .f32) (r : Fin 512) (j : Fin 1024) :
    k0_pay2 i Wb A X S (ix2 r j)
      = S (ix2 r j) + ∑ kk : Fin 1024, X (ix2 r kk) * (Wb (ix2 j kk) * (if (i 1).val * 1024 + kk.val < 20000 then A (ix2 kk j) else 0)) := by
  have hi : (i 1).val < 20 := (i 1).isLt
  unfold k0_pay2
  dsimp only
  rw [shapeCast_self, addf_apply, matmul0_apply]
  refine congrArg _ (Finset.sum_congr rfl fun kk _ => ?_)
  rw [truncf_apply, truncf_apply, shapeCast_self, mulf_apply, transpose_ix2_apply, select_apply]
  have hm : cmpi .slt (addi (broadcast S1024x1024 (Scalar.muli (BitVec.ofNat 32 (i 1).val) 1024#32)) (iota .tc S1024x1024 32 [0] iota_S1024x1024_d0_w32)) (broadcast S1024x1024 20000#32) (ix2 kk j)
      = IntOp.cmpi .slt (IntOp.addi (Scalar.muli (BitVec.ofNat 32 (i 1).val) 1024#32) (BitVec.ofNat 32 kk.val)) 20000#32 := by
    show IntOp.cmpi .slt (IntOp.addi _ (iota .tc S1024x1024 32 [0] iota_S1024x1024_d0_w32 (ix2 kk j))) _ = _
    rw [iota_single_apply]
    rfl
  have hz : broadcast S1024x1024 (FloatOps.ofBits (F := Ideal) FTy.f32 0#32) (ix2 kk j) = (0 : EReal) := Ideal.ofBits_zero_f32
  rw [hm, hz, masked_select _ _ hi kk.isLt]

theorem pay1_apply (r : Fin 512) (j : Fin 1024) : k0_pay1 (F := Ideal) (ix2 r j) = (0 : EReal) := by
  unfold k0_pay1
  rw [shapeCast_self]
  exact Ideal.ofBits_zero_f32

theorem pay3_apply (V : Vec Ideal S512x1024 .f32) (B : Vec Ideal S1x1024 .f32) (r : Fin 512) (j : Fin 1024) :
    k0_pay3 V B (ix2 r j) = max (V (ix2 r j) + B (ix2 (0 : Fin 1) j)) 0 := by
  unfold k0_pay3
  rw [maximumf_apply, addf_apply, broadcastTo_1b_ab_apply, shapeCast_self]
  have hz : broadcast S512x1024 (FloatOps.ofBits (F := Ideal) FTy.f32 0#32) (ix2 r j) = (0 : EReal) := Ideal.ofBits_zero_f32
  rw [hz]

abbrev xA (W : Valuation τ sig (Elt Ideal)) : Cert.Net.Mat 512 20000 := W main_v0
abbrev wA (W : Valuation τ sig (Elt Ideal)) : Cert.Net.Mat 5000 20000 := W main_arg5
abbrev aA (W : Valuation τ sig (Elt Ideal)) : Cert.Net.Mat 20000 5000 := W main_arg1
abbrev bA (W : Valuation τ sig (Elt Ideal)) : Cert.Net.Mat 1 5000 := W main_v3

def term (W : Valuation τ sig (Elt Ideal)) (r : Fin 512) (col : Fin 5000) : Fin 20000 → EReal :=
  fun κ => xA W (ix2 r κ) * (wA W (ix2 col κ) * aA W (ix2 κ col))

abbrev layer0 (W : Valuation τ sig (Elt Ideal)) : Cert.Net.Mat 512 5000 :=
  Cert.Net.mlayer (B := 512) (K := 20000) (N := 5000) (xA W) (wA W) (aA W) (bA W)

theorem layer0_apply (W : Valuation τ sig (Elt Ideal)) (r : Fin 512) (col : Fin 5000) :
    layer0 W (ix2 r col) = max ((∑ κ : Fin 20000, term W r col κ) + bA W (ix2 (0 : Fin 1) col)) 0 := rfl

theorem fill_apply {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

theorem blk0_0_apply (B : Cert.Net.Mat 512 20000) (t : Fin cfg0.N) (d : Vec Ideal S512x1024 .f32) (r : Fin 512) (kk : Fin 1024)
    (h : t.val % 20 * 1024 + kk.val < 20000) :
    win0_0.fill (grid0.coords t) d ((win0_0.blk t).view.read (Elt Ideal) B) (ix2 r kk) = B (ix2 r ⟨t.val % 20 * 1024 + kk.val, h⟩) := by
  obtain ⟨e0, e1, x0, x1⟩ := win0_0_facts t
  rw [fill_apply win0_0 _ _ _ (ix2 r kk) (fun a => by
    match a with
    | ⟨0, _⟩ => show r.val < win0_0.xsize (grid0.coords t) (0 : Fin 2); rw [x0]; exact r.isLt
    | ⟨1, _⟩ => show kk.val < win0_0.xsize (grid0.coords t) (1 : Fin 2); rw [x1]; have := kk.isLt; omega)]
  show B ((win0_0.blk t).view.emb _) = _
  refine congrArg B (funext fun a => Fin.ext ?_)
  match a with
  | ⟨0, _⟩ => show win0_0.index t (0 : Fin 2) * 512 + 1 * r.val = r.val; rw [e0]; omega
  | ⟨1, _⟩ => show win0_0.index t (1 : Fin 2) * 1024 + 1 * kk.val = t.val % 20 * 1024 + kk.val; rw [e1]; omega

theorem blk0_1_apply (B : Cert.Net.Mat 5000 20000) (t : Fin cfg0.N) (d : Vec Ideal S1024x1024 .f32) (j kk : Fin 1024)
    (hj : t.val / 20 * 1024 + j.val < 5000) (hk : t.val % 20 * 1024 + kk.val < 20000) :
    win0_1.fill (grid0.coords t) d ((win0_1.blk t).view.read (Elt Ideal) B) (ix2 j kk)
      = B (ix2 ⟨t.val / 20 * 1024 + j.val, hj⟩ ⟨t.val % 20 * 1024 + kk.val, hk⟩) := by
  obtain ⟨e0, e1, x0, x1⟩ := win0_1_facts t
  rw [fill_apply win0_1 _ _ _ (ix2 j kk) (fun a => by
    match a with
    | ⟨0, _⟩ => show j.val < win0_1.xsize (grid0.coords t) (0 : Fin 2); rw [x0]; have := j.isLt; omega
    | ⟨1, _⟩ => show kk.val < win0_1.xsize (grid0.coords t) (1 : Fin 2); rw [x1]; have := kk.isLt; omega)]
  show B ((win0_1.blk t).view.emb _) = _
  refine congrArg B (funext fun a => Fin.ext ?_)
  match a with
  | ⟨0, _⟩ => show win0_1.index t (0 : Fin 2) * 1024 + 1 * j.val = t.val / 20 * 1024 + j.val; rw [e0]; omega
  | ⟨1, _⟩ => show win0_1.index t (1 : Fin 2) * 1024 + 1 * kk.val = t.val % 20 * 1024 + kk.val; rw [e1]; omega

theorem blk0_2_apply (B : Cert.Net.Mat 20000 5000) (t : Fin cfg0.N) (d : Vec Ideal S1024x1024 .f32) (kk j : Fin 1024)
    (hk : t.val % 20 * 1024 + kk.val < 20000) (hj : t.val / 20 * 1024 + j.val < 5000) :
    win0_2.fill (grid0.coords t) d ((win0_2.blk t).view.read (Elt Ideal) B) (ix2 kk j)
      = B (ix2 ⟨t.val % 20 * 1024 + kk.val, hk⟩ ⟨t.val / 20 * 1024 + j.val, hj⟩) := by
  obtain ⟨e0, e1, x0, x1⟩ := win0_2_facts t
  rw [fill_apply win0_2 _ _ _ (ix2 kk j) (fun a => by
    match a with
    | ⟨0, _⟩ => show kk.val < win0_2.xsize (grid0.coords t) (0 : Fin 2); rw [x0]; have := kk.isLt; omega
    | ⟨1, _⟩ => show j.val < win0_2.xsize (grid0.coords t) (1 : Fin 2); rw [x1]; have := j.isLt; omega)]
  show B ((win0_2.blk t).view.emb _) = _
  refine congrArg B (funext fun a => Fin.ext ?_)
  match a with
  | ⟨0, _⟩ => show win0_2.index t (0 : Fin 2) * 1024 + 1 * kk.val = t.val % 20 * 1024 + kk.val; rw [e0]; omega
  | ⟨1, _⟩ => show win0_2.index t (1 : Fin 2) * 1024 + 1 * j.val = t.val / 20 * 1024 + j.val; rw [e1]; omega

theorem blk0_3_apply (B : Cert.Net.Mat 1 5000) (t : Fin cfg0.N) (d : Vec Ideal S1x1024 .f32) (j : Fin 1024)
    (hj : t.val / 20 * 1024 + j.val < 5000) :
    win0_3.fill (grid0.coords t) d ((win0_3.blk t).view.read (Elt Ideal) B) (ix2 (0 : Fin 1) j)
      = B (ix2 (0 : Fin 1) ⟨t.val / 20 * 1024 + j.val, hj⟩) := by
  obtain ⟨e0, e1, x0, x1⟩ := win0_3_facts t
  rw [fill_apply win0_3 _ _ _ (ix2 (0 : Fin 1) j) (fun a => by
    match a with
    | ⟨0, _⟩ => show (0 : ℕ) < win0_3.xsize (grid0.coords t) (0 : Fin 2); rw [x0]; exact Nat.one_pos
    | ⟨1, _⟩ => show j.val < win0_3.xsize (grid0.coords t) (1 : Fin 2); rw [x1]; have := j.isLt; omega)]
  show B ((win0_3.blk t).view.emb _) = _
  refine congrArg B (funext fun a => Fin.ext ?_)
  match a with
  | ⟨0, _⟩ => show win0_3.index t (0 : Fin 2) * 1 + 1 * (0 : ℕ) = (0 : ℕ); rw [e0]
  | ⟨1, _⟩ => show win0_3.index t (1 : Fin 2) * 1024 + 1 * j.val = t.val / 20 * 1024 + j.val; rw [e1]; omega

theorem fet0_0_apply (c : Dev nD) (W : Valuation τ sig (Elt Ideal)) (t : Fin cfg0.N) (d : Vec Ideal S512x1024 .f32) (r : Fin 512) (kk : Fin 1024)
    (h : t.val % 20 * 1024 + kk.val < 20000) :
    Hand.fet0_0 (fun (_ : Dev nD) (b : Ref sig .tc) => W b) c t d (ix2 r kk) = xA W (ix2 r ⟨t.val % 20 * 1024 + kk.val, h⟩) :=
  blk0_0_apply (xA W) t d r kk h
theorem fet0_1_apply (c : Dev nD) (W : Valuation τ sig (Elt Ideal)) (t : Fin cfg0.N) (d : Vec Ideal S1024x1024 .f32) (j kk : Fin 1024)
    (hj : t.val / 20 * 1024 + j.val < 5000) (hk : t.val % 20 * 1024 + kk.val < 20000) :
    Hand.fet0_1 (fun (_ : Dev nD) (b : Ref sig .tc) => W b) c t d (ix2 j kk)
      = wA W (ix2 ⟨t.val / 20 * 1024 + j.val, hj⟩ ⟨t.val % 20 * 1024 + kk.val, hk⟩) :=
  blk0_1_apply (wA W) t d j kk hj hk
theorem fet0_2_apply (c : Dev nD) (W : Valuation τ sig (Elt Ideal)) (t : Fin cfg0.N) (d : Vec Ideal S1024x1024 .f32) (kk j : Fin 1024)
    (hk : t.val % 20 * 1024 + kk.val < 20000) (hj : t.val / 20 * 1024 + j.val < 5000) :
    Hand.fet0_2 (fun (_ : Dev nD) (b : Ref sig .tc) => W b) c t d (ix2 kk j)
      = aA W (ix2 ⟨t.val % 20 * 1024 + kk.val, hk⟩ ⟨t.val / 20 * 1024 + j.val, hj⟩) :=
  blk0_2_apply (aA W) t d kk j hk hj
theorem fet0_3_apply (c : Dev nD) (W : Valuation τ sig (Elt Ideal)) (t : Fin cfg0.N) (d : Vec Ideal S1x1024 .f32) (j : Fin 1024)
    (hj : t.val / 20 * 1024 + j.val < 5000) :
    Hand.fet0_3 (fun (_ : Dev nD) (b : Ref sig .tc) => W b) c t d (ix2 (0 : Fin 1) j)
      = bA W (ix2 (0 : Fin 1) ⟨t.val / 20 * 1024 + j.val, hj⟩) :=
  blk0_3_apply (bA W) t d j hj

def PW0 (W : Valuation τ sig (Elt Ideal)) : Hand.Preds0 Ideal where
  Pacc c n s := n % 20 = 0 ∨ ∀ (r : Fin 512) (j : Fin 1024) (h : n / 20 * 1024 + j.val < 5000),
    s (ix2 r j) = Cert.TileSum.partialSum 1024 (term W r ⟨n / 20 * 1024 + j.val, h⟩) (n % 20)
  Pout c t X := (cfg0.win 4).cut (grid0.coords t) X = ((cfg0.win 4).blk t).view.read (Elt Ideal) (layer0 W)

theorem acc0_apply (c : Dev nD) (W : Valuation τ sig (Elt Ideal)) (t : Fin cfg0.N) (d0 : Vec Ideal S512x1024 .f32)
    (d1 d2 : Vec Ideal S1024x1024 .f32) (s : Vec Ideal S512x1024 .f32) (r : Fin 512) (j : Fin 1024)
    (h : t.val / 20 * 1024 + j.val < 5000) :
    Hand.acc0 (grid0.coords t) (Hand.fet0_0 (fun (_ : Dev nD) (b : Ref sig .tc) => W b) c t d0)
        (Hand.fet0_1 (fun (_ : Dev nD) (b : Ref sig .tc) => W b) c t d1) (Hand.fet0_2 (fun (_ : Dev nD) (b : Ref sig .tc) => W b) c t d2) s (ix2 r j)
      = (if t.val % 20 = 0 then 0 else s (ix2 r j))
        + Cert.TileSum.tileSum 1024 (term W r ⟨t.val / 20 * 1024 + j.val, h⟩) (t.val % 20) := by
  obtain ⟨hc0, hc1⟩ := conds0 t
  obtain ⟨g0, g1⟩ := coords0 t
  unfold Hand.acc0
  rw [pay2_apply]
  congr 1
  · by_cases hk : t.val % 20 = 0
    · rw [if_pos hk, if_pos (hc0.mpr hk)]; exact pay1_apply r j
    · rw [if_neg hk, if_neg (fun hh => hk (hc0.mp hh))]
  · unfold Cert.TileSum.tileSum
    refine Finset.sum_congr rfl fun kk _ => ?_
    rw [g1]
    by_cases hkk : t.val % 20 * 1024 + kk.val < 20000
    · rw [dif_pos hkk, if_pos hkk, fet0_0_apply c W t d0 r kk hkk, fet0_1_apply c W t d1 j kk h hkk, fet0_2_apply c W t d2 kk j hkk h]
      rfl
    · rw [dif_neg hkk, if_neg hkk, mul_zero, mul_zero]

theorem out0_apply (c : Dev nD) (W : Valuation τ sig (Elt Ideal)) (t : Fin cfg0.N) (hk : t.val % 20 = 19) (d0 : Vec Ideal S512x1024 .f32)
    (d1 d2 : Vec Ideal S1024x1024 .f32) (d3 : Vec Ideal S1x1024 .f32) (O s : Vec Ideal S512x1024 .f32)
    (hs : (PW0 W).Pacc c t.val s) (r : Fin 512) (j : Fin 1024) (h : t.val / 20 * 1024 + j.val < 5000) :
    Hand.out0 (grid0.coords t) (Hand.fet0_0 (fun (_ : Dev nD) (b : Ref sig .tc) => W b) c t d0)
        (Hand.fet0_1 (fun (_ : Dev nD) (b : Ref sig .tc) => W b) c t d1) (Hand.fet0_2 (fun (_ : Dev nD) (b : Ref sig .tc) => W b) c t d2)
        (Hand.fet0_3 (fun (_ : Dev nD) (b : Ref sig .tc) => W b) c t d3) O s (ix2 r j)
      = layer0 W (ix2 r ⟨t.val / 20 * 1024 + j.val, h⟩) := by
  obtain ⟨hc0, hc1⟩ := conds0 t
  unfold Hand.out0
  rw [if_pos (hc1.mpr hk), pay3_apply, acc0_apply c W t d0 d1 d2 s r j h, fet0_3_apply c W t d3 j h, layer0_apply]
  rcases hs with h0 | hs
  · omega
  · rw [if_neg (by omega), hs r j h, hk, ← Cert.TileSum.partialSum_succ, Cert.TileSum.partialSum_full 1024 _ (19 + 1) (by decide)]

theorem steps0 (c : Dev nD) (W : Valuation τ sig (Elt Ideal)) :
    Hand.Steps0 (fun (_ : Dev nD) (b : Ref sig .tc) => W b) (PW0 W) c where
  init s := Or.inl rfl
  step t d0 d1 d2 s hs := by
    by_cases hlast : (t.val + 1) % 20 = 0
    · exact Or.inl hlast
    · refine Or.inr fun r j h => ?_
      have hq : (t.val + 1) / 20 = t.val / 20 := by omega
      have hm : (t.val + 1) % 20 = t.val % 20 + 1 := by omega
      have h' : t.val / 20 * 1024 + j.val < 5000 := by rw [← hq]; exact h
      have hcol : (⟨(t.val + 1) / 20 * 1024 + j.val, h⟩ : Fin 5000) = ⟨t.val / 20 * 1024 + j.val, h'⟩ := by
        apply Fin.ext; show (t.val + 1) / 20 * 1024 + j.val = t.val / 20 * 1024 + j.val; rw [hq]
      rw [hcol, hm, Cert.TileSum.partialSum_succ, acc0_apply c W t d0 d1 d2 s r j h']
      by_cases h0 : t.val % 20 = 0
      · rw [if_pos h0, h0, Cert.TileSum.partialSum_zero]
      · rcases hs with h0' | hs
        · exact absurd h0' h0
        · rw [if_neg h0, hs r j h']
  last t d0 d1 d2 d3 O s hs hc := by
    have hk : t.val % 20 = 19 := (conds0 t).2.mp hc
    obtain ⟨e0, e1, x0, x1⟩ := win0_4_facts t
    show (cfg0.win 4).cut (grid0.coords t) _ = ((cfg0.win 4).blk t).view.read (Elt Ideal) (layer0 W)
    funext y
    have y0 : (y 0).val < win0_4.xsize (grid0.coords t) (0 : Fin 2) := (y 0).isLt
    have y1 : (y 1).val < win0_4.xsize (grid0.coords t) (1 : Fin 2) := (y 1).isLt
    rw [x0] at y0; rw [x1] at y1
    have hr : (y 0).val < 512 := y0
    have hj : (y 1).val < 1024 := by omega
    have hcol : t.val / 20 * 1024 + (y 1).val < 5000 := by omega
    have hx : (cfg0.win 4).xinj (grid0.coords t) y = ix2 (⟨(y 0).val, hr⟩ : Fin 512) (⟨(y 1).val, hj⟩ : Fin 1024) :=
      funext fun a => Fin.ext (by match a with | ⟨0, _⟩ => rfl | ⟨1, _⟩ => rfl)
    have he : ((cfg0.win 4).blk t).view.emb y = ix2 (⟨(y 0).val, hr⟩ : Fin 512) (⟨t.val / 20 * 1024 + (y 1).val, hcol⟩ : Fin 5000) :=
      funext fun a => Fin.ext (by
        match a with
        | ⟨0, _⟩ => show win0_4.index t (0 : Fin 2) * 512 + 1 * (y 0).val = (y 0).val; rw [e0]; omega
        | ⟨1, _⟩ => show win0_4.index t (1 : Fin 2) * 1024 + 1 * (y 1).val = t.val / 20 * 1024 + (y 1).val; rw [e1]; omega)
    show Hand.out0 _ _ _ _ _ O s ((cfg0.win 4).xinj (grid0.coords t) y) = layer0 W (((cfg0.win 4).blk t).view.emb y)
    rw [hx, he]
    exact out0_apply c W t hk d0 d1 d2 d3 O s hs ⟨(y 0).val, hr⟩ ⟨(y 1).val, hj⟩ hcol

theorem rel0 (c : Dev nD) (W : Valuation τ sig (Elt Ideal)) (Fo : Buf (Elt Ideal) ((c : Thread nD τ).loc main_v4))
    (h : (Hand.rdat0 (fun (_ : Dev nD) (b : Ref sig .tc) => W b) (PW0 W) c).ArrAt 4 cfg0.N Fo) : Qv0 c W Fo := by
  unfold Qv0
  refine Cert.Cover.arrAt_eq_of_cover (Hand.rdat0 (fun (_ : Dev nD) (b : Ref sig .tc) => W b) (PW0 W) c) 4 (layer0 W) ?_ ?_ Fo h
  · intro u hf X hX
    obtain ⟨Y, _, ha⟩ := hX
    have hc : Hand.cond0_1 (grid0.coords u) := (conds0 u).2.mpr ((flush0_4 u).mp hf)
    exact ha.1 hc
  · intro (i : S512x5000.Idx)
    have hi0 : (i 0).val < 512 := (i 0).isLt
    have hi1 : (i 1).val < 5000 := (i 1).isLt
    have hlt : (i 1).val / 1024 * 20 + 19 < cfg0.N := by show _ < 100; omega
    obtain ⟨e0, e1, x0, x1⟩ := win0_4_facts ⟨(i 1).val / 1024 * 20 + 19, hlt⟩
    have hq : ((i 1).val / 1024 * 20 + 19) / 20 = (i 1).val / 1024 := by omega
    refine ⟨⟨(i 1).val / 1024 * 20 + 19, hlt⟩, (flush0_4 _).mpr (by show ((i 1).val / 1024 * 20 + 19) % 20 = 19; omega), ?_⟩
    show i ∈ ((View.whole main_v4).slice (win0_4.rect ⟨(i 1).val / 1024 * 20 + 19, hlt⟩)).set
    rw [View.set_slice_whole, Rect.mem_set_unit]
    intro a
    match a with
    | ⟨0, _⟩ =>
      show win0_4.index ⟨(i 1).val / 1024 * 20 + 19, hlt⟩ (0 : Fin 2) * 512 ≤ (i 0).val
        ∧ (i 0).val < win0_4.index ⟨(i 1).val / 1024 * 20 + 19, hlt⟩ (0 : Fin 2) * 512 + win0_4.xsize (grid0.coords ⟨(i 1).val / 1024 * 20 + 19, hlt⟩) (0 : Fin 2)
      rw [e0, x0]; omega
    | ⟨1, _⟩ =>
      show win0_4.index ⟨(i 1).val / 1024 * 20 + 19, hlt⟩ (1 : Fin 2) * 1024 ≤ (i 1).val
        ∧ (i 1).val < win0_4.index ⟨(i 1).val / 1024 * 20 + 19, hlt⟩ (1 : Fin 2) * 1024 + win0_4.xsize (grid0.coords ⟨(i 1).val / 1024 * 20 + 19, hlt⟩) (1 : Fin 2)
      rw [e1, x1]
      show ((i 1).val / 1024 * 20 + 19) / 20 * 1024 ≤ (i 1).val ∧ (i 1).val < ((i 1).val / 1024 * 20 + 19) / 20 * 1024 + min 1024 (5000 - ((i 1).val / 1024 * 20 + 19) / 20 * 1024)
      rw [hq]; omega

end Cert.KernelIdeal.HandI.R0

end
-- ==== Proof.KI.IdealMasked.lean ====
import proofs.«128469_j53695681135127_2_alg».proof.Proof.KI.Obl1
import proofs.«128469_j53695681135127_2_alg».proof.Proof.KI.Obl2
import proofs.«128469_j53695681135127_2_alg».proof.Proof.KI.Obl3
import proofs.«128469_j53695681135127_2_alg».proof.Proof.KI.RelI
import proofs.«128469_j53695681135127_2_alg».proof.Proof.Spec
import proofs.«128469_j53695681135127_2_alg».proof.Proof.TileSum
import proofs.«128469_j53695681135127_2_alg».proof.Proof.Cover
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.HandI

open Cert.KernelIdeal Cert.KernelIdeal.Gen
open Idealize.ShloMosaic Idealize.ShloMosaic.TcCoe Idealize.ShloMosaic.ValueIdx
open Idealize.SL.Sem
open Idealize.ShloMosaic.Pipeline (Dat RDat Cfg Window cellOf)

/-- With `nt` tiles of 1024 positions and contraction length `K`, the signed comparison of the words is that of the numbers. -/
theorem mask_lt (nt K k kk : ℕ) (hnt : nt * 1024 ≤ 2 ^ 30) (hK : K < 2 ^ 31) (hk : k < nt) (hkk : kk < 1024) :
    IntOp.cmpi .slt (IntOp.addi (Scalar.muli (BitVec.ofNat 32 k) 1024#32) (BitVec.ofNat 32 kk)) (BitVec.ofNat 32 K) = 1#1
      ↔ k * 1024 + kk < K := by
  have e : (IntOp.addi (Scalar.muli (BitVec.ofNat 32 k) 1024#32) (BitVec.ofNat 32 kk)).toNat = k * 1024 + kk := by
    unfold IntOp.addi Scalar.muli IntOp.muli
    rw [BitVec.toNat_add, BitVec.toNat_mul, BitVec.toNat_ofNat, BitVec.toNat_ofNat, BitVec.toNat_ofNat]
    simp only [Nat.reducePow]
    omega
  have e2 : (BitVec.ofNat 32 K).toNat = K := by
    rw [BitVec.toNat_ofNat]; exact Nat.mod_eq_of_lt (by omega)
  rw [StableHlo.Predicate.slt_iff_toNat (by rw [e]; omega) (by rw [e2]; omega), e, e2]

theorem lhs_dot_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_dot_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_dot_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_dot_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A 512 × 1024 by 1024 × 512 product onto zeros, at row `r` and column `j`, is the sum over the 1024 positions. -/
theorem matmul_apply (l : FVec Ideal S512x1024 .bf16) (rr : FVec Ideal S1024x512 .bf16) (r j : Fin 512) :
    FloatOps.matmul dot_S512x1024_S1024x512_S512x512_1_0_0_1_n_n none l rr (constant (F := Ideal) S512x512 .f32 0x00000000#32) (ix2 r j)
      = ∑ k : Fin 1024, l (ix2 r k) * rr (ix2 k j) := by
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r j) ((ValueIdx.contrEquiv1 dot_S512x1024_S1024x512_S512x512_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x512_S512x512_1_0_0_1_n_n.rhsIdx (ix2 r j) ((ValueIdx.contrEquiv1 dot_S512x1024_S1024x512_S512x512_1_0_0_1_n_n 1024 rfl rfl).symm k) = ix2 k j := funext fun a => Fin.ext (by
    match a with
    | ⟨0, _⟩ => exact (rhs_dot_0 _ _).trans hk
    | ⟨1, _⟩ => exact rhs_dot_1 _ _)
  rw [el, er]

/-- One masked layer read tile by tile: `nt` tiles of 1024 positions for each block of 512 result columns. -/
structure Layer (nt K M N : ℕ) where
  x : Cert.Net.Mat 512 K
  w : Cert.Net.Mat M K
  a : Cert.Net.Mat K M
  b : Cert.Net.Mat 1 M
  fX : Fin N → Vec Ideal S512x1024 .f32 → Vec Ideal S512x1024 .f32
  fW : Fin N → Vec Ideal S512x1024 .f32 → Vec Ideal S512x1024 .f32
  fA : Fin N → Vec Ideal S1024x512 .f32 → Vec Ideal S1024x512 .f32
  fB : Fin N → Vec Ideal S1x512 .f32 → Vec Ideal S1x512 .f32
  acc : Fin N → Vec Ideal S512x1024 .f32 → Vec Ideal S512x1024 .f32 → Vec Ideal S1024x512 .f32 → Vec Ideal S512x512 .f32 → Vec Ideal S512x512 .f32
  acc_eq : ∀ t X Wb A s (r j : Fin 512), acc t X Wb A s (ix2 r j)
    = (if t.val % nt = 0 then 0 else s (ix2 r j))
      + ∑ k : Fin 1024, X (ix2 r k) * (Wb (ix2 j k) * (if (t.val % nt) * 1024 + k.val < K then A (ix2 k j) else 0))
  fX_eq : ∀ t d (r : Fin 512) (kk : Fin 1024) (κ : Fin K), κ.val = (t.val % nt) * 1024 + kk.val → fX t d (ix2 r kk) = x (ix2 r κ)
  fW_eq : ∀ t d (j : Fin 512) (kk : Fin 1024) (col : Fin M) (κ : Fin K), col.val = (t.val / nt) * 512 + j.val →
    κ.val = (t.val % nt) * 1024 + kk.val → fW t d (ix2 j kk) = w (ix2 col κ)
  fA_eq : ∀ t d (j : Fin 512) (kk : Fin 1024) (col : Fin M) (κ : Fin K), col.val = (t.val / nt) * 512 + j.val →
    κ.val = (t.val % nt) * 1024 + kk.val → fA t d (ix2 kk j) = a (ix2 κ col)
  fB_eq : ∀ t d (j : Fin 512) (col : Fin M), col.val = (t.val / nt) * 512 + j.val → fB t d (ix2 (0 : Fin 1) j) = b (ix2 (0 : Fin 1) col)

namespace Layer

variable {nt K M N : ℕ} (L : Layer nt K M N)

/-- The layer's term at row `r`, column `col` and position `κ`. -/
def term (r : Fin 512) (col : Fin M) : Fin K → EReal :=
  fun κ => L.x (ix2 r κ) * (L.w (ix2 col κ) * L.a (ix2 κ col))

/-- One tile adds its part of the layer's sum: a position past the contraction's end contributes `x · (w · 0)`. -/
theorem acc_tile (t : Fin N) (d0 d1 : Vec Ideal S512x1024 .f32) (d2 : Vec Ideal S1024x512 .f32) (s : Vec Ideal S512x512 .f32)
    (r j : Fin 512) (col : Fin M) (hcol : col.val = (t.val / nt) * 512 + j.val) :
    L.acc t (L.fX t d0) (L.fW t d1) (L.fA t d2) s (ix2 r j)
      = (if t.val % nt = 0 then 0 else s (ix2 r j)) + Cert.TileSum.tileSum 1024 (L.term r col) (t.val % nt) := by
  rw [L.acc_eq]
  congr 1
  unfold Cert.TileSum.tileSum
  refine Finset.sum_congr rfl fun kk _ => ?_
  by_cases h : (t.val % nt) * 1024 + kk.val < K
  · rw [if_pos h, dif_pos h, L.fX_eq t d0 r kk ⟨_, h⟩ rfl, L.fW_eq t d1 j kk col ⟨_, h⟩ hcol rfl, L.fA_eq t d2 j kk col ⟨_, h⟩ hcol rfl]
    rfl
  · rw [if_neg h, dif_neg h, Cert.TileSum.masked_term]

/-- After `n` points: nothing between two block columns; inside one, the layer's sum over the tiles so far. -/
def Pacc (n : ℕ) (s : Vec Ideal S512x512 .f32) : Prop :=
  n % nt = 0 ∨ ∀ (r j : Fin 512) (col : Fin M), col.val = (n / nt) * 512 + j.val →
    s (ix2 r j) = Cert.TileSum.partialSum 1024 (L.term r col) (n % nt)

theorem acc_partial (t : Fin N) (d0 d1 : Vec Ideal S512x1024 .f32) (d2 : Vec Ideal S1024x512 .f32) (s : Vec Ideal S512x512 .f32)
    (hs : L.Pacc t.val s) (r j : Fin 512) (col : Fin M) (hcol : col.val = (t.val / nt) * 512 + j.val) :
    L.acc t (L.fX t d0) (L.fW t d1) (L.fA t d2) s (ix2 r j) = Cert.TileSum.partialSum 1024 (L.term r col) (t.val % nt + 1) := by
  rw [L.acc_tile t d0 d1 d2 s r j col hcol, Cert.TileSum.partialSum_succ]
  congr 1
  by_cases h0 : t.val % nt = 0
  · rw [if_pos h0, h0, Cert.TileSum.partialSum_zero]
  · rw [if_neg h0]
    rcases hs with h | h
    · exact absurd h h0
    · exact h r j col hcol

theorem step (hdiv : ∀ n, (n + 1) % nt ≠ 0 → (n + 1) / nt = n / nt ∧ (n + 1) % nt = n % nt + 1)
    (t : Fin N) (d0 d1 : Vec Ideal S512x1024 .f32) (d2 : Vec Ideal S1024x512 .f32) (s : Vec Ideal S512x512 .f32) (hs : L.Pacc t.val s) :
    L.Pacc (t.val + 1) (L.acc t (L.fX t d0) (L.fW t d1) (L.fA t d2) s) := by
  by_cases hn : (t.val + 1) % nt = 0
  · exact Or.inl hn
  · obtain ⟨e1, e2⟩ := hdiv t.val hn
    refine Or.inr fun r j col hcol => ?_
    rw [e1] at hcol
    rw [e2]
    exact L.acc_partial t d0 d1 d2 s hs r j col hcol

/-- At a block column's last tile the sum is complete: with the bias, clamped below at zero, it is the layer. -/
theorem last (hK : K ≤ nt * 1024) (t : Fin N) (d0 d1 : Vec Ideal S512x1024 .f32) (d2 : Vec Ideal S1024x512 .f32) (d3 : Vec Ideal S1x512 .f32)
    (s : Vec Ideal S512x512 .f32) (hlast : t.val % nt + 1 = nt) (hs : L.Pacc t.val s) (r j : Fin 512) (col : Fin M)
    (hcol : col.val = (t.val / nt) * 512 + j.val) :
    max (L.acc t (L.fX t d0) (L.fW t d1) (L.fA t d2) s (ix2 r j) + L.fB t d3 (ix2 (0 : Fin 1) j)) 0
      = Cert.Net.mlayer L.x L.w L.a L.b (ix2 r col) := by
  rw [L.acc_partial t d0 d1 d2 s hs r j col hcol, L.fB_eq t d3 j col hcol, hlast, Cert.TileSum.partialSum_full 1024 _ nt hK]
  rfl

end Layer

namespace R1

theorem matmul1_apply (l : FVec Ideal S512x1024 .bf16) (rr : FVec Ideal S1024x512 .bf16) (r j : Fin 512) :
    FloatOps.matmul dot_S512x1024_S1024x512_S512x512_1_0_0_1_n_n none l rr (constant (F := Ideal) S512x512 .f32 0x00000000#32) (ix2 r j)
      = ∑ k : Fin 1024, l (ix2 r k) * rr (ix2 k j) := matmul_apply l rr r j

theorem mask1 (k kk : ℕ) (hk : k < 5) (hkk : kk < 1024) :
    IntOp.cmpi .slt (IntOp.addi (Scalar.muli (BitVec.ofNat 32 k) 1024#32) (BitVec.ofNat 32 kk)) 5000#32 = 1#1 ↔ k * 1024 + kk < 5000 :=
  mask_lt 5 5000 k kk (by decide) (by decide) hk hkk

theorem payZero_apply (y : S512x512.Idx) : k1_pay1 (F := Ideal) y = 0 := by
  unfold k1_pay1
  simp only [shapeCast_self]
  exact Ideal.ofBits_zero_f32

theorem payOut_apply (S : Vec Ideal S512x512 .f32) (B : Vec Ideal S1x512 .f32) (r j : Fin 512) :
    k1_pay3 (F := Ideal) S B (ix2 r j) = max (S (ix2 r j) + B (ix2 (0 : Fin 1) j)) 0 := by
  unfold k1_pay3
  simp only [shapeCast_self]
  refine (maximumf_apply _ _ _).trans ?_
  show max (S (ix2 r j) + broadcastTo S512x512 B broadcasts_S1x512_S512x512 (ix2 r j)) (Ideal.ofBits .f32 0x00000000#32) = _
  rw [broadcastTo_1b_ab_apply, Ideal.ofBits_zero_f32]

theorem coords1 : ∀ t : Fin cfg1.N, ((grid1.coords t) 0).val = t.val / 5 ∧ ((grid1.coords t) 1).val = t.val % 5 :=
  (by decide +kernel : ∀ t : Fin grid1.N, ((grid1.coords t) 0).val = t.val / 5 ∧ ((grid1.coords t) 1).val = t.val % 5)

theorem cond1_0_iff : ∀ t : Fin cfg1.N, Hand.cond1_0 (grid1.coords t) ↔ t.val % 5 = 0 :=
  (by decide +kernel : ∀ t : Fin grid1.N, Hand.cond1_0 (grid1.coords t) ↔ t.val % 5 = 0)

theorem cond1_1_iff : ∀ t : Fin cfg1.N, Hand.cond1_1 (grid1.coords t) ↔ t.val % 5 = 4 :=
  (by decide +kernel : ∀ t : Fin grid1.N, Hand.cond1_1 (grid1.coords t) ↔ t.val % 5 = 4)

theorem N1 : cfg1.N = 30 := by decide +kernel

theorem win_facts1 : ∀ t : Fin cfg1.N,
    (win1_0.index t (0 : Fin 2) = 0 ∧ win1_0.index t (1 : Fin 2) = t.val % 5
      ∧ win1_0.xsize (grid1.coords t) (0 : Fin 2) = 512 ∧ win1_0.xsize (grid1.coords t) (1 : Fin 2) = min 1024 (5000 - (t.val % 5) * 1024))
    ∧ (win1_1.index t (0 : Fin 2) = t.val / 5 ∧ win1_1.index t (1 : Fin 2) = t.val % 5
      ∧ win1_1.xsize (grid1.coords t) (0 : Fin 2) = min 512 (3000 - (t.val / 5) * 512) ∧ win1_1.xsize (grid1.coords t) (1 : Fin 2) = min 1024 (5000 - (t.val % 5) * 1024))
    ∧ (win1_2.index t (0 : Fin 2) = t.val % 5 ∧ win1_2.index t (1 : Fin 2) = t.val / 5
      ∧ win1_2.xsize (grid1.coords t) (0 : Fin 2) = min 1024 (5000 - (t.val % 5) * 1024) ∧ win1_2.xsize (grid1.coords t) (1 : Fin 2) = min 512 (3000 - (t.val / 5) * 512))
    ∧ (win1_3.index t (0 : Fin 2) = 0 ∧ win1_3.index t (1 : Fin 2) = t.val / 5
      ∧ win1_3.xsize (grid1.coords t) (0 : Fin 2) = 1 ∧ win1_3.xsize (grid1.coords t) (1 : Fin 2) = min 512 (3000 - (t.val / 5) * 512))
    ∧ (win1_4.index t (0 : Fin 2) = 0 ∧ win1_4.index t (1 : Fin 2) = t.val / 5
      ∧ win1_4.xsize (grid1.coords t) (0 : Fin 2) = 512 ∧ win1_4.xsize (grid1.coords t) (1 : Fin 2) = min 512 (3000 - (t.val / 5) * 512)) :=
  (by decide +kernel : ∀ t : Fin grid1.N, _)

theorem payAcc_apply (i : grid1.Coords) (Wb : Vec Ideal S512x1024 .f32) (A : Vec Ideal S1024x512 .f32) (X : Vec Ideal S512x1024 .f32)
    (S : Vec Ideal S512x512 .f32) (r j : Fin 512) :
    k1_pay2 (F := Ideal) i Wb A X S (ix2 r j)
      = S (ix2 r j) + ∑ k : Fin 1024, X (ix2 r k) * (Wb (ix2 j k) * (if (i 1).val * 1024 + k.val < 5000 then A (ix2 k j) else 0)) := by
  have h5 : (i 1).val < 5 := (i 1).isLt
  unfold k1_pay2
  simp only [shapeCast_self]
  refine (addf_apply _ _ _).trans ?_
  refine congrArg (fun z => S (ix2 r j) + z) ?_
  refine (matmul1_apply _ _ r j).trans ?_
  refine Finset.sum_congr rfl fun k _ => ?_
  show X (ix2 r k) * (transpose S1024x512 [1, 0] Wb transposes_S512x1024_p1_0_S1024x512 (ix2 k j)
      * Scalar.select (IntOp.cmpi .slt (IntOp.addi (Scalar.muli (BitVec.ofNat 32 (i 1).val) 1024#32) (iota .tc S1024x512 32 [0] iota_S1024x512_d0_w32 (ix2 k j))) 5000#32)
          (A (ix2 k j)) (Ideal.ofBits .f32 0x00000000#32)) = _
  rw [transpose_ix2_apply, iota_single_apply, Ideal.ofBits_zero_f32]
  by_cases h : (i 1).val * 1024 + k.val < 5000
  · rw [if_pos h, (mask1 _ _ h5 k.isLt).mpr h, select_one]
  · rw [if_neg h, eq_zero_of_ne_one (fun e => h ((mask1 _ _ h5 k.isLt).mp e)), select_zero]

variable (W : Valuation τ sig (Elt Ideal))

abbrev VW : (c : Dev nD) → (b : Ref sig .tc) → Buf (Elt Ideal) ((c : Thread nD τ).loc b) :=
  fun _ b => W b

abbrev xA : Cert.Net.Mat 512 5000 := W main_v1
abbrev wA : Cert.Net.Mat 3000 5000 := W main_arg7
abbrev aA : Cert.Net.Mat 5000 3000 := W main_arg2
abbrev bA : Cert.Net.Mat 1 3000 := W main_v5

theorem fetX_apply (c : Dev nD) (t : Fin cfg1.N) (d : Vec Ideal S512x1024 .f32) (r : Fin 512) (kk : Fin 1024) (κ : Fin 5000)
    (hκ : κ.val = (t.val % 5) * 1024 + kk.val) :
    Hand.fet1_0 (VW W) c t d (ix2 r kk) = xA W (ix2 r κ) := by
  obtain ⟨⟨e0, e1, x0, x1⟩, -⟩ := win_facts1 t
  have hkk : kk.val < 1024 := kk.isLt
  have hκ' : κ.val < 5000 := κ.isLt
  have hm : (cfg1.win 0).moved (grid1.coords t) (ix2 r kk) = true := by
    rw [Window.moved_iff]; intro a
    match a with
    | ⟨0, _⟩ => show r.val < win1_0.xsize (grid1.coords t) (0 : Fin 2); rw [x0]; exact r.isLt
    | ⟨1, _⟩ => show kk.val < win1_0.xsize (grid1.coords t) (1 : Fin 2); rw [x1]; omega
  unfold Hand.fet1_0 Window.fill
  rw [dif_pos hm]
  show W main_v1 (((cfg1.win 0).blk t).view.emb _) = W main_v1 (ix2 r κ)
  refine congrArg (W main_v1) (funext fun a => Fin.ext ?_)
  match a with
  | ⟨0, _⟩ => show win1_0.index t (0 : Fin 2) * 512 + 1 * r.val = r.val; rw [e0]; omega
  | ⟨1, _⟩ => show win1_0.index t (1 : Fin 2) * 1024 + 1 * kk.val = κ.val; rw [e1]; omega

theorem fetW_apply (c : Dev nD) (t : Fin cfg1.N) (d : Vec Ideal S512x1024 .f32) (j : Fin 512) (kk : Fin 1024) (col : Fin 3000) (κ : Fin 5000)
    (hcol : col.val = (t.val / 5) * 512 + j.val) (hκ : κ.val = (t.val % 5) * 1024 + kk.val) :
    Hand.fet1_1 (VW W) c t d (ix2 j kk) = wA W (ix2 col κ) := by
  obtain ⟨-, ⟨e0, e1, x0, x1⟩, -⟩ := win_facts1 t
  have hkk : kk.val < 1024 := kk.isLt
  have hj : j.val < 512 := j.isLt
  have hκ' : κ.val < 5000 := κ.isLt
  have hcol' : col.val < 3000 := col.isLt
  have hm : (cfg1.win 1).moved (grid1.coords t) (ix2 j kk) = true := by
    rw [Window.moved_iff]; intro a
    match a with
    | ⟨0, _⟩ => show j.val < win1_1.xsize (grid1.coords t) (0 : Fin 2); rw [x0]; omega
    | ⟨1, _⟩ => show kk.val < win1_1.xsize (grid1.coords t) (1 : Fin 2); rw [x1]; omega
  unfold Hand.fet1_1 Window.fill
  rw [dif_pos hm]
  show W main_arg7 (((cfg1.win 1).blk t).view.emb _) = W main_arg7 (ix2 col κ)
  refine congrArg (W main_arg7) (funext fun a => Fin.ext ?_)
  match a with
  | ⟨0, _⟩ => show win1_1.index t (0 : Fin 2) * 512 + 1 * j.val = col.val; rw [e0]; omega
  | ⟨1, _⟩ => show win1_1.index t (1 : Fin 2) * 1024 + 1 * kk.val = κ.val; rw [e1]; omega

theorem fetA_apply (c : Dev nD) (t : Fin cfg1.N) (d : Vec Ideal S1024x512 .f32) (j : Fin 512) (kk : Fin 1024) (col : Fin 3000) (κ : Fin 5000)
    (hcol : col.val = (t.val / 5) * 512 + j.val) (hκ : κ.val = (t.val % 5) * 1024 + kk.val) :
    Hand.fet1_2 (VW W) c t d (ix2 kk j) = aA W (ix2 κ col) := by
  obtain ⟨-, -, ⟨e0, e1, x0, x1⟩, -⟩ := win_facts1 t
  have hkk : kk.val < 1024 := kk.isLt
  have hj : j.val < 512 := j.isLt
  have hκ' : κ.val < 5000 := κ.isLt
  have hcol' : col.val < 3000 := col.isLt
  have hm : (cfg1.win 2).moved (grid1.coords t) (ix2 kk j) = true := by
    rw [Window.moved_iff]; intro a
    match a with
    | ⟨0, _⟩ => show kk.val < win1_2.xsize (grid1.coords t) (0 : Fin 2); rw [x0]; omega
    | ⟨1, _⟩ => show j.val < win1_2.xsize (grid1.coords t) (1 : Fin 2); rw [x1]; omega
  unfold Hand.fet1_2 Window.fill
  rw [dif_pos hm]
  show W main_arg2 (((cfg1.win 2).blk t).view.emb _) = W main_arg2 (ix2 κ col)
  refine congrArg (W main_arg2) (funext fun a => Fin.ext ?_)
  match a with
  | ⟨0, _⟩ => show win1_2.index t (0 : Fin 2) * 1024 + 1 * kk.val = κ.val; rw [e0]; omega
  | ⟨1, _⟩ => show win1_2.index t (1 : Fin 2) * 512 + 1 * j.val = col.val; rw [e1]; omega

theorem fetB_apply (c : Dev nD) (t : Fin cfg1.N) (d : Vec Ideal S1x512 .f32) (j : Fin 512) (col : Fin 3000)
    (hcol : col.val = (t.val / 5) * 512 + j.val) :
    Hand.fet1_3 (VW W) c t d (ix2 (0 : Fin 1) j) = bA W (ix2 (0 : Fin 1) col) := by
  obtain ⟨-, -, -, ⟨e0, e1, x0, x1⟩, -⟩ := win_facts1 t
  have hj : j.val < 512 := j.isLt
  have hcol' : col.val < 3000 := col.isLt
  have hm : (cfg1.win 3).moved (grid1.coords t) (ix2 (0 : Fin 1) j) = true := by
    rw [Window.moved_iff]; intro a
    match a with
    | ⟨0, _⟩ => show (0 : Fin 1).val < win1_3.xsize (grid1.coords t) (0 : Fin 2); rw [x0]; exact Nat.one_pos
    | ⟨1, _⟩ => show j.val < win1_3.xsize (grid1.coords t) (1 : Fin 2); rw [x1]; omega
  unfold Hand.fet1_3 Window.fill
  rw [dif_pos hm]
  show W main_v5 (((cfg1.win 3).blk t).view.emb _) = W main_v5 (ix2 (0 : Fin 1) col)
  refine congrArg (W main_v5) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 512 + 1 * j.val = col.val; rw [e1]; omega

/-- Region 1 as a layer read tile by tile. -/
def L1 (c : Dev nD) : Layer 5 5000 3000 cfg1.N where
  x := xA W
  w := wA W
  a := aA W
  b := bA W
  fX := Hand.fet1_0 (VW W) c
  fW := Hand.fet1_1 (VW W) c
  fA := Hand.fet1_2 (VW W) c
  fB := Hand.fet1_3 (VW W) c
  acc t := Hand.acc1 (grid1.coords t)
  acc_eq t X Wb A s r j := by
    obtain ⟨-, hk⟩ := coords1 t
    unfold Hand.acc1
    rw [payAcc_apply]
    congr 1
    · by_cases h0 : t.val % 5 = 0
      · rw [if_pos h0, if_pos ((cond1_0_iff t).mpr h0), payZero_apply]
      · rw [if_neg h0, if_neg (fun h => h0 ((cond1_0_iff t).mp h))]
    · rw [hk]
  fX_eq := fetX_apply W c
  fW_eq := fetW_apply W c
  fA_eq := fetA_apply W c
  fB_eq := fetB_apply W c

def PW1 : Hand.Preds1 Ideal where
  Pacc c n s := (L1 W c).Pacc n s
  Pout c t X := (cfg1.win (4 : Fin cfg1.W)).cut (grid1.coords t) X
    = ((cfg1.win (4 : Fin cfg1.W)).blk t).view.read (Elt Ideal) (Cert.Net.mlayer (xA W) (wA W) (aA W) (bA W))

theorem steps1 (c : Dev nD) : Hand.Steps1 (VW W) (PW1 W) c where
  init s := Or.inl (Nat.zero_mod 5)
  step t d0 d1 d2 s hs := (L1 W c).step (fun n h => by omega) t d0 d1 d2 s hs
  last t d0 d1 d2 d3 O s hs hc := by
    have h4 : t.val % 5 = 4 := (cond1_1_iff t).mp hc
    obtain ⟨-, -, -, -, ⟨e0, e1, x0, x1⟩⟩ := win_facts1 t
    show (cfg1.win (4 : Fin cfg1.W)).cut (grid1.coords t) _ = _
    funext y
    have hy0 : (y 0).val < 512 := by
      have := (y 0).isLt
      change (y 0).val < win1_4.xsize (grid1.coords t) (0 : Fin 2) at this
      rw [x0] at this; exact this
    have hy1 : (y 1).val < min 512 (3000 - (t.val / 5) * 512) := by
      have := (y 1).isLt
      change (y 1).val < win1_4.xsize (grid1.coords t) (1 : Fin 2) at this
      rw [x1] at this; exact this
    have hcolb : (t.val / 5) * 512 + (y 1).val < 3000 := by omega
    have ey : ((cfg1.win (4 : Fin cfg1.W)).blk t).view.emb y = ix2 (⟨(y 0).val, hy0⟩ : Fin 512) (⟨(t.val / 5) * 512 + (y 1).val, hcolb⟩ : Fin 3000) := by
      funext a; apply Fin.ext
      match a with
      | ⟨0, _⟩ => show win1_4.index t (0 : Fin 2) * 512 + 1 * (y 0).val = (y 0).val; rw [e0]; omega
      | ⟨1, _⟩ => show win1_4.index t (1 : Fin 2) * 512 + 1 * (y 1).val = (t.val / 5) * 512 + (y 1).val; rw [e1]; omega
    have hy1' : (y 1).val < 512 := by omega
    have ex : (cfg1.win (4 : Fin cfg1.W)).xinj (grid1.coords t) y = ix2 (⟨(y 0).val, hy0⟩ : Fin 512) (⟨(y 1).val, hy1'⟩ : Fin 512) := by
      funext a; apply Fin.ext
      match a with
      | ⟨0, _⟩ => rfl
      | ⟨1, _⟩ => rfl
    show Hand.out1 (grid1.coords t) _ _ _ _ O s ((cfg1.win (4 : Fin cfg1.W)).xinj (grid1.coords t) y)
      = Cert.Net.mlayer (xA W) (wA W) (aA W) (bA W) (((cfg1.win (4 : Fin cfg1.W)).blk t).view.emb y)
    rw [ex, ey]
    unfold Hand.out1
    rw [if_pos hc, payOut_apply]
    exact (L1 W c).last (by decide) t d0 d1 d2 d3 s (by omega) hs _ _ ⟨_, hcolb⟩ rfl

theorem mem_blk1 (t : Fin cfg1.N) (i : S512x3000.Idx) :
    i ∈ ((cfg1.win (4 : Fin cfg1.W)).blk t).view.set ↔ ∀ a : Fin 2, win1_4.index t a * S512x512.size a ≤ (i a).val
      ∧ (i a).val < win1_4.index t a * S512x512.size a + win1_4.xsize (grid1.coords t) a := by
  show i ∈ ((View.whole main_v6).slice (win1_4.rect t)).set ↔ _
  rw [View.set_slice_whole, Rect.mem_set_unit]
  exact Iff.rfl

theorem rel1 (c : Dev nD) (Fo : Buf (Elt Ideal) ((c : Thread nD τ).loc main_v6))
    (h : (Hand.rdat1 (VW W) (PW1 W) c).ArrAt (4 : Fin cfg1.W) cfg1.N Fo) : Qv1 c W Fo := by
  unfold Qv1
  refine Cert.Cover.arrAt_eq_of_cover (Hand.rdat1 (VW W) (PW1 W) c) (4 : Fin cfg1.W)
    (Cert.Net.mlayer (xA W) (wA W) (aA W) (bA W)) ?_ ?_ Fo h
  · intro u hf X hX
    obtain ⟨Y, -, ha⟩ := hX
    exact ha.1 ((cond1_1_iff u).mpr ((flush1_4 u).mp hf))
  · intro i
    have hi0 : (i 0).val < 512 := (i 0).isLt
    have hi1 : (i 1).val < 3000 := (i 1).isLt
    have hN : ((i 1).val / 512) * 5 + 4 < cfg1.N := by rw [N1]; omega
    refine ⟨⟨((i 1).val / 512) * 5 + 4, hN⟩, (flush1_4 _).mpr (by show (((i 1).val / 512) * 5 + 4) % 5 = 4; omega), ?_⟩
    obtain ⟨-, -, -, -, ⟨e0, e1, x0, x1⟩⟩ := win_facts1 ⟨((i 1).val / 512) * 5 + 4, hN⟩
    have q : (((i 1).val / 512) * 5 + 4) / 5 = (i 1).val / 512 := by omega
    rw [mem_blk1]
    intro a
    match a with
    | ⟨0, _⟩ =>
      show win1_4.index _ (0 : Fin 2) * 512 ≤ (i 0).val ∧ (i 0).val < win1_4.index _ (0 : Fin 2) * 512 + win1_4.xsize _ (0 : Fin 2)
      rw [e0, x0]; omega
    | ⟨1, _⟩ =>
      show win1_4.index _ (1 : Fin 2) * 512 ≤ (i 1).val ∧ (i 1).val < win1_4.index _ (1 : Fin 2) * 512 + win1_4.xsize _ (1 : Fin 2)
      rw [e1, x1]
      show (((i 1).val / 512) * 5 + 4) / 5 * 512 ≤ (i 1).val ∧ (i 1).val < (((i 1).val / 512) * 5 + 4) / 5 * 512 + min 512 (3000 - (((i 1).val / 512) * 5 + 4) / 5 * 512)
      rw [q]; omega

end R1

namespace R2

theorem matmul2_apply (l : FVec Ideal S512x1024 .bf16) (rr : FVec Ideal S1024x512 .bf16) (r j : Fin 512) :
    FloatOps.matmul dot_S512x1024_S1024x512_S512x512_1_0_0_1_n_n none l rr (constant (F := Ideal) S512x512 .f32 0x00000000#32) (ix2 r j)
      = ∑ k : Fin 1024, l (ix2 r k) * rr (ix2 k j) := matmul_apply l rr r j

theorem mask2 (k kk : ℕ) (hk : k < 8) (hkk : kk < 1024) :
    IntOp.cmpi .slt (IntOp.addi (Scalar.muli (BitVec.ofNat 32 k) 1024#32) (BitVec.ofNat 32 kk)) 8000#32 = 1#1 ↔ k * 1024 + kk < 8000 :=
  mask_lt 8 8000 k kk (by decide) (by decide) hk hkk

theorem payZero_apply (y : S512x512.Idx) : k2_pay1 (F := Ideal) y = 0 := R1.payZero_apply y

theorem payOut_apply (S : Vec Ideal S512x512 .f32) (B : Vec Ideal S1x512 .f32) (r j : Fin 512) :
    k2_pay3 (F := Ideal) S B (ix2 r j) = max (S (ix2 r j) + B (ix2 (0 : Fin 1) j)) 0 := R1.payOut_apply S B r j

theorem coords2 : ∀ t : Fin cfg2.N, ((grid2.coords t) 0).val = t.val / 8 ∧ ((grid2.coords t) 1).val = t.val % 8 :=
  (by decide +kernel : ∀ t : Fin grid2.N, ((grid2.coords t) 0).val = t.val / 8 ∧ ((grid2.coords t) 1).val = t.val % 8)

theorem cond2_0_iff : ∀ t : Fin cfg2.N, Hand.cond2_0 (grid2.coords t) ↔ t.val % 8 = 0 :=
  (by decide +kernel : ∀ t : Fin grid2.N, Hand.cond2_0 (grid2.coords t) ↔ t.val % 8 = 0)

theorem cond2_1_iff : ∀ t : Fin cfg2.N, Hand.cond2_1 (grid2.coords t) ↔ t.val % 8 = 7 :=
  (by decide +kernel : ∀ t : Fin grid2.N, Hand.cond2_1 (grid2.coords t) ↔ t.val % 8 = 7)

theorem N2 : cfg2.N = 48 := by decide +kernel

theorem win_facts2 : ∀ t : Fin cfg2.N,
    (win2_0.index t (0 : Fin 2) = 0 ∧ win2_0.index t (1 : Fin 2) = t.val % 8
      ∧ win2_0.xsize (grid2.coords t) (0 : Fin 2) = 512 ∧ win2_0.xsize (grid2.coords t) (1 : Fin 2) = min 1024 (8000 - (t.val % 8) * 1024))
    ∧ (win2_1.index t (0 : Fin 2) = t.val / 8 ∧ win2_1.index t (1 : Fin 2) = t.val % 8
      ∧ win2_1.xsize (grid2.coords t) (0 : Fin 2) = min 512 (3000 - (t.val / 8) * 512) ∧ win2_1.xsize (grid2.coords t) (1 : Fin 2) = min 1024 (8000 - (t.val % 8) * 1024))
    ∧ (win2_2.index t (0 : Fin 2) = t.val % 8 ∧ win2_2.index t (1 : Fin 2) = t.val / 8
      ∧ win2_2.xsize (grid2.coords t) (0 : Fin 2) = min 1024 (8000 - (t.val % 8) * 1024) ∧ win2_2.xsize (grid2.coords t) (1 : Fin 2) = min 512 (3000 - (t.val / 8) * 512))
    ∧ (win2_3.index t (0 : Fin 2) = 0 ∧ win2_3.index t (1 : Fin 2) = t.val / 8
      ∧ win2_3.xsize (grid2.coords t) (0 : Fin 2) = 1 ∧ win2_3.xsize (grid2.coords t) (1 : Fin 2) = min 512 (3000 - (t.val / 8) * 512))
    ∧ (win2_4.index t (0 : Fin 2) = 0 ∧ win2_4.index t (1 : Fin 2) = t.val / 8
      ∧ win2_4.xsize (grid2.coords t) (0 : Fin 2) = 512 ∧ win2_4.xsize (grid2.coords t) (1 : Fin 2) = min 512 (3000 - (t.val / 8) * 512)) :=
  (by decide +kernel : ∀ t : Fin grid2.N, _)

theorem payAcc_apply (i : grid2.Coords) (Wb : Vec Ideal S512x1024 .f32) (A : Vec Ideal S1024x512 .f32) (X : Vec Ideal S512x1024 .f32)
    (S : Vec Ideal S512x512 .f32) (r j : Fin 512) :
    k2_pay2 (F := Ideal) i Wb A X S (ix2 r j)
      = S (ix2 r j) + ∑ k : Fin 1024, X (ix2 r k) * (Wb (ix2 j k) * (if (i 1).val * 1024 + k.val < 8000 then A (ix2 k j) else 0)) := by
  have h5 : (i 1).val < 8 := (i 1).isLt
  unfold k2_pay2
  simp only [shapeCast_self]
  refine (addf_apply _ _ _).trans ?_
  refine congrArg (fun z => S (ix2 r j) + z) ?_
  refine (matmul2_apply _ _ r j).trans ?_
  refine Finset.sum_congr rfl fun k _ => ?_
  show X (ix2 r k) * (transpose S1024x512 [1, 0] Wb transposes_S512x1024_p1_0_S1024x512 (ix2 k j)
      * Scalar.select (IntOp.cmpi .slt (IntOp.addi (Scalar.muli (BitVec.ofNat 32 (i 1).val) 1024#32) (iota .tc S1024x512 32 [0] iota_S1024x512_d0_w32 (ix2 k j))) 8000#32)
          (A (ix2 k j)) (Ideal.ofBits .f32 0x00000000#32)) = _
  rw [transpose_ix2_apply, iota_single_apply, Ideal.ofBits_zero_f32]
  by_cases h : (i 1).val * 1024 + k.val < 8000
  · rw [if_pos h, (mask2 _ _ h5 k.isLt).mpr h, select_one]
  · rw [if_neg h, eq_zero_of_ne_one (fun e => h ((mask2 _ _ h5 k.isLt).mp e)), select_zero]

variable (W : Valuation τ sig (Elt Ideal))

abbrev VW : (c : Dev nD) → (b : Ref sig .tc) → Buf (Elt Ideal) ((c : Thread nD τ).loc b) :=
  fun _ b => W b

abbrev xA : Cert.Net.Mat 512 8000 := W main_v7
abbrev wA : Cert.Net.Mat 3000 8000 := W main_arg9
abbrev aA : Cert.Net.Mat 8000 3000 := W main_arg3
abbrev bA : Cert.Net.Mat 1 3000 := W main_v8

theorem fetX_apply (c : Dev nD) (t : Fin cfg2.N) (d : Vec Ideal S512x1024 .f32) (r : Fin 512) (kk : Fin 1024) (κ : Fin 8000)
    (hκ : κ.val = (t.val % 8) * 1024 + kk.val) :
    Hand.fet2_0 (VW W) c t d (ix2 r kk) = xA W (ix2 r κ) := by
  obtain ⟨⟨e0, e1, x0, x1⟩, -⟩ := win_facts2 t
  have hkk : kk.val < 1024 := kk.isLt
  have hκ' : κ.val < 8000 := κ.isLt
  have hm : (cfg2.win 0).moved (grid2.coords t) (ix2 r kk) = true := by
    rw [Window.moved_iff]; intro a
    match a with
    | ⟨0, _⟩ => show r.val < win2_0.xsize (grid2.coords t) (0 : Fin 2); rw [x0]; exact r.isLt
    | ⟨1, _⟩ => show kk.val < win2_0.xsize (grid2.coords t) (1 : Fin 2); rw [x1]; omega
  unfold Hand.fet2_0 Window.fill
  rw [dif_pos hm]
  show W main_v7 (((cfg2.win 0).blk t).view.emb _) = W main_v7 (ix2 r κ)
  refine congrArg (W main_v7) (funext fun a => Fin.ext ?_)
  match a with
  | ⟨0, _⟩ => show win2_0.index t (0 : Fin 2) * 512 + 1 * r.val = r.val; rw [e0]; omega
  | ⟨1, _⟩ => show win2_0.index t (1 : Fin 2) * 1024 + 1 * kk.val = κ.val; rw [e1]; omega

theorem fetW_apply (c : Dev nD) (t : Fin cfg2.N) (d : Vec Ideal S512x1024 .f32) (j : Fin 512) (kk : Fin 1024) (col : Fin 3000) (κ : Fin 8000)
    (hcol : col.val = (t.val / 8) * 512 + j.val) (hκ : κ.val = (t.val % 8) * 1024 + kk.val) :
    Hand.fet2_1 (VW W) c t d (ix2 j kk) = wA W (ix2 col κ) := by
  obtain ⟨-, ⟨e0, e1, x0, x1⟩, -⟩ := win_facts2 t
  have hkk : kk.val < 1024 := kk.isLt
  have hj : j.val < 512 := j.isLt
  have hκ' : κ.val < 8000 := κ.isLt
  have hcol' : col.val < 3000 := col.isLt
  have hm : (cfg2.win 1).moved (grid2.coords t) (ix2 j kk) = true := by
    rw [Window.moved_iff]; intro a
    match a with
    | ⟨0, _⟩ => show j.val < win2_1.xsize (grid2.coords t) (0 : Fin 2); rw [x0]; omega
    | ⟨1, _⟩ => show kk.val < win2_1.xsize (grid2.coords t) (1 : Fin 2); rw [x1]; omega
  unfold Hand.fet2_1 Window.fill
  rw [dif_pos hm]
  show W main_arg9 (((cfg2.win 1).blk t).view.emb _) = W main_arg9 (ix2 col κ)
  refine congrArg (W main_arg9) (funext fun a => Fin.ext ?_)
  match a with
  | ⟨0, _⟩ => show win2_1.index t (0 : Fin 2) * 512 + 1 * j.val = col.val; rw [e0]; omega
  | ⟨1, _⟩ => show win2_1.index t (1 : Fin 2) * 1024 + 1 * kk.val = κ.val; rw [e1]; omega

theorem fetA_apply (c : Dev nD) (t : Fin cfg2.N) (d : Vec Ideal S1024x512 .f32) (j : Fin 512) (kk : Fin 1024) (col : Fin 3000) (κ : Fin 8000)
    (hcol : col.val = (t.val / 8) * 512 + j.val) (hκ : κ.val = (t.val % 8) * 1024 + kk.val) :
    Hand.fet2_2 (VW W) c t d (ix2 kk j) = aA W (ix2 κ col) := by
  obtain ⟨-, -, ⟨e0, e1, x0, x1⟩, -⟩ := win_facts2 t
  have hkk : kk.val < 1024 := kk.isLt
  have hj : j.val < 512 := j.isLt
  have hκ' : κ.val < 8000 := κ.isLt
  have hcol' : col.val < 3000 := col.isLt
  have hm : (cfg2.win 2).moved (grid2.coords t) (ix2 kk j) = true := by
    rw [Window.moved_iff]; intro a
    match a with
    | ⟨0, _⟩ => show kk.val < win2_2.xsize (grid2.coords t) (0 : Fin 2); rw [x0]; omega
    | ⟨1, _⟩ => show j.val < win2_2.xsize (grid2.coords t) (1 : Fin 2); rw [x1]; omega
  unfold Hand.fet2_2 Window.fill
  rw [dif_pos hm]
  show W main_arg3 (((cfg2.win 2).blk t).view.emb _) = W main_arg3 (ix2 κ col)
  refine congrArg (W main_arg3) (funext fun a => Fin.ext ?_)
  match a with
  | ⟨0, _⟩ => show win2_2.index t (0 : Fin 2) * 1024 + 1 * kk.val = κ.val; rw [e0]; omega
  | ⟨1, _⟩ => show win2_2.index t (1 : Fin 2) * 512 + 1 * j.val = col.val; rw [e1]; omega

theorem fetB_apply (c : Dev nD) (t : Fin cfg2.N) (d : Vec Ideal S1x512 .f32) (j : Fin 512) (col : Fin 3000)
    (hcol : col.val = (t.val / 8) * 512 + j.val) :
    Hand.fet2_3 (VW W) c t d (ix2 (0 : Fin 1) j) = bA W (ix2 (0 : Fin 1) col) := by
  obtain ⟨-, -, -, ⟨e0, e1, x0, x1⟩, -⟩ := win_facts2 t
  have hj : j.val < 512 := j.isLt
  have hcol' : col.val < 3000 := col.isLt
  have hm : (cfg2.win 3).moved (grid2.coords t) (ix2 (0 : Fin 1) j) = true := by
    rw [Window.moved_iff]; intro a
    match a with
    | ⟨0, _⟩ => show (0 : Fin 1).val < win2_3.xsize (grid2.coords t) (0 : Fin 2); rw [x0]; exact Nat.one_pos
    | ⟨1, _⟩ => show j.val < win2_3.xsize (grid2.coords t) (1 : Fin 2); rw [x1]; omega
  unfold Hand.fet2_3 Window.fill
  rw [dif_pos hm]
  show W main_v8 (((cfg2.win 3).blk t).view.emb _) = W main_v8 (ix2 (0 : Fin 1) col)
  refine congrArg (W main_v8) (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 512 + 1 * j.val = col.val; rw [e1]; omega

/-- Region 2 as a layer read tile by tile. -/
def L2 (c : Dev nD) : Layer 8 8000 3000 cfg2.N where
  x := xA W
  w := wA W
  a := aA W
  b := bA W
  fX := Hand.fet2_0 (VW W) c
  fW := Hand.fet2_1 (VW W) c
  fA := Hand.fet2_2 (VW W) c
  fB := Hand.fet2_3 (VW W) c
  acc t := Hand.acc2 (grid2.coords t)
  acc_eq t X Wb A s r j := by
    obtain ⟨-, hk⟩ := coords2 t
    unfold Hand.acc2
    rw [payAcc_apply]
    congr 1
    · by_cases h0 : t.val % 8 = 0
      · rw [if_pos h0, if_pos ((cond2_0_iff t).mpr h0), payZero_apply]
      · rw [if_neg h0, if_neg (fun h => h0 ((cond2_0_iff t).mp h))]
    · rw [hk]
  fX_eq := fetX_apply W c
  fW_eq := fetW_apply W c
  fA_eq := fetA_apply W c
  fB_eq := fetB_apply W c

def PW2 : Hand.Preds2 Ideal where
  Pacc c n s := (L2 W c).Pacc n s
  Pout c t X := (cfg2.win (4 : Fin cfg2.W)).cut (grid2.coords t) X
    = ((cfg2.win (4 : Fin cfg2.W)).blk t).view.read (Elt Ideal) (Cert.Net.mlayer (xA W) (wA W) (aA W) (bA W))

theorem steps2 (c : Dev nD) : Hand.Steps2 (VW W) (PW2 W) c where
  init s := Or.inl (Nat.zero_mod 8)
  step t d0 d1 d2 s hs := (L2 W c).step (fun n h => by omega) t d0 d1 d2 s hs
  last t d0 d1 d2 d3 O s hs hc := by
    have h4 : t.val % 8 = 7 := (cond2_1_iff t).mp hc
    obtain ⟨-, -, -, -, ⟨e0, e1, x0, x1⟩⟩ := win_facts2 t
    show (cfg2.win (4 : Fin cfg2.W)).cut (grid2.coords t) _ = _
    funext y
    have hy0 : (y 0).val < 512 := by
      have := (y 0).isLt
      change (y 0).val < win2_4.xsize (grid2.coords t) (0 : Fin 2) at this
      rw [x0] at this; exact this
    have hy1 : (y 1).val < min 512 (3000 - (t.val / 8) * 512) := by
      have := (y 1).isLt
      change (y 1).val < win2_4.xsize (grid2.coords t) (1 : Fin 2) at this
      rw [x1] at this; exact this
    have hcolb : (t.val / 8) * 512 + (y 1).val < 3000 := by omega
    have ey : ((cfg2.win (4 : Fin cfg2.W)).blk t).view.emb y = ix2 (⟨(y 0).val, hy0⟩ : Fin 512) (⟨(t.val / 8) * 512 + (y 1).val, hcolb⟩ : Fin 3000) := by
      funext a; apply Fin.ext
      match a with
      | ⟨0, _⟩ => show win2_4.index t (0 : Fin 2) * 512 + 1 * (y 0).val = (y 0).val; rw [e0]; omega
      | ⟨1, _⟩ => show win2_4.index t (1 : Fin 2) * 512 + 1 * (y 1).val = (t.val / 8) * 512 + (y 1).val; rw [e1]; omega
    have hy1' : (y 1).val < 512 := by omega
    have ex : (cfg2.win (4 : Fin cfg2.W)).xinj (grid2.coords t) y = ix2 (⟨(y 0).val, hy0⟩ : Fin 512) (⟨(y 1).val, hy1'⟩ : Fin 512) := by
      funext a; apply Fin.ext
      match a with
      | ⟨0, _⟩ => rfl
      | ⟨1, _⟩ => rfl
    show Hand.out2 (grid2.coords t) _ _ _ _ O s ((cfg2.win (4 : Fin cfg2.W)).xinj (grid2.coords t) y)
      = Cert.Net.mlayer (xA W) (wA W) (aA W) (bA W) (((cfg2.win (4 : Fin cfg2.W)).blk t).view.emb y)
    rw [ex, ey]
    unfold Hand.out2
    rw [if_pos hc, payOut_apply]
    exact (L2 W c).last (by decide) t d0 d1 d2 d3 s (by omega) hs _ _ ⟨_, hcolb⟩ rfl

theorem mem_blk2 (t : Fin cfg2.N) (i : S512x3000.Idx) :
    i ∈ ((cfg2.win (4 : Fin cfg2.W)).blk t).view.set ↔ ∀ a : Fin 2, win2_4.index t a * S512x512.size a ≤ (i a).val
      ∧ (i a).val < win2_4.index t a * S512x512.size a + win2_4.xsize (grid2.coords t) a := by
  show i ∈ ((View.whole main_v9).slice (win2_4.rect t)).set ↔ _
  rw [View.set_slice_whole, Rect.mem_set_unit]
  exact Iff.rfl

theorem rel2 (c : Dev nD) (Fo : Buf (Elt Ideal) ((c : Thread nD τ).loc main_v9))
    (h : (Hand.rdat2 (VW W) (PW2 W) c).ArrAt (4 : Fin cfg2.W) cfg2.N Fo) : Qv2 c W Fo := by
  unfold Qv2
  refine Cert.Cover.arrAt_eq_of_cover (Hand.rdat2 (VW W) (PW2 W) c) (4 : Fin cfg2.W)
    (Cert.Net.mlayer (xA W) (wA W) (aA W) (bA W)) ?_ ?_ Fo h
  · intro u hf X hX
    obtain ⟨Y, -, ha⟩ := hX
    exact ha.1 ((cond2_1_iff u).mpr ((flush2_4 u).mp hf))
  · intro i
    have hi0 : (i 0).val < 512 := (i 0).isLt
    have hi1 : (i 1).val < 3000 := (i 1).isLt
    have hN : ((i 1).val / 512) * 8 + 7 < cfg2.N := by rw [N2]; omega
    refine ⟨⟨((i 1).val / 512) * 8 + 7, hN⟩, (flush2_4 _).mpr (by show (((i 1).val / 512) * 8 + 7) % 8 = 7; omega), ?_⟩
    obtain ⟨-, -, -, -, ⟨e0, e1, x0, x1⟩⟩ := win_facts2 ⟨((i 1).val / 512) * 8 + 7, hN⟩
    have q : (((i 1).val / 512) * 8 + 7) / 8 = (i 1).val / 512 := by omega
    rw [mem_blk2]
    intro a
    match a with
    | ⟨0, _⟩ =>
      show win2_4.index _ (0 : Fin 2) * 512 ≤ (i 0).val ∧ (i 0).val < win2_4.index _ (0 : Fin 2) * 512 + win2_4.xsize _ (0 : Fin 2)
      rw [e0, x0]; omega
    | ⟨1, _⟩ =>
      show win2_4.index _ (1 : Fin 2) * 512 ≤ (i 1).val ∧ (i 1).val < win2_4.index _ (1 : Fin 2) * 512 + win2_4.xsize _ (1 : Fin 2)
      rw [e1, x1]
      show (((i 1).val / 512) * 8 + 7) / 8 * 512 ≤ (i 1).val ∧ (i 1).val < (((i 1).val / 512) * 8 + 7) / 8 * 512 + min 512 (3000 - (((i 1).val / 512) * 8 + 7) / 8 * 512)
      rw [q]; omega

end R2

namespace R3

theorem matmul3_apply (l : FVec Ideal S512x1024 .bf16) (rr : FVec Ideal S1024x512 .bf16) (r j : Fin 512) :
    FloatOps.matmul dot_S512x1024_S1024x512_S512x512_1_0_0_1_n_n none l rr (constant (F := Ideal) S512x512 .f32 0x00000000#32) (ix2 r j)
      = ∑ k : Fin 1024, l (ix2 r k) * rr (ix2 k j) := matmul_apply l rr r j

theorem mask3 (k kk : ℕ) (hk : k < 3) (hkk : kk < 1024) :
    IntOp.cmpi .slt (IntOp.addi (Scalar.muli (BitVec.ofNat 32 k) 1024#32) (BitVec.ofNat 32 kk)) 3000#32 = 1#1 ↔ k * 1024 + kk < 3000 :=
  mask_lt 3 3000 k kk (by decide) (by decide) hk hkk

theorem payZero_apply (y : S512x512.Idx) : k3_pay1 (F := Ideal) y = 0 := R1.payZero_apply y

theorem payOut_apply (S : Vec Ideal S512x512 .f32) (B : Vec Ideal S1x512 .f32) (r j : Fin 512) :
    k3_pay3 (F := Ideal) S B (ix2 r j) = max (S (ix2 r j) + B (ix2 (0 : Fin 1) j)) 0 := R1.payOut_apply S B r j

theorem coords3 : ∀ t : Fin cfg3.N, ((grid3.coords t) 0).val = t.val / 3 ∧ ((grid3.coords t) 1).val = t.val % 3 :=
  (by decide +kernel : ∀ t : Fin grid3.N, ((grid3.coords t) 0).val = t.val / 3 ∧ ((grid3.coords t) 1).val = t.val % 3)

theorem cond3_0_iff : ∀ t : Fin cfg3.N, Hand.cond3_0 (grid3.coords t) ↔ t.val % 3 = 0 :=
  (by decide +kernel : ∀ t : Fin grid3.N, Hand.cond3_0 (grid3.coords t) ↔ t.val % 3 = 0)

theorem cond3_1_iff : ∀ t : Fin cfg3.N, Hand.cond3_1 (grid3.coords t) ↔ t.val % 3 = 2 :=
  (by decide +kernel : ∀ t : Fin grid3.N, Hand.cond3_1 (grid3.coords t) ↔ t.val % 3 = 2)

theorem N3 : cfg3.N = 18 := by decide +kernel

theorem win_facts3 : ∀ t : Fin cfg3.N,
    (win3_0.index t (0 : Fin 2) = 0 ∧ win3_0.index t (1 : Fin 2) = t.val % 3
      ∧ win3_0.xsize (grid3.coords t) (0 : Fin 2) = 512 ∧ win3_0.xsize (grid3.coords t) (1 : Fin 2) = min 1024 (3000 - (t.val % 3) * 1024))
    ∧ (win3_1.index t (0 : Fin 2) = t.val / 3 ∧ win3_1.index t (1 : Fin 2) = t.val % 3
      ∧ win3_1.xsize (grid3.coords t) (0 : Fin 2) = min 512 (3000 - (t.val / 3) * 512) ∧ win3_1.xsize (grid3.coords t) (1 : Fin 2) = min 1024 (3000 - (t.val % 3) * 1024))
    ∧ (win3_2.index t (0 : Fin 2) = t.val % 3 ∧ win3_2.index t (1 : Fin 2) = t.val / 3
      ∧ win3_2.xsize (grid3.coords t) (0 : Fin 2) = min 1024 (3000 - (t.val % 3) * 1024) ∧ win3_2.xsize (grid3.coords t) (1 : Fin 2) = min 512 (3000 - (t.val / 3) * 512))
    ∧ (win3_3.index t (0 : Fin 2) = 0 ∧ win3_3.index t (1 : Fin 2) = t.val / 3
      ∧ win3_3.xsize (grid3.coords t) (0 : Fin 2) = 1 ∧ win3_3.xsize (grid3.coords t) (1 : Fin 2) = min 512 (3000 - (t.val / 3) * 512))
    ∧ (win3_4.index t (0 : Fin 2) = 0 ∧ win3_4.index t (1 : Fin 2) = t.val / 3
      ∧ win3_4.xsize (grid3.coords t) (0 : Fin 2) = 512 ∧ win3_4.xsize (grid3.coords t) (1 : Fin 2) = min 512 (3000 - (t.val / 3) * 512)) :=
  (by decide +kernel : ∀ t : Fin grid3.N, _)

theorem payAcc_apply (i : grid3.Coords) (Wb : Vec Ideal S512x1024 .f32) (A : Vec Ideal S1024x512 .f32) (X : Vec Ideal S512x1024 .f32)
    (S : Vec Ideal S512x512 .f32) (r j : Fin 512) :
    k3_pay2 (F := Ideal) i Wb A X S (ix2 r j)
      = S (ix2 r j) + ∑ k : Fin 1024, X (ix2 r k) * (Wb (ix2 j k) * (if (i 1).val * 1024 + k.val < 3000 then A (ix2 k j) else 0)) := by
  have h5 : (i 1).val < 3 := (i 1).isLt
  unfold k3_pay2
  simp only [shapeCast_self]
  refine (addf_apply _ _ _).trans ?_
  refine congrArg (fun z => S (ix2 r j) + z) ?_
  refine (matmul3_apply _ _ r j).trans ?_
  refine Finset.sum_congr rfl fun k _ => ?_
  show X (ix2 r k) * (transpose S1024x512 [1, 0] Wb transposes_S512x1024_p1_0_S1024x512 (ix2 k j)
      * Scalar.select (IntOp.cmpi .slt (IntOp.addi (Scalar.muli (BitVec.ofNat 32 (i 1).val) 1024#32) (iota .tc S1024x512 32 [0] iota_S1024x512_d0_w32 (ix2 k j))) 3000#32)
          (A (ix2 k j)) (Ideal.ofBits .f32 0x00000000#32)) = _
  rw [transpose_ix2_apply, iota_single_apply, Ideal.ofBits_zero_f32]
  by_cases h : (i 1).val * 1024 + k.val < 3000
  · rw [if_pos h, (mask3 _ _ h5 k.isLt).mpr h, select_one]
  · rw [if_neg h, eq_zero_of_ne_one (fun e => h ((mask3 _ _ h5 k.isLt).mp e)), select_zero]

variable (W : Valuation τ sig (Elt Ideal))

abbrev VW : (c : Dev nD) → (b : Ref sig .tc) → Buf (Elt Ideal) ((c : Thread nD τ).loc b) :=
  fun _ b => W b

abbrev xA : Cert.Net.Mat 512 3000 := W main_v2
abbrev wA : Cert.Net.Mat 3000 3000 := W main_arg11
abbrev aA : Cert.Net.Mat 3000 3000 := W main_arg4
abbrev bA : Cert.Net.Mat 1 3000 := W main_v10

theorem fetX_apply (c : Dev nD) (t : Fin cfg3.N) (d : Vec Ideal S512x1024 .f32) (r : Fin 512) (kk : Fin 1024) (κ : Fin 3000)
    (hκ : κ.val = (t.val % 3) * 1024 + kk.val) :
    Hand.fet3_0 (VW W) c t d (ix2 r kk) = xA W (ix2 r κ) := by
  obtain ⟨⟨e0, e1, x0, x1⟩, -⟩ := win_facts3 t
  have hkk : kk.val < 1024 := kk.isLt
  have hκ' : κ.val < 3000 := κ.isLt
  have hm : (cfg3.win 0).moved (grid3.coords t) (ix2 r kk) = true := by
    rw [Window.moved_iff]; intro a
    match a with
    | ⟨0, _⟩ => show r.val < win3_0.xsize (grid3.coords t) (0 : Fin 2); rw [x0]; exact r.isLt
    | ⟨1, _⟩ => show kk.val < win3_0.xsize (grid3.coords t) (1 : Fin 2); rw [x1]; omega
  unfold Hand.fet3_0 Window.fill
  rw [dif_pos hm]
  show W main_v2 (((cfg3.win 0).blk t).view.emb _) = W main_v2 (ix2 r κ)
  refine congrArg (W main_v2) (funext fun a => Fin.ext ?_)
  match a with
  | ⟨0, _⟩ => show win3_0.index t (0 : Fin 2) * 512 + 1 * r.val = r.val; rw [e0]; omega
  | ⟨1, _⟩ => show win3_0.index t (1 : Fin 2) * 1024 + 1 * kk.val = κ.val; rw [e1]; omega

theorem fetW_apply (c : Dev nD) (t : Fin cfg3.N) (d : Vec Ideal S512x1024 .f32) (j : Fin 512) (kk : Fin 1024) (col : Fin 3000) (κ : Fin 3000)
    (hcol : col.val = (t.val / 3) * 512 + j.val) (hκ : κ.val = (t.val % 3) * 1024 + kk.val) :
    Hand.fet3_1 (VW W) c t d (ix2 j kk) = wA W (ix2 col κ) := by
  obtain ⟨-, ⟨e0, e1, x0, x1⟩, -⟩ := win_facts3 t
  have hkk : kk.val < 1024 := kk.isLt
  have hj : j.val < 512 := j.isLt
  have hκ' : κ.val < 3000 := κ.isLt
  have hcol' : col.val < 3000 := col.isLt
  have hm : (cfg3.win 1).moved (grid3.coords t) (ix2 j kk) = true := by
    rw [Window.moved_iff]; intro a
    match a with
    | ⟨0, _⟩ => show j.val < win3_1.xsize (grid3.coords t) (0 : Fin 2); rw [x0]; omega
    | ⟨1, _⟩ => show kk.val < win3_1.xsize (grid3.coords t) (1 : Fin 2); rw [x1]; omega
  unfold Hand.fet3_1 Window.fill
  rw [dif_pos hm]
  show W main_arg11 (((cfg3.win 1).blk t).view.emb _) = W main_arg11 (ix2 col κ)
  refine congrArg (W main_arg11) (funext fun a => Fin.ext ?_)
  match a with
  | ⟨0, _⟩ => show win3_1.index t (0 : Fin 2) * 512 + 1 * j.val = col.val; rw [e0]; omega
  | ⟨1, _⟩ => show win3_1.index t (1 : Fin 2) * 1024 + 1 * kk.val = κ.val; rw [e1]; omega

theorem fetA_apply (c : Dev nD) (t : Fin cfg3.N) (d : Vec Ideal S1024x512 .f32) (j : Fin 512) (kk : Fin 1024) (col : Fin 3000) (κ : Fin 3000)
    (hcol : col.val = (t.val / 3) * 512 + j.val) (hκ : κ.val = (t.val % 3) * 1024 + kk.val) :
    Hand.fet3_2 (VW W) c t d (ix2 kk j) = aA W (ix2 κ col) := by
  obtain ⟨-, -, ⟨e0, e1, x0, x1⟩, -⟩ := win_facts3 t
  have hkk : kk.val < 1024 := kk.isLt
  have hj : j.val < 512 := j.isLt
  have hκ' : κ.val < 3000 := κ.isLt
  have hcol' : col.val < 3000 := col.isLt
  have hm : (cfg3.win 2).moved (grid3.coords t) (ix2 kk j) = true := by
    rw [Window.moved_iff]; intro a
    match a with
    | ⟨0, _⟩ => show kk.val < win3_2.xsize (grid3.coords t) (0 : Fin 2); rw [x0]; omega
    | ⟨1, _⟩ => show j.val < win3_2.xsize (grid3.coords t) (1 : Fin 2); rw [x1]; omega
  unfold Hand.fet3_2 Window.fill
  rw [dif_pos hm]
  show W main_arg4 (((cfg3.win 2).blk t).view.emb _) = W main_arg4 (ix2 κ col)
  refine congrArg (W main_arg4) (funext fun a => Fin.ext ?_)
  match a with
  | ⟨0, _⟩ => show win3_2.index t (0 : Fin 2) * 1024 + 1 * kk.val = κ.val; rw [e0]; omega
  | ⟨1, _⟩ => show win3_2.index t (1 : Fin 2) * 512 + 1 * j.val = col.val; rw [e1]; omega

theorem fetB_apply (c : Dev nD) (t : Fin cfg3.N) (d : Vec Ideal S1x512 .f32) (j : Fin 512) (col : Fin 3000)
    (hcol : col.val = (t.val / 3) * 512 + j.val) :
    Hand.fet3_3 (VW W) c t d (ix2 (0 : Fin 1) j) = bA W (ix2 (0 : Fin 1) col) := by
  obtain ⟨-, -, -, ⟨e0, e1, x0, x1⟩, -⟩ := win_facts3 t
  have hj : j.val < 512 := j.isLt
  have hcol' : col.val < 3000 := col.isLt
  have hm : (cfg3.win 3).moved (grid3.coords t) (ix2 (0 : Fin 1) j) = true := by
    rw [Window.moved_iff]; intro a
    match a with
    | ⟨0, _⟩ => show (0 : Fin 1).val < win3_3.xsize (grid3.coords t) (0 : Fin 2); rw [x0]; exact Nat.one_pos
    | ⟨1, _⟩ => show j.val < win3_3.xsize (grid3.coords t) (1 : Fin 2); rw [x1]; omega
  unfold Hand.fet3_3 Window.fill
  rw [dif_pos hm]
  show W main_v10 (((cfg3.win 3).blk t).view.emb _) = W main_v10 (ix2 (0 : Fin 1) col)
  refine congrArg (W main_v10) (funext fun a => Fin.ext ?_)
  match a with
  | ⟨0, _⟩ => show win3_3.index t (0 : Fin 2) * 1 + 1 * (0 : Fin 1).val = (0 : Fin 1).val; rw [e0]; rfl
  | ⟨1, _⟩ => show win3_3.index t (1 : Fin 2) * 512 + 1 * j.val = col.val; rw [e1]; omega

/-- Region 3 as a layer read tile by tile. -/
def L3 (c : Dev nD) : Layer 3 3000 3000 cfg3.N where
  x := xA W
  w := wA W
  a := aA W
  b := bA W
  fX := Hand.fet3_0 (VW W) c
  fW := Hand.fet3_1 (VW W) c
  fA := Hand.fet3_2 (VW W) c
  fB := Hand.fet3_3 (VW W) c
  acc t := Hand.acc3 (grid3.coords t)
  acc_eq t X Wb A s r j := by
    obtain ⟨-, hk⟩ := coords3 t
    unfold Hand.acc3
    rw [payAcc_apply]
    congr 1
    · by_cases h0 : t.val % 3 = 0
      · rw [if_pos h0, if_pos ((cond3_0_iff t).mpr h0), payZero_apply]
      · rw [if_neg h0, if_neg (fun h => h0 ((cond3_0_iff t).mp h))]
    · rw [hk]
  fX_eq := fetX_apply W c
  fW_eq := fetW_apply W c
  fA_eq := fetA_apply W c
  fB_eq := fetB_apply W c

def PW3 : Hand.Preds3 Ideal where
  Pacc c n s := (L3 W c).Pacc n s
  Pout c t X := (cfg3.win (4 : Fin cfg3.W)).cut (grid3.coords t) X
    = ((cfg3.win (4 : Fin cfg3.W)).blk t).view.read (Elt Ideal) (Cert.Net.mlayer (xA W) (wA W) (aA W) (bA W))

theorem steps3 (c : Dev nD) : Hand.Steps3 (VW W) (PW3 W) c where
  init s := Or.inl (Nat.zero_mod 3)
  step t d0 d1 d2 s hs := (L3 W c).step (fun n h => by omega) t d0 d1 d2 s hs
  last t d0 d1 d2 d3 O s hs hc := by
    have h4 : t.val % 3 = 2 := (cond3_1_iff t).mp hc
    obtain ⟨-, -, -, -, ⟨e0, e1, x0, x1⟩⟩ := win_facts3 t
    show (cfg3.win (4 : Fin cfg3.W)).cut (grid3.coords t) _ = _
    funext y
    have hy0 : (y 0).val < 512 := by
      have := (y 0).isLt
      change (y 0).val < win3_4.xsize (grid3.coords t) (0 : Fin 2) at this
      rw [x0] at this; exact this
    have hy1 : (y 1).val < min 512 (3000 - (t.val / 3) * 512) := by
      have := (y 1).isLt
      change (y 1).val < win3_4.xsize (grid3.coords t) (1 : Fin 2) at this
      rw [x1] at this; exact this
    have hcolb : (t.val / 3) * 512 + (y 1).val < 3000 := by omega
    have ey : ((cfg3.win (4 : Fin cfg3.W)).blk t).view.emb y = ix2 (⟨(y 0).val, hy0⟩ : Fin 512) (⟨(t.val / 3) * 512 + (y 1).val, hcolb⟩ : Fin 3000) := by
      funext a; apply Fin.ext
      match a with
      | ⟨0, _⟩ => show win3_4.index t (0 : Fin 2) * 512 + 1 * (y 0).val = (y 0).val; rw [e0]; omega
      | ⟨1, _⟩ => show win3_4.index t (1 : Fin 2) * 512 + 1 * (y 1).val = (t.val / 3) * 512 + (y 1).val; rw [e1]; omega
    have hy1' : (y 1).val < 512 := by omega
    have ex : (cfg3.win (4 : Fin cfg3.W)).xinj (grid3.coords t) y = ix2 (⟨(y 0).val, hy0⟩ : Fin 512) (⟨(y 1).val, hy1'⟩ : Fin 512) := by
      funext a; apply Fin.ext
      match a with
      | ⟨0, _⟩ => rfl
      | ⟨1, _⟩ => rfl
    show Hand.out3 (grid3.coords t) _ _ _ _ O s ((cfg3.win (4 : Fin cfg3.W)).xinj (grid3.coords t) y)
      = Cert.Net.mlayer (xA W) (wA W) (aA W) (bA W) (((cfg3.win (4 : Fin cfg3.W)).blk t).view.emb y)
    rw [ex, ey]
    unfold Hand.out3
    rw [if_pos hc, payOut_apply]
    exact (L3 W c).last (by decide) t d0 d1 d2 d3 s (by omega) hs _ _ ⟨_, hcolb⟩ rfl

theorem mem_blk3 (t : Fin cfg3.N) (i : S512x3000.Idx) :
    i ∈ ((cfg3.win (4 : Fin cfg3.W)).blk t).view.set ↔ ∀ a : Fin 2, win3_4.index t a * S512x512.size a ≤ (i a).val
      ∧ (i a).val < win3_4.index t a * S512x512.size a + win3_4.xsize (grid3.coords t) a := by
  show i ∈ ((View.whole main_v11).slice (win3_4.rect t)).set ↔ _
  rw [View.set_slice_whole, Rect.mem_set_unit]
  exact Iff.rfl

theorem rel3 (c : Dev nD) (Fo : Buf (Elt Ideal) ((c : Thread nD τ).loc main_v11))
    (h : (Hand.rdat3 (VW W) (PW3 W) c).ArrAt (4 : Fin cfg3.W) cfg3.N Fo) : Qv3 c W Fo := by
  unfold Qv3
  refine Cert.Cover.arrAt_eq_of_cover (Hand.rdat3 (VW W) (PW3 W) c) (4 : Fin cfg3.W)
    (Cert.Net.mlayer (xA W) (wA W) (aA W) (bA W)) ?_ ?_ Fo h
  · intro u hf X hX
    obtain ⟨Y, -, ha⟩ := hX
    exact ha.1 ((cond3_1_iff u).mpr ((flush3_4 u).mp hf))
  · intro i
    have hi0 : (i 0).val < 512 := (i 0).isLt
    have hi1 : (i 1).val < 3000 := (i 1).isLt
    have hN : ((i 1).val / 512) * 3 + 2 < cfg3.N := by rw [N3]; omega
    refine ⟨⟨((i 1).val / 512) * 3 + 2, hN⟩, (flush3_4 _).mpr (by show (((i 1).val / 512) * 3 + 2) % 3 = 2; omega), ?_⟩
    obtain ⟨-, -, -, -, ⟨e0, e1, x0, x1⟩⟩ := win_facts3 ⟨((i 1).val / 512) * 3 + 2, hN⟩
    have q : (((i 1).val / 512) * 3 + 2) / 3 = (i 1).val / 512 := by omega
    rw [mem_blk3]
    intro a
    match a with
    | ⟨0, _⟩ =>
      show win3_4.index _ (0 : Fin 2) * 512 ≤ (i 0).val ∧ (i 0).val < win3_4.index _ (0 : Fin 2) * 512 + win3_4.xsize _ (0 : Fin 2)
      rw [e0, x0]; omega
    | ⟨1, _⟩ =>
      show win3_4.index _ (1 : Fin 2) * 512 ≤ (i 1).val ∧ (i 1).val < win3_4.index _ (1 : Fin 2) * 512 + win3_4.xsize _ (1 : Fin 2)
      rw [e1, x1]
      show (((i 1).val / 512) * 3 + 2) / 3 * 512 ≤ (i 1).val ∧ (i 1).val < (((i 1).val / 512) * 3 + 2) / 3 * 512 + min 512 (3000 - (((i 1).val / 512) * 3 + 2) / 3 * 512)
      rw [q]; omega

end R3

end Cert.KernelIdeal.HandI

end
-- ==== Proof.KI.Ideal4.lean ====
import proofs.«128469_j53695681135127_2_alg».proof.Proof.KI.Obl4
import proofs.«128469_j53695681135127_2_alg».proof.Proof.KI.RelI
import proofs.«128469_j53695681135127_2_alg».proof.Proof.TileSum
import proofs.«128469_j53695681135127_2_alg».proof.Proof.Cover
import proofs.«128469_j53695681135127_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.HandI.R4

open Cert.KernelIdeal Cert.KernelIdeal.Gen
open Idealize.ShloMosaic Idealize.ShloMosaic.TcCoe Idealize.ShloMosaic.ValueIdx
open Idealize.SL Idealize.SL.Sem
open Idealize.ShloMosaic.Pipeline (Dat RDat Cfg Window)

theorem coords4 : ∀ t : Fin grid4.N, ((grid4.coords t) 0).val = 0 ∧ ((grid4.coords t) 1).val = t.val := by
  decide +kernel

theorem cond4_0_iff : ∀ t : Fin grid4.N, Hand.cond4_0 (grid4.coords t) ↔ t.val = 0 := by
  decide +kernel

theorem cond4_1_iff : ∀ t : Fin grid4.N, Hand.cond4_1 (grid4.coords t) ↔ t.val = 5 := by
  decide +kernel

theorem index4 : ∀ t : Fin grid4.N,
    win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = 0
    ∧ win4_3.index t (0 : Fin 2) = 0 ∧ win4_3.index t (1 : Fin 2) = 0 := by
  decide +kernel

theorem xsize4 : ∀ t : Fin grid4.N,
    win4_0.xsize (grid4.coords t) (0 : Fin 2) = 512 ∧ win4_0.xsize (grid4.coords t) (1 : Fin 2) = (if t.val = 5 then 880 else 1024)
    ∧ win4_1.xsize (grid4.coords t) (0 : Fin 2) = 1024 ∧ win4_1.xsize (grid4.coords t) (1 : Fin 2) = (if t.val = 5 then 880 else 1024)
    ∧ win4_2.xsize (grid4.coords t) (0 : Fin 2) = 1 ∧ win4_2.xsize (grid4.coords t) (1 : Fin 2) = 1024
    ∧ win4_3.xsize (grid4.coords t) (0 : Fin 2) = 512 ∧ win4_3.xsize (grid4.coords t) (1 : Fin 2) = 1024 := by
  decide +kernel

theorem lhs4_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs4_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs4_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs4_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem tile_matmul4_apply (L : FVec Ideal S512x1024 .bf16) (R : FVec Ideal S1024x1024 .bf16) (r : Fin 512) (j : Fin 1024) :
    matmul dot_S512x1024_S1024x1024_S512x1024_1_0_0_1_n_n none L R (constant (F := Ideal) S512x1024 .f32 0x00000000#32) (ix2 r j)
      = ∑ kk : Fin 1024, L (ix2 r kk) * R (ix2 kk j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k := funext fun a => Fin.ext (by
    match a with
    | ⟨0, _⟩ => exact lhs4_0 _ _
    | ⟨1, _⟩ => exact (lhs4_1 _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j := funext fun a => Fin.ext (by
    match a with
    | ⟨0, _⟩ => exact (rhs4_0 _ _).trans hk
    | ⟨1, _⟩ => exact rhs4_1 _ _)
  rw [el, er]

theorem mask_word4 (k kk : Nat) (hk : k < 6) (hkk : kk < 1024) :
    IntOp.cmpi .slt (IntOp.addi (Scalar.muli (BitVec.ofNat 32 k) 1024#32) (BitVec.ofNat 32 kk)) 6000#32 = 1#1 ↔ k * 1024 + kk < 6000 := by
  have e : (IntOp.addi (Scalar.muli (BitVec.ofNat 32 k) 1024#32) (BitVec.ofNat 32 kk)).toNat = k * 1024 + kk := by
    simp only [IntOp.addi, Scalar.muli, IntOp.muli, BitVec.toNat_add, BitVec.toNat_mul, BitVec.toNat_ofNat]
    omega
  rw [StableHlo.Predicate.slt_iff_toNat (by rw [e]; omega) (by decide), e]
  rfl

theorem pay4_2_apply (i : grid4.Coords) (Wb : FVec Ideal S1024x1024 .f32) (Xb : FVec Ideal S512x1024 .f32) (S : FVec Ideal S512x1024 .f32)
    (r : Fin 512) (j : Fin 1024) :
    k4_pay2 (F := Ideal) i Wb Xb S (ix2 r j) = S (ix2 r j) + ∑ kk : Fin 1024, Xb (ix2 r kk) *
      Scalar.select (IntOp.cmpi .slt (IntOp.addi (Scalar.muli (BitVec.ofNat 32 (i 1).val) 1024#32) (BitVec.ofNat 32 kk.val)) 6000#32) (Wb (ix2 j kk)) (0 : EReal) := by
  unfold k4_pay2
  dsimp only
  rw [shapeCast_self, addf_apply, tile_matmul4_apply]
  refine congrArg _ (Finset.sum_congr rfl fun kk _ => ?_)
  rw [truncf_apply, truncf_apply, shapeCast_self, transpose_ix2_apply, select_apply]
  have e1 : iota Kind.tc S1024x1024 32 [1] iota_S1024x1024_d1_w32 (ix2 j kk) = BitVec.ofNat 32 kk.val := iota_single_apply _ _ _ _ _ _
  have e0 : (broadcast S1024x1024 (FloatOps.ofBits (F := Ideal) FTy.f32 0#32) (ix2 j kk) : EReal) = 0 := Ideal.ofBits_zero_f32
  show Xb (ix2 r kk) * Scalar.select (IntOp.cmpi .slt (IntOp.addi (Scalar.muli (BitVec.ofNat 32 (i 1).val) 1024#32) (iota Kind.tc S1024x1024 32 [1] iota_S1024x1024_d1_w32 (ix2 j kk))) 6000#32) (Wb (ix2 j kk)) (broadcast S1024x1024 (FloatOps.ofBits (F := Ideal) FTy.f32 0#32) (ix2 j kk)) = _
  rw [e1, e0]

theorem pay4_1_apply (i : S512x1024.Idx) : k4_pay1 (F := Ideal) i = 0 := by
  unfold k4_pay1
  rw [shapeCast_self]
  exact Ideal.ofBits_zero_f32

theorem pay4_3_apply (A : FVec Ideal S512x1024 .f32) (B : FVec Ideal S1x1024 .f32) (r : Fin 512) (j : Fin 1024) :
    k4_pay3 (F := Ideal) A B (ix2 r j) = max (A (ix2 r j) + B (ix2 (0 : Fin 1) j)) 0 := by
  unfold k4_pay3
  rw [maximumf_apply, addf_apply, shapeCast_self, broadcastTo_1b_ab_apply]
  show max (A (ix2 r j) + B (ix2 (0 : Fin 1) j)) (Ideal.ofBits .f32 0x00000000#32) = _
  rw [Ideal.ofBits_zero_f32]

section Blocks
variable {F : FTy → Type} [FloatOps F]
variable (V : (c : Dev nD) → (b : Ref sig .tc) → Buf (Elt F) ((c : Thread nD τ).loc b))

theorem fet4_0_apply (c : Dev nD) (t : Fin cfg4.N) (d : Vec F S512x1024 .f32) (r : Fin 512) (kk : Fin 1024) (h : t.val * 1024 + kk.val < 6000) :
    Hand.fet4_0 V c t d (ix2 r kk) = V c (Pipeline.arrRef spec4 0) (ix2 r ⟨t.val * 1024 + kk.val, h⟩) := by
  obtain ⟨x0, x1, _⟩ := xsize4 t
  obtain ⟨i0, i1, _⟩ := index4 t
  have ht : t.val < 6 := t.isLt
  unfold Hand.fet4_0 Window.fill
  have hm : (cfg4.win 0).moved (grid4.coords t) (ix2 r kk) = true := by
    rw [Window.moved_iff]
    intro a
    match a with
    | ⟨0, _⟩ => show r.val < win4_0.xsize (grid4.coords t) (0 : Fin 2); rw [x0]; exact r.isLt
    | ⟨1, _⟩ => show kk.val < win4_0.xsize (grid4.coords t) (1 : Fin 2); rw [x1]; have := kk.isLt; split <;> omega
  rw [dif_pos hm]
  show V c (Pipeline.arrRef spec4 0) (((cfg4.win 0).blk t).view.emb _) = _
  refine congrArg (V c (Pipeline.arrRef spec4 0)) (funext fun a => Fin.ext ?_)
  match a with
  | ⟨0, _⟩ => show win4_0.index t (0 : Fin 2) * 512 + 1 * r.val = r.val; rw [i0]; omega
  | ⟨1, _⟩ => show win4_0.index t (1 : Fin 2) * 1024 + 1 * kk.val = t.val * 1024 + kk.val; rw [i1]; omega

theorem fet4_1_apply (c : Dev nD) (t : Fin cfg4.N) (d : Vec F S1024x1024 .f32) (j : Fin 1024) (kk : Fin 1024) (h : t.val * 1024 + kk.val < 6000) :
    Hand.fet4_1 V c t d (ix2 j kk) = V c (Pipeline.arrRef spec4 1) (ix2 j ⟨t.val * 1024 + kk.val, h⟩) := by
  obtain ⟨_, _, x0, x1, _⟩ := xsize4 t
  obtain ⟨_, _, i0, i1, _⟩ := index4 t
  have ht : t.val < 6 := t.isLt
  unfold Hand.fet4_1 Window.fill
  have hm : (cfg4.win 1).moved (grid4.coords t) (ix2 j kk) = true := by
    rw [Window.moved_iff]
    intro a
    match a with
    | ⟨0, _⟩ => show j.val < win4_1.xsize (grid4.coords t) (0 : Fin 2); rw [x0]; exact j.isLt
    | ⟨1, _⟩ => show kk.val < win4_1.xsize (grid4.coords t) (1 : Fin 2); rw [x1]; have := kk.isLt; split <;> omega
  rw [dif_pos hm]
  show V c (Pipeline.arrRef spec4 1) (((cfg4.win 1).blk t).view.emb _) = _
  refine congrArg (V c (Pipeline.arrRef spec4 1)) (funext fun a => Fin.ext ?_)
  match a with
  | ⟨0, _⟩ => show win4_1.index t (0 : Fin 2) * 1024 + 1 * j.val = j.val; rw [i0]; omega
  | ⟨1, _⟩ => show win4_1.index t (1 : Fin 2) * 1024 + 1 * kk.val = t.val * 1024 + kk.val; rw [i1]; omega

theorem fet4_2_apply (c : Dev nD) (t : Fin cfg4.N) (d : Vec F S1x1024 .f32) (j : Fin 1024) :
    Hand.fet4_2 V c t d (ix2 (0 : Fin 1) j) = V c (Pipeline.arrRef spec4 2) (ix2 (0 : Fin 1) j) := by
  obtain ⟨_, _, _, _, x0, x1, _⟩ := xsize4 t
  obtain ⟨_, _, _, _, i0, i1, _⟩ := index4 t
  unfold Hand.fet4_2 Window.fill
  have hm : (cfg4.win 2).moved (grid4.coords t) (ix2 (0 : Fin 1) j) = true := by
    rw [Window.moved_iff]
    intro a
    match a with
    | ⟨0, _⟩ => show (0 : Fin 1).val < win4_2.xsize (grid4.coords t) (0 : Fin 2); rw [x0]; exact Nat.zero_lt_one
    | ⟨1, _⟩ => show j.val < win4_2.xsize (grid4.coords t) (1 : Fin 2); rw [x1]; exact j.isLt
  rw [dif_pos hm]
  show V c (Pipeline.arrRef spec4 2) (((cfg4.win 2).blk t).view.emb _) = _
  refine congrArg (V c (Pipeline.arrRef spec4 2)) (funext fun a => Fin.ext ?_)
  match a with
  | ⟨0, _⟩ => show win4_2.index t (0 : Fin 2) * 1 + 1 * (0 : Fin 1).val = (0 : Fin 1).val; rw [i0]; omega
  | ⟨1, _⟩ => show win4_2.index t (1 : Fin 2) * 1024 + 1 * j.val = j.val; rw [i1]; omega

end Blocks

local notation "Vof(" W ")" => fun (_ : Dev nD) (b : Ref sig Kind.tc) => W b

def term4 (x : Cert.Net.Mat 512 6000) (w : Cert.Net.Mat 1024 6000) (r : Fin 512) (j : Fin 1024) : Fin 6000 → EReal :=
  fun κ => x (ix2 r κ) * w (ix2 j κ)

variable (W : Valuation τ sig (Elt Ideal))

theorem acc4_apply (c : Dev nD) (t : Fin cfg4.N) (d0 : Vec Ideal S512x1024 .f32) (d1 : Vec Ideal S1024x1024 .f32) (s : Vec Ideal S512x1024 .f32)
    (r : Fin 512) (j : Fin 1024) :
    Hand.acc4 (grid4.coords t) (Hand.fet4_0 Vof(W) c t d0) (Hand.fet4_1 Vof(W) c t d1) s (ix2 r j)
      = (if t.val = 0 then 0 else s (ix2 r j)) + Cert.TileSum.tileSum 1024 (term4 (W main_v12) (W main_arg13) r j) t.val := by
  unfold Hand.acc4
  rw [pay4_2_apply]
  obtain ⟨_, ck⟩ := coords4 t
  have ht : t.val < 6 := t.isLt
  refine congrArg₂ (· + ·) ?_ ?_
  · by_cases h0 : t.val = 0
    · rw [if_pos ((cond4_0_iff t).mpr h0), if_pos h0]; exact pay4_1_apply _
    · rw [if_neg (mt (cond4_0_iff t).mp h0), if_neg h0]
  · unfold Cert.TileSum.tileSum
    refine Finset.sum_congr rfl fun kk _ => ?_
    rw [ck]
    by_cases h : t.val * 1024 + kk.val < 6000
    · rw [dif_pos h, (mask_word4 t.val kk.val ht kk.isLt).mpr h, select_one, fet4_0_apply _ c t d0 r kk h, fet4_1_apply _ c t d1 j kk h]
      rfl
    · rw [dif_neg h, eq_zero_of_ne_one (mt (mask_word4 t.val kk.val ht kk.isLt).mp h), select_zero, mul_zero]

abbrev G4 (c : Dev nD) : Buf (Elt Ideal) ((c : Thread nD τ).loc main_v14) :=
  Cert.Net.dlayer (B := 512) (K := 6000) (N := 1024) (W main_v12) (W main_arg13) (W main_v13)

def PW4 : Hand.Preds4 Ideal where
  Pacc c n s := n % 6 = 0 ∨ ∀ (r : Fin 512) (j : Fin 1024),
    s (ix2 r j) = Cert.TileSum.partialSum 1024 (term4 (W main_v12) (W main_arg13) r j) (n % 6)
  Pout c t X := (cfg4.win 3).cut (grid4.coords t) X = ((cfg4.win 3).blk t).view.read (Elt Ideal) (G4 W c)

theorem acc4_step (c : Dev nD) (t : Fin cfg4.N) (d0 : Vec Ideal S512x1024 .f32) (d1 : Vec Ideal S1024x1024 .f32) (s : Vec Ideal S512x1024 .f32)
    (hs : (PW4 W).Pacc c t.val s) (r : Fin 512) (j : Fin 1024) :
    Hand.acc4 (grid4.coords t) (Hand.fet4_0 Vof(W) c t d0) (Hand.fet4_1 Vof(W) c t d1) s (ix2 r j)
      = Cert.TileSum.partialSum 1024 (term4 (W main_v12) (W main_arg13) r j) (t.val + 1) := by
  have ht : t.val < 6 := t.isLt
  rw [acc4_apply, Cert.TileSum.partialSum_succ]
  refine congrArg₂ (· + ·) ?_ rfl
  by_cases h0 : t.val = 0
  · rw [if_pos h0, h0, Cert.TileSum.partialSum_zero]
  · rw [if_neg h0]
    rcases hs with hs | hs
    · exact absurd hs (by omega)
    · rw [hs r j, Nat.mod_eq_of_lt ht]

theorem steps4 (c : Dev nD) (W : Valuation τ sig (Elt Ideal)) : Hand.Steps4 Vof(W) (PW4 W) c where
  init := fun s => Or.inl rfl
  step := fun t d0 d1 s hs => by
    have ht : t.val < 6 := t.isLt
    by_cases h5 : t.val = 5
    · exact Or.inl (by rw [h5])
    · refine Or.inr fun r j => ?_
      rw [acc4_step W c t d0 d1 s hs r j, Nat.mod_eq_of_lt (by omega)]
  last := fun t d0 d1 d2 O s hs hc => by
    have h5 : t.val = 5 := (cond4_1_iff t).mp hc
    have e6 : t.val + 1 = 6 := by omega
    show (cfg4.win 3).cut (grid4.coords t) _ = ((cfg4.win 3).blk t).view.read (Elt Ideal) (G4 W c)
    unfold Hand.out4
    rw [if_pos hc]
    funext y
    obtain ⟨r, j, rfl⟩ : ∃ (r : Fin 512) (j : Fin 1024), y = ix2 r j := ⟨y 0, y 1, eq_ix2 (n0 := 512) (n1 := 1024) y⟩
    obtain ⟨_, _, _, _, _, _, i0, i1⟩ := index4 t
    show k4_pay3 (F := Ideal) _ _ (ix2 r j) = G4 W c (((cfg4.win 3).blk t).view.emb (ix2 r j))
    have he : ((cfg4.win 3).blk t).view.emb (ix2 r j) = ix2 r j := funext fun a => Fin.ext (by
      match a with
      | ⟨0, _⟩ => show win4_3.index t (0 : Fin 2) * 512 + 1 * r.val = r.val; rw [i0]; omega
      | ⟨1, _⟩ => show win4_3.index t (1 : Fin 2) * 1024 + 1 * j.val = j.val; rw [i1]; omega)
    rw [he, pay4_3_apply, acc4_step W c t d0 d1 s hs r j, fet4_2_apply _ c t d2 j, e6,
      Cert.TileSum.partialSum_full 1024 (term4 (W main_v12) (W main_arg13) r j) 6 (by decide)]
    rfl

theorem mem_blk4 (t : Fin cfg4.N) (i : S512x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v14).slice (win4_3.rect t)).set ↔ _
  rw [View.set_slice_whole, Rect.mem_set_unit]
  exact Iff.rfl

theorem rel4 (c : Dev nD) (W : Valuation τ sig (Elt Ideal)) (Fo : Buf (Elt Ideal) ((c : Thread nD τ).loc main_v14))
    (h : (Hand.rdat4 Vof(W) (PW4 W) c).ArrAt 3 cfg4.N Fo) : Qv4 c W Fo := by
  unfold Qv4
  have h5N : 5 < cfg4.N := by decide +kernel
  refine Cert.Cover.arrAt_eq_of_cover (Hand.rdat4 Vof(W) (PW4 W) c) 3 (G4 W c) ?_ ?_ Fo h
  · intro u hf X hX
    obtain ⟨Y, _, hafter⟩ := hX
    have hu : u.val < 6 := u.isLt
    have h5 : u.val = 5 := by have := (flush4_3 u).mp hf; omega
    exact hafter.1 ((cond4_1_iff u).mpr h5)
  · intro i
    refine ⟨⟨5, h5N⟩, (flush4_3 _).mpr rfl, (mem_blk4 ⟨5, h5N⟩ i).mpr fun a => ?_⟩
    obtain ⟨_, _, _, _, _, _, i0, i1⟩ := index4 ⟨5, h5N⟩
    match a with
    | ⟨0, _⟩ =>
      show win4_3.index ⟨5, h5N⟩ (0 : Fin 2) * 512 ≤ (i 0).val ∧ (i 0).val < win4_3.index ⟨5, h5N⟩ (0 : Fin 2) * 512 + 512
      rw [i0]; have := idx2_lt0 (n0 := 512) (n1 := 1024) i; omega
    | ⟨1, _⟩ =>
      show win4_3.index ⟨5, h5N⟩ (1 : Fin 2) * 1024 ≤ (i 1).val ∧ (i 1).val < win4_3.index ⟨5, h5N⟩ (1 : Fin 2) * 1024 + 1024
      rw [i1]; have := idx2_lt1 (n0 := 512) (n1 := 1024) i; omega

end Cert.KernelIdeal.HandI.R4

end
-- ==== Proof.KI.Ideal5.lean ====
import proofs.«128469_j53695681135127_2_alg».proof.Proof.KI.Obl5
import proofs.«128469_j53695681135127_2_alg».proof.Proof.KI.RelI
import proofs.«128469_j53695681135127_2_alg».proof.Proof.Spec
import proofs.«128469_j53695681135127_2_alg».proof.Proof.Cover
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandI.R5

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.Sem
open Idealize.ShloMosaic.Pipeline (Dat RDat Cfg Window cellOf)

theorem dot5_lhs_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem dot5_lhs_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem dot5_rhs_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem dot5_rhs_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem matmul5_apply (l : FVec Ideal S512x1024 .bf16) (r : FVec Ideal S1024x256 .bf16) (p : Fin 512) (q : Fin 256) :
    matmul dot_S512x1024_S1024x256_S512x256_1_0_0_1_n_n none l r (constant (F := Ideal) S512x256 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 p q) ((ValueIdx.contrEquiv1 dot_S512x1024_S1024x256_S512x256_1_0_0_1_n_n 1024 rfl rfl).symm k) = ix2 p k := funext fun a => Fin.ext (by
    match a with
    | ⟨0, _⟩ => exact dot5_lhs_0 _ _
    | ⟨1, _⟩ => exact (dot5_lhs_1 _ _).trans hk)
  have er : dot_S512x1024_S1024x256_S512x256_1_0_0_1_n_n.rhsIdx (ix2 p q) ((ValueIdx.contrEquiv1 dot_S512x1024_S1024x256_S512x256_1_0_0_1_n_n 1024 rfl rfl).symm k) = ix2 k q := funext fun a => Fin.ext (by
    match a with
    | ⟨0, _⟩ => exact (dot5_rhs_0 _ _).trans hk
    | ⟨1, _⟩ => exact dot5_rhs_1 _ _)
  rw [el, er]

theorem pay5_apply (x : Vec Ideal S512x1024 .f32) (w : Vec Ideal S256x1024 .f32) (b : Vec Ideal S1x256 .f32) (p : Fin 512) (q : Fin 256) :
    k5_pay3 (k5_pay2 w x (k5_pay1 (F := Ideal))) b (ix2 p q)
      = max ((∑ k : Fin 1024, x (ix2 p k) * w (ix2 q k)) + b (ix2 (0 : Fin 1) q)) 0 := by
  unfold k5_pay3 k5_pay2 k5_pay1
  simp only [shapeCast_self]
  rw [maximumf_apply, addf_apply, addf_apply, broadcastTo_1b_ab_apply, matmul5_apply]
  have hz : (FloatOps.ofBits FTy.f32 0#32 : Ideal .f32) = 0 := Ideal.ofBits_zero_f32
  have hs : ∀ k : Fin 1024, (truncf FTy.bf16 x bitsLt_bf16_f32 : FVec Ideal S512x1024 .bf16) (ix2 p k) * (truncf FTy.bf16 (transpose S1024x256 [1, 0] w transposes_S256x1024_p1_0_S1024x256) bitsLt_bf16_f32 : FVec Ideal S1024x256 .bf16) (ix2 k q) = x (ix2 p k) * w (ix2 q k) := fun k => by
    rw [truncf_apply, truncf_apply, transpose_ix2_apply]
  rw [Finset.sum_congr rfl (fun k _ => hs k), broadcast_apply, hz, zero_add]

theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

theorem blk5_0_apply (c : Dev nD) (A : Buf (Elt Ideal) ((c : Thread nD τ).loc main_v14)) (t : Fin cfg5.N) (d : Vec Ideal S512x1024 .f32) (p : Fin 512) (k : Fin 1024) :
    (cfg5.win 0).fill (grid5.coords t) d (((cfg5.win 0).blk t).view.read (Elt Ideal) A) (ix2 p k) = A (ix2 p k) := by
  obtain ⟨e0, e1, -⟩ := idx5 t
  show A (((cfg5.win 0).blk t).view.emb (ix2 p k)) = A (ix2 p k)
  refine congrArg A (funext fun a => Fin.ext ?_)
  match a with
  | ⟨0, _⟩ => show win5_0.index t (0 : Fin 2) * 512 + 1 * p.val = p.val; omega
  | ⟨1, _⟩ => show win5_0.index t (1 : Fin 2) * 1024 + 1 * k.val = k.val; omega

theorem blk5_1_apply (c : Dev nD) (A : Buf (Elt Ideal) ((c : Thread nD τ).loc main_arg15)) (t : Fin cfg5.N) (d : Vec Ideal S256x1024 .f32) (q : Fin 256) (k : Fin 1024) :
    (cfg5.win 1).fill (grid5.coords t) d (((cfg5.win 1).blk t).view.read (Elt Ideal) A) (ix2 q k) = A (ix2 q k) := by
  obtain ⟨-, -, e0, e1, -⟩ := idx5 t
  show A (((cfg5.win 1).blk t).view.emb (ix2 q k)) = A (ix2 q k)
  refine congrArg A (funext fun a => Fin.ext ?_)
  match a with
  | ⟨0, _⟩ => show win5_1.index t (0 : Fin 2) * 256 + 1 * q.val = q.val; omega
  | ⟨1, _⟩ => show win5_1.index t (1 : Fin 2) * 1024 + 1 * k.val = k.val; omega

theorem blk5_2_apply (c : Dev nD) (A : Buf (Elt Ideal) ((c : Thread nD τ).loc main_v15)) (t : Fin cfg5.N) (d : Vec Ideal S1x256 .f32) (z : Fin 1) (q : Fin 256) :
    (cfg5.win 2).fill (grid5.coords t) d (((cfg5.win 2).blk t).view.read (Elt Ideal) A) (ix2 z q) = A (ix2 z q) := by
  obtain ⟨-, -, -, -, e0, e1, -⟩ := idx5 t
  show A (((cfg5.win 2).blk t).view.emb (ix2 z q)) = A (ix2 z q)
  refine congrArg A (funext fun a => Fin.ext ?_)
  match a with
  | ⟨0, _⟩ => show win5_2.index t (0 : Fin 2) * 1 + 1 * z.val = z.val; omega
  | ⟨1, _⟩ => show win5_2.index t (1 : Fin 2) * 256 + 1 * q.val = q.val; omega

theorem mem_blk5 (t : Fin cfg5.N) (i : S512x256.Idx) : i ∈ ((cfg5.win 3).blk t).view.set := by
  obtain ⟨-, -, -, -, -, -, e0, e1⟩ := idx5 t
  show i ∈ ((View.whole main_v16).slice (win5_3.rect t)).set
  rw [View.set_slice_whole, Rect.mem_set_unit]
  intro a
  match a with
  | ⟨0, _⟩ =>
    show win5_3.index t (0 : Fin 2) * 512 ≤ (i 0).val ∧ (i 0).val < win5_3.index t (0 : Fin 2) * 512 + 512
    have hi : (i 0).val < 512 := (i 0).isLt
    omega
  | ⟨1, _⟩ =>
    show win5_3.index t (1 : Fin 2) * 256 ≤ (i 1).val ∧ (i 1).val < win5_3.index t (1 : Fin 2) * 256 + 256
    have hi : (i 1).val < 256 := (i 1).isLt
    omega

abbrev G5 (c : Dev nD) (W : Valuation τ sig (Elt Ideal)) : Buf (Elt Ideal) ((c : Thread nD τ).loc main_v16) :=
  Cert.Net.dlayer (B := 512) (K := 1024) (N := 256) (W main_v14) (W main_arg15) (W main_v15)

def PW5 (W : Valuation τ sig (Elt Ideal)) : Hand.Preds5 Ideal where
  Pacc _ _ _ := True
  Pout c t X := (cfg5.win 3).cut (grid5.coords t) X = ((cfg5.win 3).blk t).view.read (Elt Ideal) (G5 c W)

theorem conds5 : ∀ i : grid5.Coords, Hand.cond5_0 i ∧ Hand.cond5_1 i := by decide +kernel

theorem out5_apply (c : Dev nD) (W : Valuation τ sig (Elt Ideal)) (t : Fin cfg5.N)
    (d0 : Vec Ideal S512x1024 .f32) (d1 : Vec Ideal S256x1024 .f32) (d2 : Vec Ideal S1x256 .f32) (O s : Vec Ideal S512x256 .f32)
    (p : Fin 512) (q : Fin 256) :
    Hand.out5 (grid5.coords t) (Hand.fet5_0 (fun (_ : Dev nD) (b : Ref sig .tc) => W b) c t d0)
        (Hand.fet5_1 (fun (_ : Dev nD) (b : Ref sig .tc) => W b) c t d1)
        (Hand.fet5_2 (fun (_ : Dev nD) (b : Ref sig .tc) => W b) c t d2) O s (ix2 p q)
      = G5 c W (ix2 p q) := by
  unfold Hand.out5 Hand.acc5
  rw [if_pos (conds5 (grid5.coords t)).2, if_pos (conds5 (grid5.coords t)).1, pay5_apply]
  have hx : ∀ k : Fin 1024, Hand.fet5_0 (fun (_ : Dev nD) (b : Ref sig .tc) => W b) c t d0 (ix2 p k) = W main_v14 (ix2 p k) :=
    fun k => blk5_0_apply c (W main_v14) t d0 p k
  have hw : ∀ k : Fin 1024, Hand.fet5_1 (fun (_ : Dev nD) (b : Ref sig .tc) => W b) c t d1 (ix2 q k) = W main_arg15 (ix2 q k) :=
    fun k => blk5_1_apply c (W main_arg15) t d1 q k
  have hb : Hand.fet5_2 (fun (_ : Dev nD) (b : Ref sig .tc) => W b) c t d2 (ix2 (0 : Fin 1) q) = W main_v15 (ix2 (0 : Fin 1) q) :=
    blk5_2_apply c (W main_v15) t d2 0 q
  rw [Finset.sum_congr rfl (fun k _ => by rw [hx k, hw k]), hb]
  rfl

theorem steps5 (c : Dev nD) (W : Valuation τ sig (Elt Ideal)) :
    Hand.Steps5 (fun (_ : Dev nD) (b : Ref sig .tc) => W b) (PW5 W) c where
  init _ := trivial
  step _ _ _ _ _ := trivial
  last t d0 d1 d2 O s _ _ := by
    obtain ⟨-, -, -, -, -, -, e0, e1⟩ := idx5 t
    show (cfg5.win 3).cut (grid5.coords t) _ = ((cfg5.win 3).blk t).view.read (Elt Ideal) (G5 c W)
    funext j
    have hp : (j 0).val < 512 := (j 0).isLt
    have hq : (j 1).val < 256 := (j 1).isLt
    have ej : (cfg5.win 3).xinj (grid5.coords t) j = ix2 (⟨(j 0).val, hp⟩ : Fin 512) (⟨(j 1).val, hq⟩ : Fin 256) :=
      funext fun a => Fin.ext (by
        match a with
        | ⟨0, _⟩ => rfl
        | ⟨1, _⟩ => rfl)
    have eb : ((cfg5.win 3).blk t).view.emb j = ix2 (⟨(j 0).val, hp⟩ : Fin 512) (⟨(j 1).val, hq⟩ : Fin 256) :=
      funext fun a => Fin.ext (by
        match a with
        | ⟨0, _⟩ => show win5_3.index t (0 : Fin 2) * 512 + 1 * (j 0).val = (j 0).val; omega
        | ⟨1, _⟩ => show win5_3.index t (1 : Fin 2) * 256 + 1 * (j 1).val = (j 1).val; omega)
    show Hand.out5 _ _ _ _ O s ((cfg5.win 3).xinj (grid5.coords t) j) = G5 c W (((cfg5.win 3).blk t).view.emb j)
    rw [ej, eb]
    exact out5_apply c W t d0 d1 d2 O s _ _

theorem rel5 (c : Dev nD) (W : Valuation τ sig (Elt Ideal)) (Fo : Buf (Elt Ideal) ((c : Thread nD τ).loc main_v16))
    (h : (Hand.rdat5 (fun (_ : Dev nD) (b : Ref sig .tc) => W b) (PW5 W) c).ArrAt 3 cfg5.N Fo) : Qv5 c W Fo := by
  unfold Qv5
  refine Cert.Cover.arrAt_eq_of_cover (Hand.rdat5 (fun (_ : Dev nD) (b : Ref sig .tc) => W b) (PW5 W) c) 3 (G5 c W) ?_ ?_ Fo h
  · rintro u - X ⟨Y, -, hXY⟩
    have h3 : (Hand.cond5_1 (grid5.coords u) → (PW5 W).Pout c u X) ∧ (¬Hand.cond5_1 (grid5.coords u) → X = Y) := hXY
    exact h3.1 (conds5 (grid5.coords u)).2
  · exact fun i => ⟨⟨0, (by decide : 0 < grid5.N)⟩, flush5_3 _, mem_blk5 _ i⟩

end Cert.KernelIdeal.HandI.R5

end
-- ==== Proof.KI.Ideal6.lean ====
import proofs.«128469_j53695681135127_2_alg».proof.Proof.KI.Obl6
import proofs.«128469_j53695681135127_2_alg».proof.Proof.KI.RelI
import proofs.«128469_j53695681135127_2_alg».proof.Proof.Cover
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic

set_option maxRecDepth 16384

noncomputable section

namespace Cert.KernelIdeal.HandI.R6

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open Idealize.SL.Sem
open Idealize.ShloMosaic.Pipeline (Dat RDat Cfg Window cellOf)

theorem lhs6_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs6_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs6_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs6_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

theorem matmul6_apply (X : FVec Ideal S512x256 .bf16) (Y : FVec Ideal S256x128 .bf16) (r : Fin 512) (j : Fin 128) :
    matmul dot_S512x256_S256x128_S512x128_1_0_0_1_n_n none X Y (constant (F := Ideal) S512x128 .f32 0x00000000#32) (ix2 r j)
      = ∑ κ : Fin 256, X (ix2 r κ) * Y (ix2 κ j) := by
  show FloatOps.matmul dot_S512x256_S256x128_S512x128_1_0_0_1_n_n none X Y (constant (F := Ideal) S512x128 .f32 0x00000000#32) (ix2 r j) = _
  rw [Ideal.matmul_constant_zero_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 r j) ((ValueIdx.contrEquiv1 dot_S512x256_S256x128_S512x128_1_0_0_1_n_n 256 rfl rfl).symm k) = ix2 r k := funext fun a => Fin.ext (by
    match a with
    | ⟨0, _⟩ => exact lhs6_0 _ _
    | ⟨1, _⟩ => exact (lhs6_1 _ _).trans hk)
  have er : dot_S512x256_S256x128_S512x128_1_0_0_1_n_n.rhsIdx (ix2 r j) ((ValueIdx.contrEquiv1 dot_S512x256_S256x128_S512x128_1_0_0_1_n_n 256 rfl rfl).symm k) = ix2 k j := funext fun a => Fin.ext (by
    match a with
    | ⟨0, _⟩ => exact (rhs6_0 _ _).trans hk
    | ⟨1, _⟩ => exact rhs6_1 _ _)
  rw [el, er]

theorem pay1_apply (i : S512x128.Idx) : (k6_pay1 (F := Ideal)) i = 0 := by
  unfold k6_pay1
  simp only [shapeCast_self]
  exact Ideal.ofBits_zero_f32

theorem pay2_apply (Wt : Vec Ideal S128x256 .f32) (X : Vec Ideal S512x256 .f32) (S : Vec Ideal S512x128 .f32) (r : Fin 512) (j : Fin 128) :
    k6_pay2 Wt X S (ix2 r j) = S (ix2 r j) + ∑ κ : Fin 256, X (ix2 r κ) * Wt (ix2 j κ) := by
  unfold k6_pay2
  simp only [shapeCast_self]
  rw [addf_apply, matmul6_apply]
  refine congrArg _ (Finset.sum_congr rfl fun κ _ => ?_)
  rw [truncf_apply, truncf_apply, transpose_ix2_apply]

theorem pay3_apply (A : Vec Ideal S512x128 .f32) (B : Vec Ideal S1x128 .f32) (r : Fin 512) (j : Fin 128) :
    k6_pay3 A B (ix2 r j) = Ideal.logistic (A (ix2 r j) + B (ix2 (0 : Fin 1) j)) := by
  unfold k6_pay3
  simp only [shapeCast_self]
  show Ideal.logistic (A (ix2 r j) + broadcastTo S512x128 B broadcasts_S1x128_S512x128 (ix2 r j)) = _
  rw [broadcastTo_1b_ab_apply]

theorem conds6 (t : Fin cfg6.N) : cond6_0 (grid6.coords t) ∧ cond6_1 (grid6.coords t) :=
  (by decide +kernel : ∀ i : grid6.Coords, cond6_0 i ∧ cond6_1 i) (grid6.coords t)

theorem index6 : ∀ t : Fin cfg6.N, (win6_0.index t 0 = 0 ∧ win6_0.index t 1 = 0) ∧ (win6_1.index t 0 = 0 ∧ win6_1.index t 1 = 0)
    ∧ (win6_2.index t 0 = 0 ∧ win6_2.index t 1 = 0) ∧ (win6_3.index t 0 = 0 ∧ win6_3.index t 1 = 0) :=
  (by decide +kernel : ∀ t : Fin grid6.N, _)

theorem emb6_0 (t : Fin cfg6.N) (j : S512x256.Idx) : ((cfg6.win 0).blk t).view.emb j = j := by
  obtain ⟨⟨e0, e1⟩, -⟩ := index6 t
  funext a; apply Fin.ext
  match a with
  | ⟨0, _⟩ => show win6_0.index t 0 * 512 + 1 * (j 0).val = (j 0).val; rw [e0]; omega
  | ⟨1, _⟩ => show win6_0.index t 1 * 256 + 1 * (j 1).val = (j 1).val; rw [e1]; omega

theorem emb6_1 (t : Fin cfg6.N) (j : S128x256.Idx) : ((cfg6.win 1).blk t).view.emb j = j := by
  obtain ⟨-, ⟨e0, e1⟩, -⟩ := index6 t
  funext a; apply Fin.ext
  match a with
  | ⟨0, _⟩ => show win6_1.index t 0 * 128 + 1 * (j 0).val = (j 0).val; rw [e0]; omega
  | ⟨1, _⟩ => show win6_1.index t 1 * 256 + 1 * (j 1).val = (j 1).val; rw [e1]; omega

theorem emb6_2 (t : Fin cfg6.N) (j : S1x128.Idx) : ((cfg6.win 2).blk t).view.emb j = j := by
  obtain ⟨-, -, ⟨e0, e1⟩, -⟩ := index6 t
  funext a; apply Fin.ext
  match a with
  | ⟨0, _⟩ => show win6_2.index t 0 * 1 + 1 * (j 0).val = (j 0).val; rw [e0]; omega
  | ⟨1, _⟩ => show win6_2.index t 1 * 128 + 1 * (j 1).val = (j 1).val; rw [e1]; omega

theorem emb6_3 (t : Fin cfg6.N) (j : S512x128.Idx) : ((cfg6.win 3).blk t).view.emb j = j := by
  obtain ⟨-, -, -, ⟨e0, e1⟩⟩ := index6 t
  funext a; apply Fin.ext
  match a with
  | ⟨0, _⟩ => show win6_3.index t 0 * 512 + 1 * (j 0).val = (j 0).val; rw [e0]; omega
  | ⟨1, _⟩ => show win6_3.index t 1 * 128 + 1 * (j 1).val = (j 1).val; rw [e1]; omega

variable (W : Valuation τ sig (Elt Ideal))

theorem fet0_eq (c : Dev nD) (t : Fin cfg6.N) (d : Vec Ideal S512x256 .f32) :
    fet6_0 (fun (_ : Dev nD) (b : Ref sig .tc) => W b) c t d = W main_v16 := by
  unfold fet6_0
  funext j
  show (cfg6.win 0).fill (grid6.coords t) d _ ((cfg6.win 0).xinj (grid6.coords t) j) = _
  rw [Window.fill_xinj]
  show W main_v16 (((cfg6.win 0).blk t).view.emb j) = _
  rw [emb6_0]

theorem fet1_eq (c : Dev nD) (t : Fin cfg6.N) (d : Vec Ideal S128x256 .f32) :
    fet6_1 (fun (_ : Dev nD) (b : Ref sig .tc) => W b) c t d = W main_v17 := by
  unfold fet6_1
  funext j
  show (cfg6.win 1).fill (grid6.coords t) d _ ((cfg6.win 1).xinj (grid6.coords t) j) = _
  rw [Window.fill_xinj]
  show W main_v17 (((cfg6.win 1).blk t).view.emb j) = _
  rw [emb6_1]

theorem fet2_eq (c : Dev nD) (t : Fin cfg6.N) (d : Vec Ideal S1x128 .f32) :
    fet6_2 (fun (_ : Dev nD) (b : Ref sig .tc) => W b) c t d = W main_v19 := by
  unfold fet6_2
  funext j
  show (cfg6.win 2).fill (grid6.coords t) d _ ((cfg6.win 2).xinj (grid6.coords t) j) = _
  rw [Window.fill_xinj]
  show W main_v19 (((cfg6.win 2).blk t).view.emb j) = _
  rw [emb6_2]

def PW6 : Hand.Preds6 Ideal where
  Pacc _ _ _ := True
  Pout c t X := (cfg6.win 3).cut (grid6.coords t) X
    = ((cfg6.win 3).blk t).view.read (Elt Ideal) (Cert.Net.slayer (B := 512) (K := 256) (N := 128) (W main_v16) (W main_v17) (W main_v19))

theorem last6 (c : Dev nD) (t : Fin cfg6.N) (d0 : Vec Ideal S512x256 .f32) (d1 : Vec Ideal S128x256 .f32) (d2 : Vec Ideal S1x128 .f32)
    (O s : Vec Ideal S512x128 .f32) :
    (PW6 W).Pout c t (out6 (grid6.coords t) (fet6_0 (fun (_ : Dev nD) (b : Ref sig .tc) => W b) c t d0)
      (fet6_1 (fun (_ : Dev nD) (b : Ref sig .tc) => W b) c t d1) (fet6_2 (fun (_ : Dev nD) (b : Ref sig .tc) => W b) c t d2) O s) := by
  rw [fet0_eq, fet1_eq, fet2_eq]
  unfold out6 acc6
  rw [if_pos (conds6 t).2, if_pos (conds6 t).1]
  show (cfg6.win 3).cut (grid6.coords t) _ = _
  funext j
  show k6_pay3 (k6_pay2 (W main_v17) (W main_v16) (k6_pay1 (F := Ideal))) (W main_v19) j
    = Cert.Net.slayer (B := 512) (K := 256) (N := 128) (W main_v16) (W main_v17) (W main_v19) (((cfg6.win 3).blk t).view.emb j)
  rw [emb6_3]
  obtain ⟨r, q, rfl⟩ : ∃ (r : Fin 512) (q : Fin 128), j = ix2 r q := ⟨j 0, j 1, eq_ix2 j⟩
  rw [pay3_apply, pay2_apply, pay1_apply, zero_add]
  rfl

theorem steps6 (c : Dev nD) : Hand.Steps6 (fun (_ : Dev nD) (b : Ref sig .tc) => W b) (PW6 W) c where
  init _ := trivial
  step _ _ _ _ _ := trivial
  last t d0 d1 d2 O s _ _ := last6 W c t d0 d1 d2 O s

theorem mem_blk6 (t : Fin cfg6.N) (i : S512x128.Idx) : i ∈ ((cfg6.win 3).blk t).view.set := by
  obtain ⟨-, -, -, ⟨e0, e1⟩⟩ := index6 t
  show i ∈ ((View.whole main_v20).slice (win6_3.rect t)).set
  rw [View.set_slice_whole, Rect.mem_set_unit]
  intro a
  match a with
  | ⟨0, _⟩ =>
    show win6_3.index t 0 * 512 ≤ (i 0).val ∧ (i 0).val < win6_3.index t 0 * 512 + 512
    have h0 : (i 0).val < 512 := (i 0).isLt
    rw [e0]; omega
  | ⟨1, _⟩ =>
    show win6_3.index t 1 * 128 ≤ (i 1).val ∧ (i 1).val < win6_3.index t 1 * 128 + 128
    have h1 : (i 1).val < 128 := (i 1).isLt
    rw [e1]; omega

theorem cover6 (i : S512x128.Idx) : ∃ t : Fin cfg6.N, (cfg6.win 3).flush t = true ∧ i ∈ ((cfg6.win 3).blk t).view.set :=
  ⟨⟨0, by decide⟩, flush6_3 _, mem_blk6 _ i⟩

theorem rel6 (c : Dev nD) (Fo : Buf (Elt Ideal) ((c : Thread nD τ).loc main_v20))
    (h : (Hand.rdat6 (fun (_ : Dev nD) (b : Ref sig .tc) => W b) (PW6 W) c).ArrAt 3 cfg6.N Fo) : Qv6 c W Fo := by
  unfold Qv6
  refine Cert.Cover.arrAt_eq_of_cover (Hand.rdat6 (fun (_ : Dev nD) (b : Ref sig .tc) => W b) (PW6 W) c) 3 _ (fun u _ X hX => ?_) cover6 Fo h
  obtain ⟨Y, -, hY⟩ := hX
  have hY' : (cond6_1 (grid6.coords u) → (PW6 W).Pout c u X) ∧ (¬cond6_1 (grid6.coords u) → X = Y) := hY
  exact hY'.1 (conds6 u).2

end Cert.KernelIdeal.HandI.R6

end
-- ==== Proof.RefNet.lean ====
import proofs.«128469_j53695681135127_2_alg».proof.Defs
import proofs.«128469_j53695681135127_2_alg».proof.Proof.Spec
import proofs.«128469_j53695681135127_2_alg».proof.Proof.Gen.Pre_finite_inputs
import proofs.«128469_j53695681135127_2_alg».proof.Proof.Gen.ReferenceIdeal.Run
import proofs.«128469_j53695681135127_2_alg».proof.Proof.Gen.ReferenceIdeal.Read
import Idealize.ShloMosaic.Lib.ValueIdx
import Idealize.ShloMosaic.Lib.Pipeline.Value
import Idealize.ShloMosaic.PureOps.Ideal.Laws

noncomputable section

namespace Cert.RefNet

open Idealize.ShloMosaic Idealize.ShloMosaic.TcCoe Idealize.SL.Sem Idealize.ShloMosaic.ValueIdx
open Cert.ReferenceIdeal Cert.ReferenceIdeal.Gen Cert.ReferenceIdeal.Read Cert.Net

theorem idx2_ext {a b : Nat} (f g : (⟨2, ![a, b]⟩ : Shape).Idx) (h0 : (f 0).val = (g 0).val) (h1 : (f 1).val = (g 1).val) :
    f = g := by
  funext d
  match d with
  | ⟨0, _⟩ => exact Fin.ext h0
  | ⟨1, _⟩ => exact Fin.ext h1

theorem idx1_ext {a : Nat} (f g : (⟨1, ![a]⟩ : Shape).Idx) (h0 : (f 0).val = (g 0).val) : f = g := by
  funext d
  match d with
  | ⟨0, _⟩ => exact Fin.ext h0

theorem ofBits_one : Ideal.ofBits .f32 0x3F800000#32 = 1 := by
  simp [Ideal.ofBits, Ideal.ieee, -EReal.coe_mul]; norm_num

theorem concat_apply {B C D E : Nat} (a : Mat B C) (b : Mat B D)
    (h : Shape.Concatenates [(⟨2, ![B, C]⟩ : Shape), ⟨2, ![B, D]⟩] ⟨2, ![B, E]⟩ 1) (hE : E = C + D) (r : Fin B) (k : Fin E) :
    concatenate (⟨2, ![B, E]⟩ : Shape) 1 [⟨⟨2, ![B, C]⟩, a⟩, ⟨⟨2, ![B, D]⟩, b⟩] h (ix2 r k)
      = if hk : k.val < C then a (ix2 r ⟨k.val, hk⟩) else b (ix2 r ⟨k.val - C, by have := k.isLt; omega⟩) := by
  split
  · next hk =>
    exact concatenate_pair_apply_left 1 a b h (ix2 r k) rfl (ix2 r ⟨k.val, hk⟩)
      (fun d => match d with | ⟨0, _⟩ => rfl | ⟨1, _⟩ => rfl)
  · next hk =>
    exact concatenate_pair_apply_right 1 a b h (ix2 r k) rfl rfl (ix2 r ⟨k.val - C, by have := k.isLt; omega⟩)
      (fun d hd => match d, hd with | ⟨0, _⟩, _ => rfl | ⟨1, _⟩, hd => absurd rfl hd)
      (by show k.val - C + C = k.val; omega)

theorem cat17 (a : Mat 512 5000) (b : Mat 512 3000) :
    concatenate S512x8000 1 [⟨S512x5000, a⟩, ⟨S512x3000, b⟩] concatenates_S512x5000_S512x3000_S512x8000_d1
      = (hcat a b : Mat 512 8000) := by
  funext i
  obtain ⟨r, k, rfl⟩ : ∃ r k, i = ix2 r k := ⟨i 0, i 1, eq_ix2 i⟩
  exact concat_apply a b _ rfl r k

theorem cat32 (a : Mat 512 3000) (b : Mat 512 3000) :
    concatenate S512x6000 1 [⟨S512x3000, a⟩, ⟨S512x3000, b⟩] concatenates_S512x3000_S512x3000_S512x6000_d1
      = (hcat a b : Mat 512 6000) := by
  funext i
  obtain ⟨r, k, rfl⟩ : ∃ r k, i = ix2 r k := ⟨i 0, i 1, eq_ix2 i⟩
  exact concat_apply a b _ rfl r k

theorem layer1 (x0 : (⟨S512x28000, .f32⟩ : BufTy).Contents (Elt Ideal)) (x1 : (⟨S20000x5000, .f32⟩ : BufTy).Contents (Elt Ideal)) (x5 : (⟨S5000x20000, .f32⟩ : BufTy).Contents (Elt Ideal)) (x6 : (⟨S5000, .f32⟩ : BufTy).Contents (Elt Ideal)) :
    val_main_v9 (F := Ideal) x0 x1 x5 x6 = mlayer (cols 20000 8000 (by decide) x0) x5 x1 (row x6) := by
  funext i
  obtain ⟨r, n, rfl⟩ : ∃ r n, i = ix2 r n := ⟨i 0, i 1, eq_ix2 i⟩
  rw [val_main_v9_apply, val_main_v8_apply, val_main_v5_apply, val_main_v7_apply, val_main_v6_apply,
    val_main_call0_v0_apply, val_main_call0_cst_apply]
  have e0 : ∀ k : Fin 20000, idx_main_v0 (lidx_main_v5 (ix2 r n) k) = ix2 r ⟨8000 + k.val, by omega⟩ :=
    fun k => idx2_ext _ _ rfl rfl
  have e1 : ∀ k : Fin 20000, idx_main_v3 (ridx_main_v5 (ix2 r n) k) = ix2 n k := fun k => idx2_ext _ _ rfl rfl
  have e2 : ∀ k : Fin 20000, ridx_main_v5 (ix2 r n) k = ix2 k n := fun k => idx2_ext _ _ rfl rfl
  have e3 : idx_main_v6 (idx_main_v7 (ix2 r n)) = ix1 n := idx1_ext _ _ rfl
  rw [e3]
  simp only [val_main_v0_apply, val_main_v4_apply, val_main_v3_apply, e0, e1, e2, Ideal.mulf_def, Ideal.addf_def, Ideal.maximumf_def, Ideal.ofBits_def,
    Ideal.ofBits_zero_f32, mlayer, mpre, dlayer, dpre, cols, row]

theorem layer2 (x0 : (⟨S512x28000, .f32⟩ : BufTy).Contents (Elt Ideal)) (x2 : (⟨S5000x3000, .f32⟩ : BufTy).Contents (Elt Ideal)) (x7 : (⟨S3000x5000, .f32⟩ : BufTy).Contents (Elt Ideal)) (x8 : (⟨S3000, .f32⟩ : BufTy).Contents (Elt Ideal)) :
    val_main_v16 (F := Ideal) x0 x2 x7 x8 = mlayer (cols 5000 3000 (by decide) x0) x7 x2 (row x8) := by
  funext i
  obtain ⟨r, n, rfl⟩ : ∃ r n, i = ix2 r n := ⟨i 0, i 1, eq_ix2 i⟩
  rw [val_main_v16_apply, val_main_v15_apply, val_main_v12_apply, val_main_v14_apply, val_main_v13_apply,
    val_main_call1_v0_apply, val_main_call1_cst_apply]
  have e0 : ∀ k : Fin 5000, idx_main_v1 (lidx_main_v12 (ix2 r n) k) = ix2 r ⟨3000 + k.val, by omega⟩ :=
    fun k => idx2_ext _ _ rfl rfl
  have e1 : ∀ k : Fin 5000, idx_main_v10 (ridx_main_v12 (ix2 r n) k) = ix2 n k := fun k => idx2_ext _ _ rfl rfl
  have e2 : ∀ k : Fin 5000, ridx_main_v12 (ix2 r n) k = ix2 k n := fun k => idx2_ext _ _ rfl rfl
  have e3 : idx_main_v13 (idx_main_v14 (ix2 r n)) = ix1 n := idx1_ext _ _ rfl
  rw [e3]
  simp only [val_main_v1_apply, val_main_v11_apply, val_main_v10_apply, e0, e1, e2, Ideal.mulf_def, Ideal.addf_def, Ideal.maximumf_def, Ideal.ofBits_def,
    Ideal.ofBits_zero_f32, mlayer, mpre, dlayer, dpre, cols, row]

theorem stage17 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) :
    val_main_v17 (F := Ideal) x0 x1 x2 x5 x6 x7 x8 = (hcat (val_main_v9 (F := Ideal) x0 x1 x5 x6) (val_main_v16 (F := Ideal) x0 x2 x7 x8) : Mat 512 8000) := by
  unfold val_main_v17
  exact cat17 _ _

theorem layer3 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) :
    val_main_v24 (F := Ideal) x0 x1 x2 x3 x5 x6 x7 x8 x9 x10
      = mlayer (hcat (val_main_v9 (F := Ideal) x0 x1 x5 x6) (val_main_v16 (F := Ideal) x0 x2 x7 x8) : Mat 512 8000) x9 x3 (row x10) := by
  funext i
  obtain ⟨r, n, rfl⟩ : ∃ r n, i = ix2 r n := ⟨i 0, i 1, eq_ix2 i⟩
  rw [val_main_v24_apply, val_main_v23_apply, val_main_v20_apply, val_main_v22_apply, val_main_v21_apply,
    val_main_call2_v0_apply, val_main_call2_cst_apply, stage17]
  have e0 : ∀ k : Fin 8000, lidx_main_v20 (ix2 r n) k = ix2 r k := fun k => idx2_ext _ _ rfl rfl
  have e1 : ∀ k : Fin 8000, idx_main_v18 (ridx_main_v20 (ix2 r n) k) = ix2 n k := fun k => idx2_ext _ _ rfl rfl
  have e2 : ∀ k : Fin 8000, ridx_main_v20 (ix2 r n) k = ix2 k n := fun k => idx2_ext _ _ rfl rfl
  have e3 : idx_main_v21 (idx_main_v22 (ix2 r n)) = ix1 n := idx1_ext _ _ rfl
  rw [e3]
  simp only [val_main_v19_apply, val_main_v18_apply, e0, e1, e2, Ideal.mulf_def, Ideal.addf_def, Ideal.maximumf_def, Ideal.ofBits_def,
    Ideal.ofBits_zero_f32, mlayer, mpre, dlayer, dpre, cols, row]

theorem layer4 (x0 : (⟨S512x28000, .f32⟩ : BufTy).Contents (Elt Ideal)) (x4 : (⟨S3000x3000, .f32⟩ : BufTy).Contents (Elt Ideal)) (x11 : (⟨S3000x3000, .f32⟩ : BufTy).Contents (Elt Ideal)) (x12 : (⟨S3000, .f32⟩ : BufTy).Contents (Elt Ideal)) :
    val_main_v31 (F := Ideal) x0 x4 x11 x12 = mlayer (cols 3000 0 (by decide) x0) x11 x4 (row x12) := by
  funext i
  obtain ⟨r, n, rfl⟩ : ∃ r n, i = ix2 r n := ⟨i 0, i 1, eq_ix2 i⟩
  rw [val_main_v31_apply, val_main_v30_apply, val_main_v27_apply, val_main_v29_apply, val_main_v28_apply,
    val_main_call3_v0_apply, val_main_call3_cst_apply]
  have e0 : ∀ k : Fin 3000, idx_main_v2 (lidx_main_v27 (ix2 r n) k) = ix2 r ⟨0 + k.val, by omega⟩ :=
    fun k => idx2_ext _ _ rfl (by show k.val = 0 + k.val; omega)
  have e1 : ∀ k : Fin 3000, idx_main_v25 (ridx_main_v27 (ix2 r n) k) = ix2 n k := fun k => idx2_ext _ _ rfl rfl
  have e2 : ∀ k : Fin 3000, ridx_main_v27 (ix2 r n) k = ix2 k n := fun k => idx2_ext _ _ rfl rfl
  have e3 : idx_main_v28 (idx_main_v29 (ix2 r n)) = ix1 n := idx1_ext _ _ rfl
  rw [e3]
  simp only [val_main_v2_apply, val_main_v26_apply, val_main_v25_apply, e0, e1, e2, Ideal.mulf_def, Ideal.addf_def, Ideal.maximumf_def, Ideal.ofBits_def,
    Ideal.ofBits_zero_f32, mlayer, mpre, dlayer, dpre, cols, row]

theorem stage32 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x4 : (⟨S3000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) (x11 : (⟨S3000x3000, .f32⟩ : BufTy).Contents (Elt Ideal)) (x12 : (⟨S3000, .f32⟩ : BufTy).Contents (Elt Ideal)) :
    val_main_v32 (F := Ideal) x0 x1 x2 x3 x4 x5 x6 x7 x8 x9 x10 x11 x12 = (hcat (val_main_v24 (F := Ideal) x0 x1 x2 x3 x5 x6 x7 x8 x9 x10) (val_main_v31 (F := Ideal) x0 x4 x11 x12) : Mat 512 6000) := by
  unfold val_main_v32
  exact cat32 _ _

theorem layer5 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x4 : (⟨S3000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) (x11 : (⟨S3000x3000, .f32⟩ : BufTy).Contents (Elt Ideal)) (x12 : (⟨S3000, .f32⟩ : BufTy).Contents (Elt Ideal)) (x13 : (⟨S1024x6000, .f32⟩ : BufTy).Contents (Elt Ideal)) (x14 : (⟨S1024, .f32⟩ : BufTy).Contents (Elt Ideal)) :
    val_main_v38 (F := Ideal) x0 x1 x2 x3 x4 x5 x6 x7 x8 x9 x10 x11 x12 x13 x14
      = dlayer (hcat (val_main_v24 (F := Ideal) x0 x1 x2 x3 x5 x6 x7 x8 x9 x10) (val_main_v31 (F := Ideal) x0 x4 x11 x12) : Mat 512 6000) x13 (row x14) := by
  funext i
  obtain ⟨r, n, rfl⟩ : ∃ r n, i = ix2 r n := ⟨i 0, i 1, eq_ix2 i⟩
  rw [val_main_v38_apply, val_main_v37_apply, val_main_v34_apply, val_main_v36_apply, val_main_v35_apply,
    val_main_call4_v0_apply, val_main_call4_cst_apply, stage32]
  have e0 : ∀ k : Fin 6000, lidx_main_v34 (ix2 r n) k = ix2 r k := fun k => idx2_ext _ _ rfl rfl
  have e1 : ∀ k : Fin 6000, idx_main_v33 (ridx_main_v34 (ix2 r n) k) = ix2 n k := fun k => idx2_ext _ _ rfl rfl
  have e3 : idx_main_v35 (idx_main_v36 (ix2 r n)) = ix1 n := idx1_ext _ _ rfl
  rw [e3]
  simp only [val_main_v33_apply, e0, e1, Ideal.mulf_def, Ideal.addf_def, Ideal.maximumf_def, Ideal.ofBits_def,
    Ideal.ofBits_zero_f32, mlayer, mpre, dlayer, dpre, cols, row]

theorem layer6 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x4 : (⟨S3000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) (x11 : (⟨S3000x3000, .f32⟩ : BufTy).Contents (Elt Ideal)) (x12 : (⟨S3000, .f32⟩ : BufTy).Contents (Elt Ideal)) (x13 : (⟨S1024x6000, .f32⟩ : BufTy).Contents (Elt Ideal)) (x14 : (⟨S1024, .f32⟩ : BufTy).Contents (Elt Ideal)) (x15 : (⟨S256x1024, .f32⟩ : BufTy).Contents (Elt Ideal)) (x16 : (⟨S256, .f32⟩ : BufTy).Contents (Elt Ideal)) :
    val_main_v44 (F := Ideal) x0 x1 x2 x3 x4 x5 x6 x7 x8 x9 x10 x11 x12 x13 x14 x15 x16 = dlayer (val_main_v38 (F := Ideal) x0 x1 x2 x3 x4 x5 x6 x7 x8 x9 x10 x11 x12 x13 x14) x15 (row x16) := by
  funext i
  obtain ⟨r, n, rfl⟩ : ∃ r n, i = ix2 r n := ⟨i 0, i 1, eq_ix2 i⟩
  rw [val_main_v44_apply, val_main_v43_apply, val_main_v40_apply, val_main_v42_apply, val_main_v41_apply,
    val_main_call5_v0_apply, val_main_call5_cst_apply]
  have e0 : ∀ k : Fin 1024, lidx_main_v40 (ix2 r n) k = ix2 r k := fun k => idx2_ext _ _ rfl rfl
  have e1 : ∀ k : Fin 1024, idx_main_v39 (ridx_main_v40 (ix2 r n) k) = ix2 n k := fun k => idx2_ext _ _ rfl rfl
  have e3 : idx_main_v41 (idx_main_v42 (ix2 r n)) = ix1 n := idx1_ext _ _ rfl
  rw [e3]
  simp only [val_main_v39_apply, e0, e1, Ideal.mulf_def, Ideal.addf_def, Ideal.maximumf_def, Ideal.ofBits_def,
    Ideal.ofBits_zero_f32, mlayer, mpre, dlayer, dpre, cols, row]

theorem layer7 (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x4 : (⟨S3000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) (x11 : (⟨S3000x3000, .f32⟩ : BufTy).Contents (Elt Ideal)) (x12 : (⟨S3000, .f32⟩ : BufTy).Contents (Elt Ideal)) (x13 : (⟨S1024x6000, .f32⟩ : BufTy).Contents (Elt Ideal)) (x14 : (⟨S1024, .f32⟩ : BufTy).Contents (Elt Ideal)) (x15 : (⟨S256x1024, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal)) :
    val_main_v55 (F := Ideal) x0 x1 x2 x3 x4 x5 x6 x7 x8 x9 x10 x11 x12 x13 x14 x15 x16 x17 x18 = slayer (val_main_v44 (F := Ideal) x0 x1 x2 x3 x4 x5 x6 x7 x8 x9 x10 x11 x12 x13 x14 x15 x16) x17 (row x18) := by
  funext i
  obtain ⟨r, n, rfl⟩ : ∃ r n, i = ix2 r n := ⟨i 0, i 1, eq_ix2 i⟩
  rw [val_main_v55_apply, val_main_v54_apply, val_main_cst_0_apply, val_main_v53_apply, val_main_v52_apply,
    val_main_cst_apply, val_main_v51_apply, val_main_v50_apply, val_main_v49_apply, val_main_v46_apply,
    val_main_v48_apply, val_main_v47_apply]
  have e0 : ∀ k : Fin 256, lidx_main_v46 (ix2 r n) k = ix2 r k := fun k => idx2_ext _ _ rfl rfl
  have e1 : ∀ k : Fin 256, idx_main_v45 (ridx_main_v46 (ix2 r n) k) = ix2 n k := fun k => idx2_ext _ _ rfl rfl
  have e3 : idx_main_v47 (idx_main_v48 (ix2 r n)) = ix1 n :=
    idx1_ext _ _ (by have := n.isLt; show 0 = n.val; omega)
  rw [e3]
  simp only [val_main_v45_apply, e0, e1, Ideal.hostDivf_def, Ideal.addf_def, Ideal.hostUnary_exp_def,
    Ideal.hostNegf_def, Ideal.negf_def, Ideal.ofBits_def, ofBits_one, slayer, dpre, row, Ideal.logistic]

theorem result_eq (x0 : (⟨S512x28000, .f32⟩ : BufTy).Contents (Elt Ideal)) (x1 : (⟨S20000x5000, .f32⟩ : BufTy).Contents (Elt Ideal)) (x2 : (⟨S5000x3000, .f32⟩ : BufTy).Contents (Elt Ideal)) (x3 : (⟨S8000x3000, .f32⟩ : BufTy).Contents (Elt Ideal)) (x4 : (⟨S3000x3000, .f32⟩ : BufTy).Contents (Elt Ideal)) (x5 : (⟨S5000x20000, .f32⟩ : BufTy).Contents (Elt Ideal)) (x6 : (⟨S5000, .f32⟩ : BufTy).Contents (Elt Ideal)) (x7 : (⟨S3000x5000, .f32⟩ : BufTy).Contents (Elt Ideal)) (x8 : (⟨S3000, .f32⟩ : BufTy).Contents (Elt Ideal)) (x9 : (⟨S3000x8000, .f32⟩ : BufTy).Contents (Elt Ideal)) (x10 : (⟨S3000, .f32⟩ : BufTy).Contents (Elt Ideal)) (x11 : (⟨S3000x3000, .f32⟩ : BufTy).Contents (Elt Ideal)) (x12 : (⟨S3000, .f32⟩ : BufTy).Contents (Elt Ideal)) (x13 : (⟨S1024x6000, .f32⟩ : BufTy).Contents (Elt Ideal)) (x14 : (⟨S1024, .f32⟩ : BufTy).Contents (Elt Ideal)) (x15 : (⟨S256x1024, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal)) :
    val_main_v55 (F := Ideal) x0 x1 x2 x3 x4 x5 x6 x7 x8 x9 x10 x11 x12 x13 x14 x15 x16 x17 x18 = net x0 x1 x2 x3 x4 x5 x6 x7 x8 x9 x10 x11 x12 x13 x14 x15 x16 x17 x18 := by
  rw [layer7, layer6, layer5, layer3, layer4, layer1, layer2]
  rfl

def netOf (m' : (ℓ : Loc Cert.ReferenceIdeal.nD Cert.ReferenceIdeal.τ Cert.ReferenceIdeal.sig) → Buf (Elt Ideal) ℓ) (c : Dev Cert.ReferenceIdeal.nD) : Mat 512 1 :=
  net (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))

theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v55) = netOf m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run (Cert.ReferenceIdeal.defs (F := Ideal)) _ _).mono
    (fun _ h c => ⟨(h c).1.trans ((val_main_v55_eq (F := Ideal) _ _ _ _ _ _ _ _ _ _ _ _ _ _ _ _ _ _ _).trans
      (result_eq _ _ _ _ _ _ _ _ _ _ _ _ _ _ _ _ _ _ _)), (h c).2⟩)
    (Cert.ReferenceIdeal.Value.run (F := Ideal) m' ρ')

theorem frame : Cert.frame_ReferenceIdeal := fun m ρ _ =>
  (θ_run (Cert.ReferenceIdeal.defs (F := Ideal)) _ _).mono (fun _ h c => (h c).2) (Cert.ReferenceIdeal.Value.run (F := Ideal) m ρ)

end Cert.RefNet

end
-- ==== Proof.KI.ClaimI.lean ====
import proofs.«128469_j53695681135127_2_alg».proof.Defs
import proofs.«128469_j53695681135127_2_alg».proof.Proof.Gen.KernelIdeal
import proofs.«128469_j53695681135127_2_alg».proof.Proof.Gen.Pre_finite_inputs
import proofs.«128469_j53695681135127_2_alg».proof.Proof.KI.Top
import proofs.«128469_j53695681135127_2_alg».proof.Proof.KI.FramePure
import proofs.«128469_j53695681135127_2_alg».proof.Proof.KI.ValueI
import proofs.«128469_j53695681135127_2_alg».proof.Proof.KI.Seg
import proofs.«128469_j53695681135127_2_alg».proof.Proof.KI.Ideal0
import proofs.«128469_j53695681135127_2_alg».proof.Proof.KI.IdealMasked
import proofs.«128469_j53695681135127_2_alg».proof.Proof.KI.Ideal4
import proofs.«128469_j53695681135127_2_alg».proof.Proof.KI.Ideal5
import proofs.«128469_j53695681135127_2_alg».proof.Proof.KI.Ideal6
import proofs.«128469_j53695681135127_2_alg».proof.Proof.RefNet

noncomputable section

namespace Cert.KernelIdeal.HandI

open Cert.KernelIdeal Cert.KernelIdeal.Gen Cert.KernelIdeal.Hand
open Idealize.ShloMosaic Idealize.ShloMosaic.TcCoe Idealize.SL.Sem

theorem stepI0 : RegionStep (F := Ideal) 0 main_v4 Qv0 :=
  (region_step0 (F := Ideal) R0.PW0 (fun c W => R0.steps0 c W)).mono
    (fun c W Fo h => R0.rel0 c W Fo h)

theorem stepI1 : RegionStep (F := Ideal) 1 main_v6 Qv1 :=
  (region_step1 (F := Ideal) R1.PW1 (fun c W => R1.steps1 W c)).mono
    (fun c W Fo h => R1.rel1 W c Fo h)

theorem stepI2 : RegionStep (F := Ideal) 2 main_v9 Qv2 :=
  (region_step2 (F := Ideal) R2.PW2 (fun c W => R2.steps2 W c)).mono
    (fun c W Fo h => R2.rel2 W c Fo h)

theorem stepI3 : RegionStep (F := Ideal) 3 main_v11 Qv3 :=
  (region_step3 (F := Ideal) R3.PW3 (fun c W => R3.steps3 W c)).mono
    (fun c W Fo h => R3.rel3 W c Fo h)

theorem stepI4 : RegionStep (F := Ideal) 4 main_v14 Qv4 :=
  (region_step4 (F := Ideal) R4.PW4 (fun c W => R4.steps4 c W)).mono
    (fun c W Fo h => R4.rel4 c W Fo h)

theorem stepI5 : RegionStep (F := Ideal) 5 main_v16 Qv5 :=
  (region_step5 (F := Ideal) R5.PW5 (fun c W => R5.steps5 c W)).mono
    (fun c W Fo h => R5.rel5 c W Fo h)

theorem stepI6 : RegionStep (F := Ideal) 6 main_v20 Qv6 :=
  (region_step6 (F := Ideal) R6.PW6 (fun c W => R6.steps6 W c)).mono
    (fun c W Fo h => R6.rel6 W c Fo h)

theorem runI (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∃ W, Inv19 (F := Ideal) m Qv0 Qv1 Qv2 Qv3 Qv4 Qv5 Qv6 c W
        ∧ ∀ b ∈ Pipeline.ucRefs τ sig, r.2.mem (((c : Thread nD τ)).1, b) = W b) :=
  run_dyn (F := Ideal) m Qv0 Qv1 Qv2 Qv3 Qv4 Qv5 Qv6 ρ stepI0 stepI1 stepI2 stepI3 stepI4 stepI5 stepI6

theorem frame_pi : Cert.frame_KernelIdeal := fun m ρ _ =>
  (θ_run defs _ _).mono (fun _ h c => args_kept (F := Ideal) m Qv0 Qv1 Qv2 Qv3 Qv4 Qv5 Qv6 c (h c)) (runI m ρ)

theorem algebraic : Cert.algebraic_KernelIdeal_ReferenceIdeal := by
  intro m ρ m' ρ' _ hagree
  refine ⟨fun c => Cert.RefNet.netOf m' c, ?_, Cert.RefNet.run m' ρ'⟩
  refine (θ_run defs _ _).mono (fun r h c => ?_) (runI m ρ)
  obtain ⟨W, hI, hb⟩ := h c
  have hv := inv19_value m c W hI
  have hg := hagree c
  refine ⟨(hb _ (mem_uc main_v21 (by decide))).trans (hv.trans ?_),
    args_kept (F := Ideal) m Qv0 Qv1 Qv2 Qv3 Qv4 Qv5 Qv6 c ⟨W, hI, hb⟩⟩
  unfold Cert.RefNet.netOf
  dsimp only
  rw [hg.1, hg.2.1, hg.2.2.1, hg.2.2.2.1, hg.2.2.2.2.1, hg.2.2.2.2.2.1, hg.2.2.2.2.2.2.1, hg.2.2.2.2.2.2.2.1, hg.2.2.2.2.2.2.2.2.1, hg.2.2.2.2.2.2.2.2.2.1, hg.2.2.2.2.2.2.2.2.2.2.1, hg.2.2.2.2.2.2.2.2.2.2.2.1, hg.2.2.2.2.2.2.2.2.2.2.2.2.1, hg.2.2.2.2.2.2.2.2.2.2.2.2.2.1, hg.2.2.2.2.2.2.2.2.2.2.2.2.2.2.1, hg.2.2.2.2.2.2.2.2.2.2.2.2.2.2.2.1, hg.2.2.2.2.2.2.2.2.2.2.2.2.2.2.2.2.1, hg.2.2.2.2.2.2.2.2.2.2.2.2.2.2.2.2.2.1, hg.2.2.2.2.2.2.2.2.2.2.2.2.2.2.2.2.2.2]

end Cert.KernelIdeal.HandI

end
-- ==== Proof.lean ====
/-
  A seven-layer network — four graph layers `max (x · (Wᵀ ∘ adj) + b) 0`, two of them on concatenations of earlier
  results, two dense layers and a logistic layer — computed tile by tile against the same network written as plain
  matrix operations. Over the extended reals a masked position contributes `x · (w · 0) = 0`, a sum may be regrouped
  freely and a matrix product is its sum: each running sum ends at the whole sum, the written blocks cover the
  result, and the composed layers are the reference's network. No finiteness of the inputs is used.

  The frame is proved once, for every reading of the floats, with nothing asked of what a region writes. The
  idealization rewrote nothing: the two printed kernel programs are one program, and that one proof serves both.
-/
import proofs.«128469_j53695681135127_2_alg».proof.Defs
import proofs.«128469_j53695681135127_2_alg».proof.Proof.Gen.Kernel
import proofs.«128469_j53695681135127_2_alg».proof.Proof.Gen.KernelIdeal
import proofs.«128469_j53695681135127_2_alg».proof.Proof.Gen.ReferenceIdeal
import proofs.«128469_j53695681135127_2_alg».proof.Proof.Gen.Pre_finite_inputs
import proofs.«128469_j53695681135127_2_alg».proof.Proof.Same
import proofs.«128469_j53695681135127_2_alg».proof.Proof.KI.FrameAny
import proofs.«128469_j53695681135127_2_alg».proof.Proof.KI.ClaimI
import proofs.«128469_j53695681135127_2_alg».proof.Proof.RefNet

noncomputable section

namespace Cert.Proof

open Idealize.ShloMosaic Idealize.SL.Sem

set_option maxHeartbeats 2000000 in
theorem frame_p : Cert.frame_Kernel := fun m ρ _ => by
  have h := (θ_run Cert.KernelIdeal.defs _ _).mono
    (fun _ h c => Cert.KernelIdeal.Hand.args_kept (F := Bits) m _ _ _ _ _ _ _ c (h c)) (Cert.KernelIdeal.Hand.run_any m ρ)
  rw [← Cert.Same.defs_eq] at h
  exact h

theorem claim : Cert.Claim :=
  ⟨Cert.Kernel.Gen.facts, Cert.KernelIdeal.Gen.facts, Cert.ReferenceIdeal.Gen.facts, Cert.Pre_finite_inputs.Gen.facts,
    frame_p, Cert.KernelIdeal.HandI.frame_pi, Cert.RefNet.frame, trivial, Cert.KernelIdeal.HandI.algebraic⟩

end Cert.Proof

end
